-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8732x4 : Shape := ⟨2, ![8732, 4]⟩
abbrev S32x8732x4 : Shape := ⟨3, ![32, 8732, 4]⟩
abbrev S32x8732x21 : Shape := ⟨3, ![32, 8732, 21]⟩
abbrev S_ : Shape := ⟨0, ![]⟩

class Facts : Prop where
  bcast_S_S8732x4 : S_.BroadcastsInDim S8732x4 (![] : Fin 0 → Fin S8732x4.rank)
  reducesTo_S8732x4_S_d0_1 : S8732x4.ReducesTo [0, 1] S_
  h_S_ : 0 < S_.numel
  bcast_S_S32x8732x4 : S_.BroadcastsInDim S32x8732x4 (![] : Fin 0 → Fin S32x8732x4.rank)
  reducesTo_S32x8732x4_S_d0_1_2 : S32x8732x4.ReducesTo [0, 1, 2] S_
  bcast_S_S32x8732x21 : S_.BroadcastsInDim S32x8732x21 (![] : Fin 0 → Fin S32x8732x21.rank)
  reducesTo_S32x8732x21_S_d0_1_2 : S32x8732x21.ReducesTo [0, 1, 2] S_

variable [Facts]

def fn_part7 {F : FTy → Type} [FloatOps F] (main_v118 : IVec S_ 1) (main_v119 : FVec F S32x8732x21 .f32) : IVec S_ 1 :=
  let main_cst_46 : FVec F S_ .f32 := constant S_ .f32 0x7F800000#32
  let main_v120 : FVec F S32x8732x21 .f32 := broadcastInDim S32x8732x21 ![] bcast_S_S32x8732x21 main_cst_46
  let main_v121 : IVec S32x8732x21 1 := cmpf .olt main_v119 main_v120
  let main_c_47 : IVec S_ 1 := constantI S_ 1 1#1
  let main_v122 : IVec S_ 1 := (fun x v => Host.reduce IntOp.andi x v reducesTo_S32x8732x21_S_d0_1_2 h_S_) main_v121 main_c_47
  let main_v123 : IVec S_ 1 := andi main_v118 main_v122
  main_v123

def fn_part6 {F : FTy → Type} [FloatOps F] (main_arg21 : FVec F S32x8732x21 .f32) (main_arg22 : FVec F S32x8732x21 .f32) (main_arg23 : FVec F S32x8732x21 .f32) (main_arg24 : FVec F S32x8732x21 .f32) (main_v98 : IVec S_ 1) (main_v101 : IVec S32x8732x21 1) (main_c_39 : IVec S_ 1) : IVec S_ 1 :=
  let main_v102 : IVec S_ 1 := (fun x v => Host.reduce IntOp.andi x v reducesTo_S32x8732x21_S_d0_1_2 h_S_) main_v101 main_c_39
  let main_v103 : IVec S_ 1 := andi main_v98 main_v102
  let main_v104 : FVec F S32x8732x21 .f32 := Host.absf main_arg21
  let main_cst_40 : FVec F S_ .f32 := constant S_ .f32 0x7F800000#32
  let main_v105 : FVec F S32x8732x21 .f32 := broadcastInDim S32x8732x21 ![] bcast_S_S32x8732x21 main_cst_40
  let main_v106 : IVec S32x8732x21 1 := cmpf .olt main_v104 main_v105
  let main_c_41 : IVec S_ 1 := constantI S_ 1 1#1
  let main_v107 : IVec S_ 1 := (fun x v => Host.reduce IntOp.andi x v reducesTo_S32x8732x21_S_d0_1_2 h_S_) main_v106 main_c_41
  let main_v108 : IVec S_ 1 := andi main_v103 main_v107
  let main_v109 : FVec F S32x8732x21 .f32 := Host.absf main_arg22
  let main_cst_42 : FVec F S_ .f32 := constant S_ .f32 0x7F800000#32
  let main_v110 : FVec F S32x8732x21 .f32 := broadcastInDim S32x8732x21 ![] bcast_S_S32x8732x21 main_cst_42
  let main_v111 : IVec S32x8732x21 1 := cmpf .olt main_v109 main_v110
  let main_c_43 : IVec S_ 1 := constantI S_ 1 1#1
  let main_v112 : IVec S_ 1 := (fun x v => Host.reduce IntOp.andi x v reducesTo_S32x8732x21_S_d0_1_2 h_S_) main_v111 main_c_43
  let main_v113 : IVec S_ 1 := andi main_v108 main_v112
  let main_v114 : FVec F S32x8732x21 .f32 := Host.absf main_arg23
  let main_cst_44 : FVec F S_ .f32 := constant S_ .f32 0x7F800000#32
  let main_v115 : FVec F S32x8732x21 .f32 := broadcastInDim S32x8732x21 ![] bcast_S_S32x8732x21 main_cst_44
  let main_v116 : IVec S32x8732x21 1 := cmpf .olt main_v114 main_v115
  let main_c_45 : IVec S_ 1 := constantI S_ 1 1#1
  let main_v117 : IVec S_ 1 := (fun x v => Host.reduce IntOp.andi x v reducesTo_S32x8732x21_S_d0_1_2 h_S_) main_v116 main_c_45
  let main_v118 : IVec S_ 1 := andi main_v113 main_v117
  let main_v119 : FVec F S32x8732x21 .f32 := Host.absf main_arg24
  fn_part7 (F := F) main_v118 main_v119

def fn_part5 {F : FTy → Type} [FloatOps F] (main_arg18 : FVec F S32x8732x21 .f32) (main_arg19 : FVec F S32x8732x21 .f32) (main_arg20 : FVec F S32x8732x21 .f32) (main_arg21 : FVec F S32x8732x21 .f32) (main_arg22 : FVec F S32x8732x21 .f32) (main_arg23 : FVec F S32x8732x21 .f32) (main_arg24 : FVec F S32x8732x21 .f32) (main_v83 : IVec S_ 1) (main_v84 : FVec F S32x8732x21 .f32) (main_cst_32 : FVec F S_ .f32) : IVec S_ 1 :=
  let main_v85 : FVec F S32x8732x21 .f32 := broadcastInDim S32x8732x21 ![] bcast_S_S32x8732x21 main_cst_32
  let main_v86 : IVec S32x8732x21 1 := cmpf .olt main_v84 main_v85
  let main_c_33 : IVec S_ 1 := constantI S_ 1 1#1
  let main_v87 : IVec S_ 1 := (fun x v => Host.reduce IntOp.andi x v reducesTo_S32x8732x21_S_d0_1_2 h_S_) main_v86 main_c_33
  let main_v88 : IVec S_ 1 := andi main_v83 main_v87
  let main_v89 : FVec F S32x8732x21 .f32 := Host.absf main_arg18
  let main_cst_34 : FVec F S_ .f32 := constant S_ .f32 0x7F800000#32
  let main_v90 : FVec F S32x8732x21 .f32 := broadcastInDim S32x8732x21 ![] bcast_S_S32x8732x21 main_cst_34
  let main_v91 : IVec S32x8732x21 1 := cmpf .olt main_v89 main_v90
  let main_c_35 : IVec S_ 1 := constantI S_ 1 1#1
  let main_v92 : IVec S_ 1 := (fun x v => Host.reduce IntOp.andi x v reducesTo_S32x8732x21_S_d0_1_2 h_S_) main_v91 main_c_35
  let main_v93 : IVec S_ 1 := andi main_v88 main_v92
  let main_v94 : FVec F S32x8732x21 .f32 := Host.absf main_arg19
  let main_cst_36 : FVec F S_ .f32 := constant S_ .f32 0x7F800000#32
  let main_v95 : FVec F S32x8732x21 .f32 := broadcastInDim S32x8732x21 ![] bcast_S_S32x8732x21 main_cst_36
  let main_v96 : IVec S32x8732x21 1 := cmpf .olt main_v94 main_v95
  let main_c_37 : IVec S_ 1 := constantI S_ 1 1#1
  let main_v97 : IVec S_ 1 := (fun x v => Host.reduce IntOp.andi x v reducesTo_S32x8732x21_S_d0_1_2 h_S_) main_v96 main_c_37
  let main_v98 : IVec S_ 1 := andi main_v93 main_v97
  let main_v99 : FVec F S32x8732x21 .f32 := Host.absf main_arg20
  let main_cst_38 : FVec F S_ .f32 := constant S_ .f32 0x7F800000#32
  let main_v100 : FVec F S32x8732x21 .f32 := broadcastInDim S32x8732x21 ![] bcast_S_S32x8732x21 main_cst_38
  let main_v101 : IVec S32x8732x21 1 := cmpf .olt main_v99 main_v100
  let main_c_39 : IVec S_ 1 := constantI S_ 1 1#1
  fn_part6 (F := F) main_arg21 main_arg22 main_arg23 main_arg24 main_v98 main_v101 main_c_39

def fn_part4 {F : FTy → Type} [FloatOps F] (main_arg14 : FVec F S32x8732x21 .f32) (main_arg15 : FVec F S32x8732x21 .f32) (main_arg16 : FVec F S32x8732x21 .f32) (main_arg17 : FVec F S32x8732x21 .f32) (main_arg18 : FVec F S32x8732x21 .f32) (main_arg19 : FVec F S32x8732x21 .f32) (main_arg20 : FVec F S32x8732x21 .f32) (main_arg21 : FVec F S32x8732x21 .f32) (main_arg22 : FVec F S32x8732x21 .f32) (main_arg23 : FVec F S32x8732x21 .f32) (main_arg24 : FVec F S32x8732x21 .f32) (main_v63 : IVec S_ 1) (main_v67 : IVec S_ 1) : IVec S_ 1 :=
  let main_v68 : IVec S_ 1 := andi main_v63 main_v67
  let main_v69 : FVec F S32x8732x21 .f32 := Host.absf main_arg14
  let main_cst_26 : FVec F S_ .f32 := constant S_ .f32 0x7F800000#32
  let main_v70 : FVec F S32x8732x21 .f32 := broadcastInDim S32x8732x21 ![] bcast_S_S32x8732x21 main_cst_26
  let main_v71 : IVec S32x8732x21 1 := cmpf .olt main_v69 main_v70
  let main_c_27 : IVec S_ 1 := constantI S_ 1 1#1
  let main_v72 : IVec S_ 1 := (fun x v => Host.reduce IntOp.andi x v reducesTo_S32x8732x21_S_d0_1_2 h_S_) main_v71 main_c_27
  let main_v73 : IVec S_ 1 := andi main_v68 main_v72
  let main_v74 : FVec F S32x8732x21 .f32 := Host.absf main_arg15
  let main_cst_28 : FVec F S_ .f32 := constant S_ .f32 0x7F800000#32
  let main_v75 : FVec F S32x8732x21 .f32 := broadcastInDim S32x8732x21 ![] bcast_S_S32x8732x21 main_cst_28
  let main_v76 : IVec S32x8732x21 1 := cmpf .olt main_v74 main_v75
  let main_c_29 : IVec S_ 1 := constantI S_ 1 1#1
  let main_v77 : IVec S_ 1 := (fun x v => Host.reduce IntOp.andi x v reducesTo_S32x8732x21_S_d0_1_2 h_S_) main_v76 main_c_29
  let main_v78 : IVec S_ 1 := andi main_v73 main_v77
  let main_v79 : FVec F S32x8732x21 .f32 := Host.absf main_arg16
  let main_cst_30 : FVec F S_ .f32 := constant S_ .f32 0x7F800000#32
  let main_v80 : FVec F S32x8732x21 .f32 := broadcastInDim S32x8732x21 ![] bcast_S_S32x8732x21 main_cst_30
  let main_v81 : IVec S32x8732x21 1 := cmpf .olt main_v79 main_v80
  let main_c_31 : IVec S_ 1 := constantI S_ 1 1#1
  let main_v82 : IVec S_ 1 := (fun x v => Host.reduce IntOp.andi x v reducesTo_S32x8732x21_S_d0_1_2 h_S_) main_v81 main_c_31
  let main_v83 : IVec S_ 1 := andi main_v78 main_v82
  let main_v84 : FVec F S32x8732x21 .f32 := Host.absf main_arg17
  let main_cst_32 : FVec F S_ .f32 := constant S_ .f32 0x7F800000#32
  fn_part5 (F := F) main_arg18 main_arg19 main_arg20 main_arg21 main_arg22 main_arg23 main_arg24 main_v83 main_v84 main_cst_32

def fn_part3 {F : FTy → Type} [FloatOps F] (main_arg11 : FVec F S32x8732x4 .f32) (main_arg12 : FVec F S32x8732x4 .f32) (main_arg13 : FVec F S32x8732x21 .f32) (main_arg14 : FVec F S32x8732x21 .f32) (main_arg15 : FVec F S32x8732x21 .f32) (main_arg16 : FVec F S32x8732x21 .f32) (main_arg17 : FVec F S32x8732x21 .f32) (main_arg18 : FVec F S32x8732x21 .f32) (main_arg19 : FVec F S32x8732x21 .f32) (main_arg20 : FVec F S32x8732x21 .f32) (main_arg21 : FVec F S32x8732x21 .f32) (main_arg22 : FVec F S32x8732x21 .f32) (main_arg23 : FVec F S32x8732x21 .f32) (main_arg24 : FVec F S32x8732x21 .f32) (main_v48 : IVec S_ 1) (main_v49 : FVec F S32x8732x4 .f32) (main_v50 : FVec F S32x8732x4 .f32) : IVec S_ 1 :=
  let main_v51 : IVec S32x8732x4 1 := cmpf .olt main_v49 main_v50
  let main_c_19 : IVec S_ 1 := constantI S_ 1 1#1
  let main_v52 : IVec S_ 1 := (fun x v => Host.reduce IntOp.andi x v reducesTo_S32x8732x4_S_d0_1_2 h_S_) main_v51 main_c_19
  let main_v53 : IVec S_ 1 := andi main_v48 main_v52
  let main_v54 : FVec F S32x8732x4 .f32 := Host.absf main_arg11
  let main_cst_20 : FVec F S_ .f32 := constant S_ .f32 0x7F800000#32
  let main_v55 : FVec F S32x8732x4 .f32 := broadcastInDim S32x8732x4 ![] bcast_S_S32x8732x4 main_cst_20
  let main_v56 : IVec S32x8732x4 1 := cmpf .olt main_v54 main_v55
  let main_c_21 : IVec S_ 1 := constantI S_ 1 1#1
  let main_v57 : IVec S_ 1 := (fun x v => Host.reduce IntOp.andi x v reducesTo_S32x8732x4_S_d0_1_2 h_S_) main_v56 main_c_21
  let main_v58 : IVec S_ 1 := andi main_v53 main_v57
  let main_v59 : FVec F S32x8732x4 .f32 := Host.absf main_arg12
  let main_cst_22 : FVec F S_ .f32 := constant S_ .f32 0x7F800000#32
  let main_v60 : FVec F S32x8732x4 .f32 := broadcastInDim S32x8732x4 ![] bcast_S_S32x8732x4 main_cst_22
  let main_v61 : IVec S32x8732x4 1 := cmpf .olt main_v59 main_v60
  let main_c_23 : IVec S_ 1 := constantI S_ 1 1#1
  let main_v62 : IVec S_ 1 := (fun x v => Host.reduce IntOp.andi x v reducesTo_S32x8732x4_S_d0_1_2 h_S_) main_v61 main_c_23
  let main_v63 : IVec S_ 1 := andi main_v58 main_v62
  let main_v64 : FVec F S32x8732x21 .f32 := Host.absf main_arg13
  let main_cst_24 : FVec F S_ .f32 := constant S_ .f32 0x7F800000#32
  let main_v65 : FVec F S32x8732x21 .f32 := broadcastInDim S32x8732x21 ![] bcast_S_S32x8732x21 main_cst_24
  let main_v66 : IVec S32x8732x21 1 := cmpf .olt main_v64 main_v65
  let main_c_25 : IVec S_ 1 := constantI S_ 1 1#1
  let main_v67 : IVec S_ 1 := (fun x v => Host.reduce IntOp.andi x v reducesTo_S32x8732x21_S_d0_1_2 h_S_) main_v66 main_c_25
  fn_part4 (F := F) main_arg14 main_arg15 main_arg16 main_arg17 main_arg18 main_arg19 main_arg20 main_arg21 main_arg22 main_arg23 main_arg24 main_v63 main_v67

def fn_part2 {F : FTy → Type} [FloatOps F] (main_arg7 : FVec F S32x8732x4 .f32) (main_arg8 : FVec F S32x8732x4 .f32) (main_arg9 : FVec F S32x8732x4 .f32) (main_arg10 : FVec F S32x8732x4 .f32) (main_arg11 : FVec F S32x8732x4 .f32) (main_arg12 : FVec F S32x8732x4 .f32) (main_arg13 : FVec F S32x8732x21 .f32) (main_arg14 : FVec F S32x8732x21 .f32) (main_arg15 : FVec F S32x8732x21 .f32) (main_arg16 : FVec F S32x8732x21 .f32) (main_arg17 : FVec F S32x8732x21 .f32) (main_arg18 : FVec F S32x8732x21 .f32) (main_arg19 : FVec F S32x8732x21 .f32) (main_arg20 : FVec F S32x8732x21 .f32) (main_arg21 : FVec F S32x8732x21 .f32) (main_arg22 : FVec F S32x8732x21 .f32) (main_arg23 : FVec F S32x8732x21 .f32) (main_arg24 : FVec F S32x8732x21 .f32) (main_v33 : IVec S_ 1) : IVec S_ 1 :=
  let main_v34 : FVec F S32x8732x4 .f32 := Host.absf main_arg7
  let main_cst_12 : FVec F S_ .f32 := constant S_ .f32 0x7F800000#32
  let main_v35 : FVec F S32x8732x4 .f32 := broadcastInDim S32x8732x4 ![] bcast_S_S32x8732x4 main_cst_12
  let main_v36 : IVec S32x8732x4 1 := cmpf .olt main_v34 main_v35
  let main_c_13 : IVec S_ 1 := constantI S_ 1 1#1
  let main_v37 : IVec S_ 1 := (fun x v => Host.reduce IntOp.andi x v reducesTo_S32x8732x4_S_d0_1_2 h_S_) main_v36 main_c_13
  let main_v38 : IVec S_ 1 := andi main_v33 main_v37
  let main_v39 : FVec F S32x8732x4 .f32 := Host.absf main_arg8
  let main_cst_14 : FVec F S_ .f32 := constant S_ .f32 0x7F800000#32
  let main_v40 : FVec F S32x8732x4 .f32 := broadcastInDim S32x8732x4 ![] bcast_S_S32x8732x4 main_cst_14
  let main_v41 : IVec S32x8732x4 1 := cmpf .olt main_v39 main_v40
  let main_c_15 : IVec S_ 1 := constantI S_ 1 1#1
  let main_v42 : IVec S_ 1 := (fun x v => Host.reduce IntOp.andi x v reducesTo_S32x8732x4_S_d0_1_2 h_S_) main_v41 main_c_15
  let main_v43 : IVec S_ 1 := andi main_v38 main_v42
  let main_v44 : FVec F S32x8732x4 .f32 := Host.absf main_arg9
  let main_cst_16 : FVec F S_ .f32 := constant S_ .f32 0x7F800000#32
  let main_v45 : FVec F S32x8732x4 .f32 := broadcastInDim S32x8732x4 ![] bcast_S_S32x8732x4 main_cst_16
  let main_v46 : IVec S32x8732x4 1 := cmpf .olt main_v44 main_v45
  let main_c_17 : IVec S_ 1 := constantI S_ 1 1#1
  let main_v47 : IVec S_ 1 := (fun x v => Host.reduce IntOp.andi x v reducesTo_S32x8732x4_S_d0_1_2 h_S_) main_v46 main_c_17
  let main_v48 : IVec S_ 1 := andi main_v43 main_v47
  let main_v49 : FVec F S32x8732x4 .f32 := Host.absf main_arg10
  let main_cst_18 : FVec F S_ .f32 := constant S_ .f32 0x7F800000#32
  let main_v50 : FVec F S32x8732x4 .f32 := broadcastInDim S32x8732x4 ![] bcast_S_S32x8732x4 main_cst_18
  fn_part3 (F := F) main_arg11 main_arg12 main_arg13 main_arg14 main_arg15 main_arg16 main_arg17 main_arg18 main_arg19 main_arg20 main_arg21 main_arg22 main_arg23 main_arg24 main_v48 main_v49 main_v50

def fn_part1 {F : FTy → Type} [FloatOps F] (main_arg4 : FVec F S32x8732x4 .f32) (main_arg5 : FVec F S32x8732x4 .f32) (main_arg6 : FVec F S32x8732x4 .f32) (main_arg7 : FVec F S32x8732x4 .f32) (main_arg8 : FVec F S32x8732x4 .f32) (main_arg9 : FVec F S32x8732x4 .f32) (main_arg10 : FVec F S32x8732x4 .f32) (main_arg11 : FVec F S32x8732x4 .f32) (main_arg12 : FVec F S32x8732x4 .f32) (main_arg13 : FVec F S32x8732x21 .f32) (main_arg14 : FVec F S32x8732x21 .f32) (main_arg15 : FVec F S32x8732x21 .f32) (main_arg16 : FVec F S32x8732x21 .f32) (main_arg17 : FVec F S32x8732x21 .f32) (main_arg18 : FVec F S32x8732x21 .f32) (main_arg19 : FVec F S32x8732x21 .f32) (main_arg20 : FVec F S32x8732x21 .f32) (main_arg21 : FVec F S32x8732x21 .f32) (main_arg22 : FVec F S32x8732x21 .f32) (main_arg23 : FVec F S32x8732x21 .f32) (main_arg24 : FVec F S32x8732x21 .f32) (main_v13 : IVec S_ 1) (main_v16 : IVec S32x8732x4 1) : IVec S_ 1 :=
  let main_c_5 : IVec S_ 1 := constantI S_ 1 1#1
  let main_v17 : IVec S_ 1 := (fun x v => Host.reduce IntOp.andi x v reducesTo_S32x8732x4_S_d0_1_2 h_S_) main_v16 main_c_5
  let main_v18 : IVec S_ 1 := andi main_v13 main_v17
  let main_v19 : FVec F S32x8732x4 .f32 := Host.absf main_arg4
  let main_cst_6 : FVec F S_ .f32 := constant S_ .f32 0x7F800000#32
  let main_v20 : FVec F S32x8732x4 .f32 := broadcastInDim S32x8732x4 ![] bcast_S_S32x8732x4 main_cst_6
  let main_v21 : IVec S32x8732x4 1 := cmpf .olt main_v19 main_v20
  let main_c_7 : IVec S_ 1 := constantI S_ 1 1#1
  let main_v22 : IVec S_ 1 := (fun x v => Host.reduce IntOp.andi x v reducesTo_S32x8732x4_S_d0_1_2 h_S_) main_v21 main_c_7
  let main_v23 : IVec S_ 1 := andi main_v18 main_v22
  let main_v24 : FVec F S32x8732x4 .f32 := Host.absf main_arg5
  let main_cst_8 : FVec F S_ .f32 := constant S_ .f32 0x7F800000#32
  let main_v25 : FVec F S32x8732x4 .f32 := broadcastInDim S32x8732x4 ![] bcast_S_S32x8732x4 main_cst_8
  let main_v26 : IVec S32x8732x4 1 := cmpf .olt main_v24 main_v25
  let main_c_9 : IVec S_ 1 := constantI S_ 1 1#1
  let main_v27 : IVec S_ 1 := (fun x v => Host.reduce IntOp.andi x v reducesTo_S32x8732x4_S_d0_1_2 h_S_) main_v26 main_c_9
  let main_v28 : IVec S_ 1 := andi main_v23 main_v27
  let main_v29 : FVec F S32x8732x4 .f32 := Host.absf main_arg6
  let main_cst_10 : FVec F S_ .f32 := constant S_ .f32 0x7F800000#32
  let main_v30 : FVec F S32x8732x4 .f32 := broadcastInDim S32x8732x4 ![] bcast_S_S32x8732x4 main_cst_10
  let main_v31 : IVec S32x8732x4 1 := cmpf .olt main_v29 main_v30
  let main_c_11 : IVec S_ 1 := constantI S_ 1 1#1
  let main_v32 : IVec S_ 1 := (fun x v => Host.reduce IntOp.andi x v reducesTo_S32x8732x4_S_d0_1_2 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S8732x4 .f32) (main_arg1 : FVec F S32x8732x4 .f32) (main_arg2 : FVec F S32x8732x4 .f32) (main_arg3 : FVec F S32x8732x4 .f32) (main_arg4 : FVec F S32x8732x4 .f32) (main_arg5 : FVec F S32x8732x4 .f32) (main_arg6 : FVec F S32x8732x4 .f32) (main_arg7 : FVec F S32x8732x4 .f32) (main_arg8 : FVec F S32x8732x4 .f32) (main_arg9 : FVec F S32x8732x4 .f32) (main_arg10 : FVec F S32x8732x4 .f32) (main_arg11 : FVec F S32x8732x4 .f32) (main_arg12 : FVec F S32x8732x4 .f32) (main_arg13 : FVec F S32x8732x21 .f32) (main_arg14 : FVec F S32x8732x21 .f32) (main_arg15 : FVec F S32x8732x21 .f32) (main_arg16 : FVec F S32x8732x21 .f32) (main_arg17 : FVec F S32x8732x21 .f32) (main_arg18 : FVec F S32x8732x21 .f32) (main_arg19 : FVec F S32x8732x21 .f32) (main_arg20 : FVec F S32x8732x21 .f32) (main_arg21 : FVec F S32x8732x21 .f32) (main_arg22 : FVec F S32x8732x21 .f32) (main_arg23 : FVec F S32x8732x21 .f32) (main_arg24 : FVec F S32x8732x21 .f32) : IVec S_ 1 :=
  let main_v0 : FVec F S8732x4 .f32 := Host.absf main_arg0
  let main_cst : FVec F S_ .f32 := constant S_ .f32 0x7F800000#32
  let main_v1 : FVec F S8732x4 .f32 := broadcastInDim S8732x4 ![] bcast_S_S8732x4 main_cst
  let main_v2 : IVec S8732x4 1 := cmpf .olt main_v0 main_v1
  let main_c : IVec S_ 1 := constantI S_ 1 1#1
  let main_v3 : IVec S_ 1 := (fun x v => Host.reduce IntOp.andi x v reducesTo_S8732x4_S_d0_1 h_S_) main_v2 main_c
  let main_v4 : FVec F S32x8732x4 .f32 := Host.absf main_arg1
  let main_cst_0 : FVec F S_ .f32 := constant S_ .f32 0x7F800000#32
  let main_v5 : FVec F S32x8732x4 .f32 := broadcastInDim S32x8732x4 ![] bcast_S_S32x8732x4 main_cst_0
  let main_v6 : IVec S32x8732x4 1 := cmpf .olt main_v4 main_v5
  let main_c_1 : IVec S_ 1 := constantI S_ 1 1#1
  let main_v7 : IVec S_ 1 := (fun x v => Host.reduce IntOp.andi x v reducesTo_S32x8732x4_S_d0_1_2 h_S_) main_v6 main_c_1
  let main_v8 : IVec S_ 1 := andi main_v3 main_v7
  let main_v9 : FVec F S32x8732x4 .f32 := Host.absf main_arg2
  let main_cst_2 : FVec F S_ .f32 := constant S_ .f32 0x7F800000#32
  let main_v10 : FVec F S32x8732x4 .f32 := broadcastInDim S32x8732x4 ![] bcast_S_S32x8732x4 main_cst_2
  let main_v11 : IVec S32x8732x4 1 := cmpf .olt main_v9 main_v10
  let main_c_3 : IVec S_ 1 := constantI S_ 1 1#1
  let main_v12 : IVec S_ 1 := (fun x v => Host.reduce IntOp.andi x v reducesTo_S32x8732x4_S_d0_1_2 h_S_) main_v11 main_c_3
  let main_v13 : IVec S_ 1 := andi main_v8 main_v12
  let main_v14 : FVec F S32x8732x4 .f32 := Host.absf main_arg3
  let main_cst_4 : FVec F S_ .f32 := constant S_ .f32 0x7F800000#32
  let main_v15 : FVec F S32x8732x4 .f32 := broadcastInDim S32x8732x4 ![] bcast_S_S32x8732x4 main_cst_4
  let main_v16 : IVec S32x8732x4 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S8732x4 : Shape := ⟨2, ![8732, 4]⟩
abbrev S32x8732x4 : Shape := ⟨3, ![32, 8732, 4]⟩
abbrev S32x8732x21 : Shape := ⟨3, ![32, 8732, 21]⟩
abbrev S32x4x8732 : Shape := ⟨3, ![32, 4, 8732]⟩
abbrev S21x32x8732 : Shape := ⟨3, ![21, 32, 8732]⟩
abbrev S4x8732 : Shape := ⟨2, ![4, 8732]⟩
abbrev S75x32x8732 : Shape := ⟨3, ![75, 32, 8732]⟩
abbrev S4x640 : Shape := ⟨2, ![4, 640]⟩
abbrev S16x4x640 : Shape := ⟨3, ![16, 4, 640]⟩
abbrev S21x16x640 : Shape := ⟨3, ![21, 16, 640]⟩
abbrev S75x16x640 : Shape := ⟨3, ![75, 16, 640]⟩
abbrev S2x640 : Shape := ⟨2, ![2, 640]⟩
abbrev S16x2x640 : Shape := ⟨3, ![16, 2, 640]⟩
abbrev S1x4x640 : Shape := ⟨3, ![1, 4, 640]⟩
abbrev S16x1x640 : Shape := ⟨3, ![16, 1, 640]⟩
abbrev S16x640 : Shape := ⟨2, ![16, 640]⟩
abbrev S1x16x640 : Shape := ⟨3, ![1, 16, 640]⟩
abbrev S32x8732x75 : Shape := ⟨3, ![32, 8732, 75]⟩

abbrev nBuf : Space → Nat
  | .hbm => 52
  | .vmem => 52
  | .smem => 0
  | _ => 0

abbrev bufTy : (tb : Table) → Fin (tcTables nBuf tb) → BufTy
  | .hbm, ⟨0, _⟩ => ⟨S8732x4, .f32⟩
  | .hbm, ⟨1, _⟩ => ⟨S32x8732x4, .f32⟩
  | .hbm, ⟨2, _⟩ => ⟨S32x8732x4, .f32⟩
  | .hbm, ⟨3, _⟩ => ⟨S32x8732x4, .f32⟩
  | .hbm, ⟨4, _⟩ => ⟨S32x8732x4, .f32⟩
  | .hbm, ⟨5, _⟩ => ⟨S32x8732x4, .f32⟩
  | .hbm, ⟨6, _⟩ => ⟨S32x8732x4, .f32⟩
  | .hbm, ⟨7, _⟩ => ⟨S32x8732x4, .f32⟩
  | .hbm, ⟨8, _⟩ => ⟨S32x8732x4, .f32⟩
  | .hbm, ⟨9, _⟩ => ⟨S32x8732x4, .f32⟩
  | .hbm, ⟨10, _⟩ => ⟨S32x8732x4, .f32⟩
  | .hbm, ⟨11, _⟩ => ⟨S32x8732x4, .f32⟩
  | .hbm, ⟨12, _⟩ => ⟨S32x8732x4, .f32⟩
  | .hbm, ⟨13, _⟩ => ⟨S32x8732x21, .f32⟩
  | .hbm, ⟨14, _⟩ => ⟨S32x8732x21, .f32⟩
  | .hbm, ⟨15, _⟩ => ⟨S32x8732x21, .f32⟩
  | .hbm, ⟨16, _⟩ => ⟨S32x8732x21, .f32⟩
  | .hbm, ⟨17, _⟩ => ⟨S32x8732x21, .f32⟩
  | .hbm, ⟨18, _⟩ => ⟨S32x8732x21, .f32⟩
  | .hbm, ⟨19, _⟩ => ⟨S32x8732x21, .f32⟩
  | .hbm, ⟨20, _⟩ => ⟨S32x8732x21, .f32⟩
  | .hbm, ⟨21, _⟩ => ⟨S32x8732x21, .f32⟩
  | .hbm, ⟨22, _⟩ => ⟨S32x8732x21, .f32⟩
  | .hbm, ⟨23, _⟩ => ⟨S32x8732x21, .f32⟩
  | .hbm, ⟨24, _⟩ => ⟨S32x8732x21, .f32⟩
  | .hbm, ⟨25, _⟩ => ⟨S32x4x8732, .f32⟩
  | .hbm, ⟨26, _⟩ => ⟨S32x4x8732, .f32⟩
  | .hbm, ⟨27, _⟩ => ⟨S32x4x8732, .f32⟩
  | .hbm, ⟨28, _⟩ => ⟨S32x4x8732, .f32⟩
  | .hbm, ⟨29, _⟩ => ⟨S32x4x8732, .f32⟩
  | .hbm, ⟨30, _⟩ => ⟨S32x4x8732, .f32⟩
  | .hbm, ⟨31, _⟩ => ⟨S32x4x8732, .f32⟩
  | .hbm, ⟨32, _⟩ => ⟨S32x4x8732, .f32⟩
  | .hbm, ⟨33, _⟩ => ⟨S32x4x8732, .f32⟩
  | .hbm, ⟨34, _⟩ => ⟨S32x4x8732, .f32⟩
  | .hbm, ⟨35, _⟩ => ⟨S32x4x8732, .f32⟩
  | .hbm, ⟨36, _⟩ => ⟨S32x4x8732, .f32⟩
  | .hbm, ⟨37, _⟩ => ⟨S21x32x8732, .f32⟩
  | .hbm, ⟨38, _⟩ => ⟨S21x32x8732, .f32⟩
  | .hbm, ⟨39, _⟩ => ⟨S21x32x8732, .f32⟩
  | .hbm, ⟨40, _⟩ => ⟨S21x32x8732, .f32⟩
  | .hbm, ⟨41, _⟩ => ⟨S21x32x8732, .f32⟩
  | .hbm, ⟨42, _⟩ => ⟨S21x32x8732, .f32⟩
  | .hbm, ⟨43, _⟩ => ⟨S21x32x8732, .f32⟩
  | .hbm, ⟨44, _⟩ => ⟨S21x32x8732, .f32⟩
  | .hbm, ⟨45, _⟩ => ⟨S21x32x8732, .f32⟩
  | .hbm, ⟨46, _⟩ => ⟨S21x32x8732, .f32⟩
  | .hbm, ⟨47, _⟩ => ⟨S21x32x8732, .f32⟩
  | .hbm, ⟨48, _⟩ => ⟨S21x32x8732, .f32⟩
  | .hbm, ⟨49, _⟩ => ⟨S4x8732, .f32⟩
  | .hbm, ⟨50, _⟩ => ⟨S75x32x8732, .f32⟩
  | .hbm, ⟨51, _⟩ => ⟨S32x8732x75, .f32⟩
  | .local _ .vmem, ⟨0, _⟩ => ⟨S4x640, .f32⟩
  | .local _ .vmem, ⟨1, _⟩ => ⟨S4x640, .f32⟩
  | .local _ .vmem, ⟨2, _⟩ => ⟨S16x4x640, .f32⟩
  | .local _ .vmem, ⟨3, _⟩ => ⟨S16x4x640, .f32⟩
  | .local _ .vmem, ⟨4, _⟩ => ⟨S16x4x640, .f32⟩
  | .local _ .vmem, ⟨5, _⟩ => ⟨S16x4x640, .f32⟩
  | .local _ .vmem, ⟨6, _⟩ => ⟨S16x4x640, .f32⟩
  | .local _ .vmem, ⟨7, _⟩ => ⟨S16x4x640, .f32⟩
  | .local _ .vmem, ⟨8, _⟩ => ⟨S16x4x640, .f32⟩
  | .local _ .vmem, ⟨9, _⟩ => ⟨S16x4x640, .f32⟩
  | .local _ .vmem, ⟨10, _⟩ => ⟨S16x4x640, .f32⟩
  | .local _ .vmem, ⟨11, _⟩ => ⟨S16x4x640, .f32⟩
  | .local _ .vmem, ⟨12, _⟩ => ⟨S16x4x640, .f32⟩
  | .local _ .vmem, ⟨13, _⟩ => ⟨S16x4x640, .f32⟩
  | .local _ .vmem, ⟨14, _⟩ => ⟨S16x4x640, .f32⟩
  | .local _ .vmem, ⟨15, _⟩ => ⟨S16x4x640, .f32⟩
  | .local _ .vmem, ⟨16, _⟩ => ⟨S16x4x640, .f32⟩
  | .local _ .vmem, ⟨17, _⟩ => ⟨S16x4x640, .f32⟩
  | .local _ .vmem, ⟨18, _⟩ => ⟨S16x4x640, .f32⟩
  | .local _ .vmem, ⟨19, _⟩ => ⟨S16x4x640, .f32⟩
  | .local _ .vmem, ⟨20, _⟩ => ⟨S16x4x640, .f32⟩
  | .local _ .vmem, ⟨21, _⟩ => ⟨S16x4x640, .f32⟩
  | .local _ .vmem, ⟨22, _⟩ => ⟨S16x4x640, .f32⟩
  | .local _ .vmem, ⟨23, _⟩ => ⟨S16x4x640, .f32⟩
  | .local _ .vmem, ⟨24, _⟩ => ⟨S16x4x640, .f32⟩
  | .local _ .vmem, ⟨25, _⟩ => ⟨S16x4x640, .f32⟩
  | .local _ .vmem, ⟨26, _⟩ => ⟨S21x16x640, .f32⟩
  | .local _ .vmem, ⟨27, _⟩ => ⟨S21x16x640, .f32⟩
  | .local _ .vmem, ⟨28, _⟩ => ⟨S21x16x640, .f32⟩
  | .local _ .vmem, ⟨29, _⟩ => ⟨S21x16x640, .f32⟩
  | .local _ .vmem, ⟨30, _⟩ => ⟨S21x16x640, .f32⟩
  | .local _ .vmem, ⟨31, _⟩ => ⟨S21x16x640, .f32⟩
  | .local _ .vmem, ⟨32, _⟩ => ⟨S21x16x640, .f32⟩
  | .local _ .vmem, ⟨33, _⟩ => ⟨S21x16x640, .f32⟩
  | .local _ .vmem, ⟨34, _⟩ => ⟨S21x16x640, .f32⟩
  | .local _ .vmem, ⟨35, _⟩ => ⟨S21x16x640, .f32⟩
  | .local _ .vmem, ⟨36, _⟩ => ⟨S21x16x640, .f32⟩
  | .local _ .vmem, ⟨37, _⟩ => ⟨S21x16x640, .f32⟩
  | .local _ .vmem, ⟨38, _⟩ => ⟨S21x16x640, .f32⟩
  | .local _ .vmem, ⟨39, _⟩ => ⟨S21x16x640, .f32⟩
  | .local _ .vmem, ⟨40, _⟩ => ⟨S21x16x640, .f32⟩
  | .local _ .vmem, ⟨41, _⟩ => ⟨S21x16x640, .f32⟩
  | .local _ .vmem, ⟨42, _⟩ => ⟨S21x16x640, .f32⟩
  | .local _ .vmem, ⟨43, _⟩ => ⟨S21x16x640, .f32⟩
  | .local _ .vmem, ⟨44, _⟩ => ⟨S21x16x640, .f32⟩
  | .local _ .vmem, ⟨45, _⟩ => ⟨S21x16x640, .f32⟩
  | .local _ .vmem, ⟨46, _⟩ => ⟨S21x16x640, .f32⟩
  | .local _ .vmem, ⟨47, _⟩ => ⟨S21x16x640, .f32⟩
  | .local _ .vmem, ⟨48, _⟩ => ⟨S21x16x640, .f32⟩
  | .local _ .vmem, ⟨49, _⟩ => ⟨S21x16x640, .f32⟩
  | .local _ .vmem, ⟨50, _⟩ => ⟨S75x16x640, .f32⟩
  | .local _ .vmem, ⟨51, _⟩ => ⟨S75x16x640, .f32⟩
  | _, _ => ⟨S8732x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51

abbrev nD : Nat := 1
abbrev τ : Topo := Topo.v7x

variable {F : FTy → Type} [FloatOps F]

abbrev grid0 : Pipeline.Grid := ⟨2, ![2, 14], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S4x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S16x4x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x4x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x4x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x4x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x4x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x4x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x4x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x4x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x4x640 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S16x4x640 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S16x4x640 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S16x4x640 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S21x16x640 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S21x16x640 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S21x16x640 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S21x16x640 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S21x16x640 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S21x16x640 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S21x16x640 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S21x16x640 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S21x16x640 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S21x16x640 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S21x16x640 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S21x16x640 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S75x16x640 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

class Facts₀ : Prop where
  transposes_S32x8732x4_S32x4x8732_0_2_1 : S32x8732x4.Transposes [0, 2, 1] S32x4x8732
  transposes_S32x8732x21_S21x32x8732_2_0_1 : S32x8732x21.Transposes [2, 0, 1] S21x32x8732
  transposes_S8732x4_S4x8732_1_0 : S8732x4.Transposes [1, 0] S4x8732
  inb_S16x4x640_S16x4x640_0_0_0 : ∀ a, (![0, 0, 0] : Fin 3 → Nat) a + S16x4x640.size a ≤ S16x4x640.size a
  h_S16x4x640 : 0 < S16x4x640.numel
  shapeCasts_S16x4x640_S16x4x640 : S16x4x640.ShapeCasts S16x4x640
  inb_S4x640_S4x640_0_0 : ∀ a, (![0, 0] : Fin 2 → Nat) a + S4x640.size a ≤ S4x640.size a
  h_S4x640 : 0 < S4x640.numel
  shapeCasts_S4x640_S4x640 : S4x640.ShapeCasts S4x640
  slices_S4x640_o2_0_S2x640 : S4x640.Slices ![2, 0] S2x640
  slices_S4x640_o0_0_S2x640 : S4x640.Slices ![0, 0] S2x640
  concatenates_S2x640_S2x640_S4x640_d0 : Shape.Concatenates [S2x640, S2x640] S4x640 0
  slices_S16x4x640_o0_2_0_S16x2x640 : S16x4x640.Slices ![0, 2, 0] S16x2x640
  slices_S16x4x640_o0_0_0_S16x2x640 : S16x4x640.Slices ![0, 0, 0] S16x2x640
  concatenates_S16x2x640_S16x2x640_S16x4x640_d1 : Shape.Concatenates [S16x2x640, S16x2x640] S16x4x640 1
  shapeCasts_S4x640_S1x4x640 : S4x640.ShapeCasts S1x4x640
  broadcasts_S1x4x640_S16x4x640 : S1x4x640.Broadcasts S16x4x640
  iota_S16x4x640_d1_w32 : S16x4x640.Iotas .tc 32 [1]
  slices_S16x4x640_o0_0_0_S16x1x640 : S16x4x640.Slices ![0, 0, 0] S16x1x640
  shapeCasts_S16x1x640_S16x640 : S16x1x640.ShapeCasts S16x640
  inb_S75x16x640_S1x16x640_0_0_0 : ∀ a, (![0, 0, 0] : Fin 3 → Nat) a + S1x16x640.size a ≤ S75x16x640.size a
  h_S1x16x640 : 0 < S1x16x640.numel
  shapeCasts_S1x16x640_S16x640 : S1x16x640.ShapeCasts S16x640
  shapeCasts_S16x640_S1x16x640 : S16x640.ShapeCasts S1x16x640
  inb_S75x16x640_S1x16x640_4_0_0 : ∀ a, (![4, 0, 0] : Fin 3 → Nat) a + S1x16x640.size a ≤ S75x16x640.size a
  inb_S75x16x640_S1x16x640_8_0_0 : ∀ a, (![8, 0, 0] : Fin 3 → Nat) a + S1x16x640.size a ≤ S75x16x640.size a
  slices_S16x4x640_o0_1_0_S16x1x640 : S16x4x640.Slices ![0, 1, 0] S16x1x640
  inb_S75x16x640_S1x16x640_1_0_0 : ∀ a, (![1, 0, 0] : Fin 3 → Nat) a + S1x16x640.size a ≤ S75x16x640.size a
  inb_S75x16x640_S1x16x640_5_0_0 : ∀ a, (![5, 0, 0] : Fin 3 → Nat) a + S1x16x640.size a ≤ S75x16x640.size a
  inb_S75x16x640_S1x16x640_9_0_0 : ∀ a, (![9, 0, 0] : Fin 3 → Nat) a + S1x16x640.size a ≤ S75x16x640.size a
  slices_S16x4x640_o0_2_0_S16x1x640 : S16x4x640.Slices ![0, 2, 0] S16x1x640
  inb_S75x16x640_S1x16x640_2_0_0 : ∀ a, (![2, 0, 0] : Fin 3 → Nat) a + S1x16x640.size a ≤ S75x16x640.size a
  inb_S75x16x640_S1x16x640_6_0_0 : ∀ a, (![6, 0, 0] : Fin 3 → Nat) a + S1x16x640.size a ≤ S75x16x640.size a
  inb_S75x16x640_S1x16x640_10_0_0 : ∀ a, (![10, 0, 0] : Fin 3 → Nat) a + S1x16x640.size a ≤ S75x16x640.size a
  slices_S16x4x640_o0_3_0_S16x1x640 : S16x4x640.Slices ![0, 3, 0] S16x1x640
  inb_S75x16x640_S1x16x640_3_0_0 : ∀ a, (![3, 0, 0] : Fin 3 → Nat) a + S1x16x640.size a ≤ S75x16x640.size a
  inb_S75x16x640_S1x16x640_7_0_0 : ∀ a, (![7, 0, 0] : Fin 3 → Nat) a + S1x16x640.size a ≤ S75x16x640.size a
  inb_S75x16x640_S1x16x640_11_0_0 : ∀ a, (![11, 0, 0] : Fin 3 → Nat) a + S1x16x640.size a ≤ S75x16x640.size a
  inb_S21x16x640_S21x16x640_0_0_0 : ∀ a, (![0, 0, 0] : Fin 3 → Nat) a + S21x16x640.size a ≤ S21x16x640.size a
  h_S21x16x640 : 0 < S21x16x640.numel
  shapeCasts_S21x16x640_S21x16x640 : S21x16x640.ShapeCasts S21x16x640
  inb_S75x16x640_S21x16x640_12_0_0 : ∀ a, (![12, 0, 0] : Fin 3 → Nat) a + S21x16x640.size a ≤ S75x16x640.size a
  inb_S75x16x640_S21x16x640_33_0_0 : ∀ a, (![33, 0, 0] : Fin 3 → Nat) a + S21x16x640.size a ≤ S75x16x640.size a
  inb_S75x16x640_S21x16x640_54_0_0 : ∀ a, (![54, 0, 0] : Fin 3 → Nat) a + S21x16x640.size a ≤ S75x16x640.size a
  transposes_S75x32x8732_S32x8732x75_1_2_0 : S75x32x8732.Transposes [1, 2, 0] S32x8732x75
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4x640.size a < S4x8732.size a
  hwx0_0 : ∀ i : grid0.Coords, EltTy.bits .f32 = 32 ∨ (Rect.unit (s := S4x8732) (fun a => cc0_transform_0 i a * S4x640.size a) (fun a => (Pipeline.Clip.of (cc0_transform_0 i a) (S4x640.size a) (S4x8732.size a)).extent (S4x640.size a)) fun a => Pipeline.Clip.inb (Pipeline.Clip.ok_of (hstart0_0 i a))).WholeWords (EltTy.packing .f32)
  hwxs0_0 : ∀ i : grid0.Coords, EltTy.bits .f32 = 32 ∨ (Rect.unit (s := S4x640) (fun _ => 0) (fun a => (Pipeline.Clip.of (cc0_transform_0 i a) (S4x640.size a) (S4x8732.size a)).extent (S4x640.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S16x4x640.size a < S32x4x8732.size a
  hwx0_1 : ∀ i : grid0.Coords, EltTy.bits .f32 = 32 ∨ (Rect.unit (s := S32x4x8732) (fun a => cc0_transform_1 i a * S16x4x640.size a) (fun a => (Pipeline.Clip.of (cc0_transform_1 i a) (S16x4x640.size a) (S32x4x8732.size a)).extent (S16x4x640.size a)) fun a => Pipeline.Clip.inb (Pipeline.Clip.ok_of (hstart0_1 i a))).WholeWords (EltTy.packing .f32)
  hwxs0_1 : ∀ i : grid0.Coords, EltTy.bits .f32 = 32 ∨ (Rect.unit (s := S16x4x640) (fun _ => 0) (fun a => (Pipeline.Clip.of (cc0_transform_1 i a) (S16x4x640.size a) (S32x4x8732.size a)).extent (S16x4x640.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S16x4x640.size a < S32x4x8732.size a
  hwx0_2 : ∀ i : grid0.Coords, EltTy.bits .f32 = 32 ∨ (Rect.unit (s := S32x4x8732) (fun a => cc0_transform_2 i a * S16x4x640.size a) (fun a => (Pipeline.Clip.of (cc0_transform_2 i a) (S16x4x640.size a) (S32x4x8732.size a)).extent (S16x4x640.size a)) fun a => Pipeline.Clip.inb (Pipeline.Clip.ok_of (hstart0_2 i a))).WholeWords (EltTy.packing .f32)
  hwxs0_2 : ∀ i : grid0.Coords, EltTy.bits .f32 = 32 ∨ (Rect.unit (s := S16x4x640) (fun _ => 0) (fun a => (Pipeline.Clip.of (cc0_transform_2 i a) (S16x4x640.size a) (S32x4x8732.size a)).extent (S16x4x640.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S16x4x640.size a < S32x4x8732.size a
  hwx0_3 : ∀ i : grid0.Coords, EltTy.bits .f32 = 32 ∨ (Rect.unit (s := S32x4x8732) (fun a => cc0_transform_3 i a * S16x4x640.size a) (fun a => (Pipeline.Clip.of (cc0_transform_3 i a) (S16x4x640.size a) (S32x4x8732.size a)).extent (S16x4x640.size a)) fun a => Pipeline.Clip.inb (Pipeline.Clip.ok_of (hstart0_3 i a))).WholeWords (EltTy.packing .f32)
  hwxs0_3 : ∀ i : grid0.Coords, EltTy.bits .f32 = 32 ∨ (Rect.unit (s := S16x4x640) (fun _ => 0) (fun a => (Pipeline.Clip.of (cc0_transform_3 i a) (S16x4x640.size a) (S32x4x8732.size a)).extent (S16x4x640.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S16x4x640.size a < S32x4x8732.size a
  hwx0_4 : ∀ i : grid0.Coords, EltTy.bits .f32 = 32 ∨ (Rect.unit (s := S32x4x8732) (fun a => cc0_transform_4 i a * S16x4x640.size a) (fun a => (Pipeline.Clip.of (cc0_transform_4 i a) (S16x4x640.size a) (S32x4x8732.size a)).extent (S16x4x640.size a)) fun a => Pipeline.Clip.inb (Pipeline.Clip.ok_of (hstart0_4 i a))).WholeWords (EltTy.packing .f32)
  hwxs0_4 : ∀ i : grid0.Coords, EltTy.bits .f32 = 32 ∨ (Rect.unit (s := S16x4x640) (fun _ => 0) (fun a => (Pipeline.Clip.of (cc0_transform_4 i a) (S16x4x640.size a) (S32x4x8732.size a)).extent (S16x4x640.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S16x4x640.size a < S32x4x8732.size a
  hwx0_5 : ∀ i : grid0.Coords, EltTy.bits .f32 = 32 ∨ (Rect.unit (s := S32x4x8732) (fun a => cc0_transform_5 i a * S16x4x640.size a) (fun a => (Pipeline.Clip.of (cc0_transform_5 i a) (S16x4x640.size a) (S32x4x8732.size a)).extent (S16x4x640.size a)) fun a => Pipeline.Clip.inb (Pipeline.Clip.ok_of (hstart0_5 i a))).WholeWords (EltTy.packing .f32)
  hwxs0_5 : ∀ i : grid0.Coords, EltTy.bits .f32 = 32 ∨ (Rect.unit (s := S16x4x640) (fun _ => 0) (fun a => (Pipeline.Clip.of (cc0_transform_5 i a) (S16x4x640.size a) (S32x4x8732.size a)).extent (S16x4x640.size a)) fun a => (Nat.zero_add _).trans_le (Pipeline.Clip.extent_le (Pipeline.Clip.ok_of (hstart0_5 i a)))).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S16x4x640.size a < S32x4x8732.size a
  hwx0_6 : ∀ i : grid0.Coords, EltTy.bits .f32 = 32 ∨ (Rect.unit (s := S32x4x8732) (fun a => cc0_transform_6 i a * S16x4x640.size a) (fun a => (Pipeline.Clip.of (cc0_transform_6 i a) (S16x4x640.size a) (S32x4x8732.size a)).extent (S16x4x640.size a)) fun a => Pipeline.Clip.inb (Pipeline.Clip.ok_of (hstart0_6 i a))).WholeWords (EltTy.packing .f32)
  hwxs0_6 : ∀ i : grid0.Coords, EltTy.bits .f32 = 32 ∨ (Rect.unit (s := S16x4x640) (fun _ => 0) (fun a => (Pipeline.Clip.of (cc0_transform_6 i a) (S16x4x640.size a) (S32x4x8732.size a)).extent (S16x4x640.size a)) fun a => (Nat.zero_add _).trans_le (Pipeline.Clip.extent_le (Pipeline.Clip.ok_of (hstart0_6 i a)))).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hstart0_7 : ∀ (i : grid0.Coords) a, cc0_transform_7 i a * S16x4x640.size a < S32x4x8732.size a
  hwx0_7 : ∀ i : grid0.Coords, EltTy.bits .f32 = 32 ∨ (Rect.unit (s := S32x4x8732) (fun a => cc0_transform_7 i a * S16x4x640.size a) (fun a => (Pipeline.Clip.of (cc0_transform_7 i a) (S16x4x640.size a) (S32x4x8732.size a)).extent (S16x4x640.size a)) fun a => Pipeline.Clip.inb (Pipeline.Clip.ok_of (hstart0_7 i a))).WholeWords (EltTy.packing .f32)
  hwxs0_7 : ∀ i : grid0.Coords, EltTy.bits .f32 = 32 ∨ (Rect.unit (s := S16x4x640) (fun _ => 0) (fun a => (Pipeline.Clip.of (cc0_transform_7 i a) (S16x4x640.size a) (S32x4x8732.size a)).extent (S16x4x640.size a)) fun a => (Nat.zero_add _).trans_le (Pipeline.Clip.extent_le (Pipeline.Clip.ok_of (hstart0_7 i a)))).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hstart0_8 : ∀ (i : grid0.Coords) a, cc0_transform_8 i a * S16x4x640.size a < S32x4x8732.size a
  hwx0_8 : ∀ i : grid0.Coords, EltTy.bits .f32 = 32 ∨ (Rect.unit (s := S32x4x8732) (fun a => cc0_transform_8 i a * S16x4x640.size a) (fun a => (Pipeline.Clip.of (cc0_transform_8 i a) (S16x4x640.size a) (S32x4x8732.size a)).extent (S16x4x640.size a)) fun a => Pipeline.Clip.inb (Pipeline.Clip.ok_of (hstart0_8 i a))).WholeWords (EltTy.packing .f32)
  hwxs0_8 : ∀ i : grid0.Coords, EltTy.bits .f32 = 32 ∨ (Rect.unit (s := S16x4x640) (fun _ => 0) (fun a => (Pipeline.Clip.of (cc0_transform_8 i a) (S16x4x640.size a) (S32x4x8732.size a)).extent (S16x4x640.size a)) fun a => (Nat.zero_add _).trans_le (Pipeline.Clip.extent_le (Pipeline.Clip.ok_of (hstart0_8 i a)))).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hstart0_9 : ∀ (i : grid0.Coords) a, cc0_transform_9 i a * S16x4x640.size a < S32x4x8732.size a
  hwx0_9 : ∀ i : grid0.Coords, EltTy.bits .f32 = 32 ∨ (Rect.unit (s := S32x4x8732) (fun a => cc0_transform_9 i a * S16x4x640.size a) (fun a => (Pipeline.Clip.of (cc0_transform_9 i a) (S16x4x640.size a) (S32x4x8732.size a)).extent (S16x4x640.size a)) fun a => Pipeline.Clip.inb (Pipeline.Clip.ok_of (hstart0_9 i a))).WholeWords (EltTy.packing .f32)
  hwxs0_9 : ∀ i : grid0.Coords, EltTy.bits .f32 = 32 ∨ (Rect.unit (s := S16x4x640) (fun _ => 0) (fun a => (Pipeline.Clip.of (cc0_transform_9 i a) (S16x4x640.size a) (S32x4x8732.size a)).extent (S16x4x640.size a)) fun a => (Nat.zero_add _).trans_le (Pipeline.Clip.extent_le (Pipeline.Clip.ok_of (hstart0_9 i a)))).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hstart0_10 : ∀ (i : grid0.Coords) a, cc0_transform_10 i a * S16x4x640.size a < S32x4x8732.size a
  hwx0_10 : ∀ i : grid0.Coords, EltTy.bits .f32 = 32 ∨ (Rect.unit (s := S32x4x8732) (fun a => cc0_transform_10 i a * S16x4x640.size a) (fun a => (Pipeline.Clip.of (cc0_transform_10 i a) (S16x4x640.size a) (S32x4x8732.size a)).extent (S16x4x640.size a)) fun a => Pipeline.Clip.inb (Pipeline.Clip.ok_of (hstart0_10 i a))).WholeWords (EltTy.packing .f32)
  hwxs0_10 : ∀ i : grid0.Coords, EltTy.bits .f32 = 32 ∨ (Rect.unit (s := S16x4x640) (fun _ => 0) (fun a => (Pipeline.Clip.of (cc0_transform_10 i a) (S16x4x640.size a) (S32x4x8732.size a)).extent (S16x4x640.size a)) fun a => (Nat.zero_add _).trans_le (Pipeline.Clip.extent_le (Pipeline.Clip.ok_of (hstart0_10 i a)))).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hstart0_11 : ∀ (i : grid0.Coords) a, cc0_transform_11 i a * S16x4x640.size a < S32x4x8732.size a
  hwx0_11 : ∀ i : grid0.Coords, EltTy.bits .f32 = 32 ∨ (Rect.unit (s := S32x4x8732) (fun a => cc0_transform_11 i a * S16x4x640.size a) (fun a => (Pipeline.Clip.of (cc0_transform_11 i a) (S16x4x640.size a) (S32x4x8732.size a)).extent (S16x4x640.size a)) fun a => Pipeline.Clip.inb (Pipeline.Clip.ok_of (hstart0_11 i a))).WholeWords (EltTy.packing .f32)
  hwxs0_11 : ∀ i : grid0.Coords, EltTy.bits .f32 = 32 ∨ (Rect.unit (s := S16x4x640) (fun _ => 0) (fun a => (Pipeline.Clip.of (cc0_transform_11 i a) (S16x4x640.size a) (S32x4x8732.size a)).extent (S16x4x640.size a)) fun a => (Nat.zero_add _).trans_le (Pipeline.Clip.extent_le (Pipeline.Clip.ok_of (hstart0_11 i a)))).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hstart0_12 : ∀ (i : grid0.Coords) a, cc0_transform_12 i a * S16x4x640.size a < S32x4x8732.size a
  hwx0_12 : ∀ i : grid0.Coords, EltTy.bits .f32 = 32 ∨ (Rect.unit (s := S32x4x8732) (fun a => cc0_transform_12 i a * S16x4x640.size a) (fun a => (Pipeline.Clip.of (cc0_transform_12 i a) (S16x4x640.size a) (S32x4x8732.size a)).extent (S16x4x640.size a)) fun a => Pipeline.Clip.inb (Pipeline.Clip.ok_of (hstart0_12 i a))).WholeWords (EltTy.packing .f32)
  hwxs0_12 : ∀ i : grid0.Coords, EltTy.bits .f32 = 32 ∨ (Rect.unit (s := S16x4x640) (fun _ => 0) (fun a => (Pipeline.Clip.of (cc0_transform_12 i a) (S16x4x640.size a) (S32x4x8732.size a)).extent (S16x4x640.size a)) fun a => (Nat.zero_add _).trans_le (Pipeline.Clip.extent_le (Pipeline.Clip.ok_of (hstart0_12 i a)))).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hstart0_13 : ∀ (i : grid0.Coords) a, cc0_transform_13 i a * S21x16x640.size a < S21x32x8732.size a
  hwx0_13 : ∀ i : grid0.Coords, EltTy.bits .f32 = 32 ∨ (Rect.unit (s := S21x32x8732) (fun a => cc0_transform_13 i a * S21x16x640.size a) (fun a => (Pipeline.Clip.of (cc0_transform_13 i a) (S21x16x640.size a) (S21x32x8732.size a)).extent (S21x16x640.size a)) fun a => Pipeline.Clip.inb (Pipeline.Clip.ok_of (hstart0_13 i a))).WholeWords (EltTy.packing .f32)
  hwxs0_13 : ∀ i : grid0.Coords, EltTy.bits .f32 = 32 ∨ (Rect.unit (s := S21x16x640) (fun _ => 0) (fun a => (Pipeline.Clip.of (cc0_transform_13 i a) (S21x16x640.size a) (S21x32x8732.size a)).extent (S21x16x640.size a)) fun a => (Nat.zero_add _).trans_le (Pipeline.Clip.extent_le (Pipeline.Clip.ok_of (hstart0_13 i a)))).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hstart0_14 : ∀ (i : grid0.Coords) a, cc0_transform_14 i a * S21x16x640.size a < S21x32x8732.size a
  hwx0_14 : ∀ i : grid0.Coords, EltTy.bits .f32 = 32 ∨ (Rect.unit (s := S21x32x8732) (fun a => cc0_transform_14 i a * S21x16x640.size a) (fun a => (Pipeline.Clip.of (cc0_transform_14 i a) (S21x16x640.size a) (S21x32x8732.size a)).extent (S21x16x640.size a)) fun a => Pipeline.Clip.inb (Pipeline.Clip.ok_of (hstart0_14 i a))).WholeWords (EltTy.packing .f32)
  hwxs0_14 : ∀ i : grid0.Coords, EltTy.bits .f32 = 32 ∨ (Rect.unit (s := S21x16x640) (fun _ => 0) (fun a => (Pipeline.Clip.of (cc0_transform_14 i a) (S21x16x640.size a) (S21x32x8732.size a)).extent (S21x16x640.size a)) fun a => (Nat.zero_add _).trans_le (Pipeline.Clip.extent_le (Pipeline.Clip.ok_of (hstart0_14 i a)))).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hstart0_15 : ∀ (i : grid0.Coords) a, cc0_transform_15 i a * S21x16x640.size a < S21x32x8732.size a
  hwx0_15 : ∀ i : grid0.Coords, EltTy.bits .f32 = 32 ∨ (Rect.unit (s := S21x32x8732) (fun a => cc0_transform_15 i a * S21x16x640.size a) (fun a => (Pipeline.Clip.of (cc0_transform_15 i a) (S21x16x640.size a) (S21x32x8732.size a)).extent (S21x16x640.size a)) fun a => Pipeline.Clip.inb (Pipeline.Clip.ok_of (hstart0_15 i a))).WholeWords (EltTy.packing .f32)
  hwxs0_15 : ∀ i : grid0.Coords, EltTy.bits .f32 = 32 ∨ (Rect.unit (s := S21x16x640) (fun _ => 0) (fun a => (Pipeline.Clip.of (cc0_transform_15 i a) (S21x16x640.size a) (S21x32x8732.size a)).extent (S21x16x640.size a)) fun a => (Nat.zero_add _).trans_le (Pipeline.Clip.extent_le (Pipeline.Clip.ok_of (hstart0_15 i a)))).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hstart0_16 : ∀ (i : grid0.Coords) a, cc0_transform_16 i a * S21x16x640.size a < S21x32x8732.size a
  hwx0_16 : ∀ i : grid0.Coords, EltTy.bits .f32 = 32 ∨ (Rect.unit (s := S21x32x8732) (fun a => cc0_transform_16 i a * S21x16x640.size a) (fun a => (Pipeline.Clip.of (cc0_transform_16 i a) (S21x16x640.size a) (S21x32x8732.size a)).extent (S21x16x640.size a)) fun a => Pipeline.Clip.inb (Pipeline.Clip.ok_of (hstart0_16 i a))).WholeWords (EltTy.packing .f32)
  hwxs0_16 : ∀ i : grid0.Coords, EltTy.bits .f32 = 32 ∨ (Rect.unit (s := S21x16x640) (fun _ => 0) (fun a => (Pipeline.Clip.of (cc0_transform_16 i a) (S21x16x640.size a) (S21x32x8732.size a)).extent (S21x16x640.size a)) fun a => (Nat.zero_add _).trans_le (Pipeline.Clip.extent_le (Pipeline.Clip.ok_of (hstart0_16 i a)))).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hstart0_17 : ∀ (i : grid0.Coords) a, cc0_transform_17 i a * S21x16x640.size a < S21x32x8732.size a
  hwx0_17 : ∀ i : grid0.Coords, EltTy.bits .f32 = 32 ∨ (Rect.unit (s := S21x32x8732) (fun a => cc0_transform_17 i a * S21x16x640.size a) (fun a => (Pipeline.Clip.of (cc0_transform_17 i a) (S21x16x640.size a) (S21x32x8732.size a)).extent (S21x16x640.size a)) fun a => Pipeline.Clip.inb (Pipeline.Clip.ok_of (hstart0_17 i a))).WholeWords (EltTy.packing .f32)
  hwxs0_17 : ∀ i : grid0.Coords, EltTy.bits .f32 = 32 ∨ (Rect.unit (s := S21x16x640) (fun _ => 0) (fun a => (Pipeline.Clip.of (cc0_transform_17 i a) (S21x16x640.size a) (S21x32x8732.size a)).extent (S21x16x640.size a)) fun a => (Nat.zero_add _).trans_le (Pipeline.Clip.extent_le (Pipeline.Clip.ok_of (hstart0_17 i a)))).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hstart0_18 : ∀ (i : grid0.Coords) a, cc0_transform_18 i a * S21x16x640.size a < S21x32x8732.size a
  hwx0_18 : ∀ i : grid0.Coords, EltTy.bits .f32 = 32 ∨ (Rect.unit (s := S21x32x8732) (fun a => cc0_transform_18 i a * S21x16x640.size a) (fun a => (Pipeline.Clip.of (cc0_transform_18 i a) (S21x16x640.size a) (S21x32x8732.size a)).extent (S21x16x640.size a)) fun a => Pipeline.Clip.inb (Pipeline.Clip.ok_of (hstart0_18 i a))).WholeWords (EltTy.packing .f32)
  hwxs0_18 : ∀ i : grid0.Coords, EltTy.bits .f32 = 32 ∨ (Rect.unit (s := S21x16x640) (fun _ => 0) (fun a => (Pipeline.Clip.of (cc0_transform_18 i a) (S21x16x640.size a) (S21x32x8732.size a)).extent (S21x16x640.size a)) fun a => (Nat.zero_add _).trans_le (Pipeline.Clip.extent_le (Pipeline.Clip.ok_of (hstart0_18 i a)))).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hstart0_19 : ∀ (i : grid0.Coords) a, cc0_transform_19 i a * S21x16x640.size a < S21x32x8732.size a
  hwx0_19 : ∀ i : grid0.Coords, EltTy.bits .f32 = 32 ∨ (Rect.unit (s := S21x32x8732) (fun a => cc0_transform_19 i a * S21x16x640.size a) (fun a => (Pipeline.Clip.of (cc0_transform_19 i a) (S21x16x640.size a) (S21x32x8732.size a)).extent (S21x16x640.size a)) fun a => Pipeline.Clip.inb (Pipeline.Clip.ok_of (hstart0_19 i a))).WholeWords (EltTy.packing .f32)
  hwxs0_19 : ∀ i : grid0.Coords, EltTy.bits .f32 = 32 ∨ (Rect.unit (s := S21x16x640) (fun _ => 0) (fun a => (Pipeline.Clip.of (cc0_transform_19 i a) (S21x16x640.size a) (S21x32x8732.size a)).extent (S21x16x640.size a)) fun a => (Nat.zero_add _).trans_le (Pipeline.Clip.extent_le (Pipeline.Clip.ok_of (hstart0_19 i a)))).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hstart0_20 : ∀ (i : grid0.Coords) a, cc0_transform_20 i a * S21x16x640.size a < S21x32x8732.size a
  hwx0_20 : ∀ i : grid0.Coords, EltTy.bits .f32 = 32 ∨ (Rect.unit (s := S21x32x8732) (fun a => cc0_transform_20 i a * S21x16x640.size a) (fun a => (Pipeline.Clip.of (cc0_transform_20 i a) (S21x16x640.size a) (S21x32x8732.size a)).extent (S21x16x640.size a)) fun a => Pipeline.Clip.inb (Pipeline.Clip.ok_of (hstart0_20 i a))).WholeWords (EltTy.packing .f32)
  hwxs0_20 : ∀ i : grid0.Coords, EltTy.bits .f32 = 32 ∨ (Rect.unit (s := S21x16x640) (fun _ => 0) (fun a => (Pipeline.Clip.of (cc0_transform_20 i a) (S21x16x640.size a) (S21x32x8732.size a)).extent (S21x16x640.size a)) fun a => (Nat.zero_add _).trans_le (Pipeline.Clip.extent_le (Pipeline.Clip.ok_of (hstart0_20 i a)))).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hstart0_21 : ∀ (i : grid0.Coords) a, cc0_transform_21 i a * S21x16x640.size a < S21x32x8732.size a
  hwx0_21 : ∀ i : grid0.Coords, EltTy.bits .f32 = 32 ∨ (Rect.unit (s := S21x32x8732) (fun a => cc0_transform_21 i a * S21x16x640.size a) (fun a => (Pipeline.Clip.of (cc0_transform_21 i a) (S21x16x640.size a) (S21x32x8732.size a)).extent (S21x16x640.size a)) fun a => Pipeline.Clip.inb (Pipeline.Clip.ok_of (hstart0_21 i a))).WholeWords (EltTy.packing .f32)
  hwxs0_21 : ∀ i : grid0.Coords, EltTy.bits .f32 = 32 ∨ (Rect.unit (s := S21x16x640) (fun _ => 0) (fun a => (Pipeline.Clip.of (cc0_transform_21 i a) (S21x16x640.size a) (S21x32x8732.size a)).extent (S21x16x640.size a)) fun a => (Nat.zero_add _).trans_le (Pipeline.Clip.extent_le (Pipeline.Clip.ok_of (hstart0_21 i a)))).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hstart0_22 : ∀ (i : grid0.Coords) a, cc0_transform_22 i a * S21x16x640.size a < S21x32x8732.size a
  hwx0_22 : ∀ i : grid0.Coords, EltTy.bits .f32 = 32 ∨ (Rect.unit (s := S21x32x8732) (fun a => cc0_transform_22 i a * S21x16x640.size a) (fun a => (Pipeline.Clip.of (cc0_transform_22 i a) (S21x16x640.size a) (S21x32x8732.size a)).extent (S21x16x640.size a)) fun a => Pipeline.Clip.inb (Pipeline.Clip.ok_of (hstart0_22 i a))).WholeWords (EltTy.packing .f32)
  hwxs0_22 : ∀ i : grid0.Coords, EltTy.bits .f32 = 32 ∨ (Rect.unit (s := S21x16x640) (fun _ => 0) (fun a => (Pipeline.Clip.of (cc0_transform_22 i a) (S21x16x640.size a) (S21x32x8732.size a)).extent (S21x16x640.size a)) fun a => (Nat.zero_add _).trans_le (Pipeline.Clip.extent_le (Pipeline.Clip.ok_of (hstart0_22 i a)))).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hstart0_23 : ∀ (i : grid0.Coords) a, cc0_transform_23 i a * S21x16x640.size a < S21x32x8732.size a
  hwx0_23 : ∀ i : grid0.Coords, EltTy.bits .f32 = 32 ∨ (Rect.unit (s := S21x32x8732) (fun a => cc0_transform_23 i a * S21x16x640.size a) (fun a => (Pipeline.Clip.of (cc0_transform_23 i a) (S21x16x640.size a) (S21x32x8732.size a)).extent (S21x16x640.size a)) fun a => Pipeline.Clip.inb (Pipeline.Clip.ok_of (hstart0_23 i a))).WholeWords (EltTy.packing .f32)
  hwxs0_23 : ∀ i : grid0.Coords, EltTy.bits .f32 = 32 ∨ (Rect.unit (s := S21x16x640) (fun _ => 0) (fun a => (Pipeline.Clip.of (cc0_transform_23 i a) (S21x16x640.size a) (S21x32x8732.size a)).extent (S21x16x640.size a)) fun a => (Nat.zero_add _).trans_le (Pipeline.Clip.extent_le (Pipeline.Clip.ok_of (hstart0_23 i a)))).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hstart0_24 : ∀ (i : grid0.Coords) a, cc0_transform_24 i a * S21x16x640.size a < S21x32x8732.size a
  hwx0_24 : ∀ i : grid0.Coords, EltTy.bits .f32 = 32 ∨ (Rect.unit (s := S21x32x8732) (fun a => cc0_transform_24 i a * S21x16x640.size a) (fun a => (Pipeline.Clip.of (cc0_transform_24 i a) (S21x16x640.size a) (S21x32x8732.size a)).extent (S21x16x640.size a)) fun a => Pipeline.Clip.inb (Pipeline.Clip.ok_of (hstart0_24 i a))).WholeWords (EltTy.packing .f32)
  hwxs0_24 : ∀ i : grid0.Coords, EltTy.bits .f32 = 32 ∨ (Rect.unit (s := S21x16x640) (fun _ => 0) (fun a => (Pipeline.Clip.of (cc0_transform_24 i a) (S21x16x640.size a) (S21x32x8732.size a)).extent (S21x16x640.size a)) fun a => (Nat.zero_add _).trans_le (Pipeline.Clip.extent_le (Pipeline.Clip.ok_of (hstart0_24 i a)))).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hstart0_25 : ∀ (i : grid0.Coords) a, cc0_transform_25 i a * S75x16x640.size a < S75x32x8732.size a
  hwx0_25 : ∀ i : grid0.Coords, EltTy.bits .f32 = 32 ∨ (Rect.unit (s := S75x32x8732) (fun a => cc0_transform_25 i a * S75x16x640.size a) (fun a => (Pipeline.Clip.of (cc0_transform_25 i a) (S75x16x640.size a) (S75x32x8732.size a)).extent (S75x16x640.size a)) fun a => Pipeline.Clip.inb (Pipeline.Clip.ok_of (hstart0_25 i a))).WholeWords (EltTy.packing .f32)
  hwxs0_25 : ∀ i : grid0.Coords, EltTy.bits .f32 = 32 ∨ (Rect.unit (s := S75x16x640) (fun _ => 0) (fun a => (Pipeline.Clip.of (cc0_transform_25 i a) (S75x16x640.size a) (S75x32x8732.size a)).extent (S75x16x640.size a)) fun a => (Nat.zero_add _).trans_le (Pipeline.Clip.extent_le (Pipeline.Clip.ok_of (hstart0_25 i a)))).WholeWords (EltTy.packing .f32)

variable [Facts₀]

abbrev win0_0 : Pipeline.Window sig grid0 :=
  Pipeline.Window.ofSpecClip (Memref.whole main_v24) S4x640.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v0) S16x4x640.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v1) S16x4x640.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v2) S16x4x640.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v3) S16x4x640.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v4) S16x4x640.size cc0_transform_5 reads0_5 false false 2 stage0_5 sem0_5
    hrank0 hreads0_5 hstart0_5 nbuf0_5 (Memref.isWhole_whole _) hwx0_5 hwxs0_5 hstage0_5

abbrev win0_6 : Pipeline.Window sig grid0 :=
  Pipeline.Window.ofSpecClip (Memref.whole main_v5) S16x4x640.size cc0_transform_6 reads0_6 false false 2 stage0_6 sem0_6
    hrank0 hreads0_6 hstart0_6 nbuf0_6 (Memref.isWhole_whole _) hwx0_6 hwxs0_6 hstage0_6

abbrev win0_7 : Pipeline.Window sig grid0 :=
  Pipeline.Window.ofSpecClip (Memref.whole main_v6) S16x4x640.size cc0_transform_7 reads0_7 false false 2 stage0_7 sem0_7
    hrank0 hreads0_7 hstart0_7 nbuf0_7 (Memref.isWhole_whole _) hwx0_7 hwxs0_7 hstage0_7

abbrev win0_8 : Pipeline.Window sig grid0 :=
  Pipeline.Window.ofSpecClip (Memref.whole main_v7) S16x4x640.size cc0_transform_8 reads0_8 false false 2 stage0_8 sem0_8
    hrank0 hreads0_8 hstart0_8 nbuf0_8 (Memref.isWhole_whole _) hwx0_8 hwxs0_8 hstage0_8

abbrev win0_9 : Pipeline.Window sig grid0 :=
  Pipeline.Window.ofSpecClip (Memref.whole main_v8) S16x4x640.size cc0_transform_9 reads0_9 false false 2 stage0_9 sem0_9
    hrank0 hreads0_9 hstart0_9 nbuf0_9 (Memref.isWhole_whole _) hwx0_9 hwxs0_9 hstage0_9

abbrev win0_10 : Pipeline.Window sig grid0 :=
  Pipeline.Window.ofSpecClip (Memref.whole main_v9) S16x4x640.size cc0_transform_10 reads0_10 false false 2 stage0_10 sem0_10
    hrank0 hreads0_10 hstart0_10 nbuf0_10 (Memref.isWhole_whole _) hwx0_10 hwxs0_10 hstage0_10

abbrev win0_11 : Pipeline.Window sig grid0 :=
  Pipeline.Window.ofSpecClip (Memref.whole main_v10) S16x4x640.size cc0_transform_11 reads0_11 false false 2 stage0_11 sem0_11
    hrank0 hreads0_11 hstart0_11 nbuf0_11 (Memref.isWhole_whole _) hwx0_11 hwxs0_11 hstage0_11

abbrev win0_12 : Pipeline.Window sig grid0 :=
  Pipeline.Window.ofSpecClip (Memref.whole main_v11) S16x4x640.size cc0_transform_12 reads0_12 false false 2 stage0_12 sem0_12
    hrank0 hreads0_12 hstart0_12 nbuf0_12 (Memref.isWhole_whole _) hwx0_12 hwxs0_12 hstage0_12

abbrev win0_13 : Pipeline.Window sig grid0 :=
  Pipeline.Window.ofSpecClip (Memref.whole main_v12) S21x16x640.size cc0_transform_13 reads0_13 false false 2 stage0_13 sem0_13
    hrank0 hreads0_13 hstart0_13 nbuf0_13 (Memref.isWhole_whole _) hwx0_13 hwxs0_13 hstage0_13

abbrev win0_14 : Pipeline.Window sig grid0 :=
  Pipeline.Window.ofSpecClip (Memref.whole main_v13) S21x16x640.size cc0_transform_14 reads0_14 false false 2 stage0_14 sem0_14
    hrank0 hreads0_14 hstart0_14 nbuf0_14 (Memref.isWhole_whole _) hwx0_14 hwxs0_14 hstage0_14

abbrev win0_15 : Pipeline.Window sig grid0 :=
  Pipeline.Window.ofSpecClip (Memref.whole main_v14) S21x16x640.size cc0_transform_15 reads0_15 false false 2 stage0_15 sem0_15
    hrank0 hreads0_15 hstart0_15 nbuf0_15 (Memref.isWhole_whole _) hwx0_15 hwxs0_15 hstage0_15

abbrev win0_16 : Pipeline.Window sig grid0 :=
  Pipeline.Window.ofSpecClip (Memref.whole main_v15) S21x16x640.size cc0_transform_16 reads0_16 false false 2 stage0_16 sem0_16
    hrank0 hreads0_16 hstart0_16 nbuf0_16 (Memref.isWhole_whole _) hwx0_16 hwxs0_16 hstage0_16

abbrev win0_17 : Pipeline.Window sig grid0 :=
  Pipeline.Window.ofSpecClip (Memref.whole main_v16) S21x16x640.size cc0_transform_17 reads0_17 false false 2 stage0_17 sem0_17
    hrank0 hreads0_17 hstart0_17 nbuf0_17 (Memref.isWhole_whole _) hwx0_17 hwxs0_17 hstage0_17

abbrev win0_18 : Pipeline.Window sig grid0 :=
  Pipeline.Window.ofSpecClip (Memref.whole main_v17) S21x16x640.size cc0_transform_18 reads0_18 false false 2 stage0_18 sem0_18
    hrank0 hreads0_18 hstart0_18 nbuf0_18 (Memref.isWhole_whole _) hwx0_18 hwxs0_18 hstage0_18

abbrev win0_19 : Pipeline.Window sig grid0 :=
  Pipeline.Window.ofSpecClip (Memref.whole main_v18) S21x16x640.size cc0_transform_19 reads0_19 false false 2 stage0_19 sem0_19
    hrank0 hreads0_19 hstart0_19 nbuf0_19 (Memref.isWhole_whole _) hwx0_19 hwxs0_19 hstage0_19

abbrev win0_20 : Pipeline.Window sig grid0 :=
  Pipeline.Window.ofSpecClip (Memref.whole main_v19) S21x16x640.size cc0_transform_20 reads0_20 false false 2 stage0_20 sem0_20
    hrank0 hreads0_20 hstart0_20 nbuf0_20 (Memref.isWhole_whole _) hwx0_20 hwxs0_20 hstage0_20

abbrev win0_21 : Pipeline.Window sig grid0 :=
  Pipeline.Window.ofSpecClip (Memref.whole main_v20) S21x16x640.size cc0_transform_21 reads0_21 false false 2 stage0_21 sem0_21
    hrank0 hreads0_21 hstart0_21 nbuf0_21 (Memref.isWhole_whole _) hwx0_21 hwxs0_21 hstage0_21

abbrev win0_22 : Pipeline.Window sig grid0 :=
  Pipeline.Window.ofSpecClip (Memref.whole main_v21) S21x16x640.size cc0_transform_22 reads0_22 false false 2 stage0_22 sem0_22
    hrank0 hreads0_22 hstart0_22 nbuf0_22 (Memref.isWhole_whole _) hwx0_22 hwxs0_22 hstage0_22

abbrev win0_23 : Pipeline.Window sig grid0 :=
  Pipeline.Window.ofSpecClip (Memref.whole main_v22) S21x16x640.size cc0_transform_23 reads0_23 false false 2 stage0_23 sem0_23
    hrank0 hreads0_23 hstart0_23 nbuf0_23 (Memref.isWhole_whole _) hwx0_23 hwxs0_23 hstage0_23

abbrev win0_24 : Pipeline.Window sig grid0 :=
  Pipeline.Window.ofSpecClip (Memref.whole main_v23) S21x16x640.size cc0_transform_24 reads0_24 false false 2 stage0_24 sem0_24
    hrank0 hreads0_24 hstart0_24 nbuf0_24 (Memref.isWhole_whole _) hwx0_24 hwxs0_24 hstage0_24

abbrev win0_25 : Pipeline.Window sig grid0 :=
  Pipeline.Window.ofSpecClip (Memref.whole main_v25) S75x16x640.size cc0_transform_25 reads0_25 true false 2 stage0_25 sem0_25
    hrank0 hreads0_25 hstart0_25 nbuf0_25 (Memref.isWhole_whole _) hwx0_25 hwxs0_25 hstage0_25

abbrev win0 : Fin 26 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | ⟨_ + 26, h⟩ => absurd h (Nat.not_lt.2 (Nat.le_add_left _ _))
abbrev spec0 : Fin 26 → Pipeline.WinSpec sig grid0.rank := fun w => (win0 w).toWinSpec

class Facts : Prop extends Facts₀ where

variable [Facts]
-- ==== ReferenceIdeal.lean ====
abbrev S8732x4 : Shape := ⟨2, ![8732, 4]⟩
abbrev S32x8732x4 : Shape := ⟨3, ![32, 8732, 4]⟩
abbrev S32x8732x21 : Shape := ⟨3, ![32, 8732, 21]⟩
abbrev S8732x2 : Shape := ⟨2, ![8732, 2]⟩
abbrev S32x8732x2 : Shape := ⟨3, ![32, 8732, 2]⟩
abbrev S_ : Shape := ⟨0, ![]⟩
abbrev S1x8732x2 : Shape := ⟨3, ![1, 8732, 2]⟩
abbrev S32x8732x75 : Shape := ⟨3, ![32, 8732, 75]⟩

abbrev nBuf : Space → Nat
  | .hbm => 111
  | .vmem => 0
  | .smem => 0
  | _ => 0

abbrev bufTy : (tb : Table) → Fin (tcTables nBuf tb) → BufTy
  | .hbm, ⟨0, _⟩ => ⟨S8732x4, .f32⟩
  | .hbm, ⟨1, _⟩ => ⟨S32x8732x4, .f32⟩
  | .hbm, ⟨2, _⟩ => ⟨S32x8732x4, .f32⟩
  | .hbm, ⟨3, _⟩ => ⟨S32x8732x4, .f32⟩
  | .hbm, ⟨4, _⟩ => ⟨S32x8732x4, .f32⟩
  | .hbm, ⟨5, _⟩ => ⟨S32x8732x4, .f32⟩
  | .hbm, ⟨6, _⟩ => ⟨S32x8732x4, .f32⟩
  | .hbm, ⟨7, _⟩ => ⟨S32x8732x4, .f32⟩
  | .hbm, ⟨8, _⟩ => ⟨S32x8732x4, .f32⟩
  | .hbm, ⟨9, _⟩ => ⟨S32x8732x4, .f32⟩
  | .hbm, ⟨10, _⟩ => ⟨S32x8732x4, .f32⟩
  | .hbm, ⟨11, _⟩ => ⟨S32x8732x4, .f32⟩
  | .hbm, ⟨12, _⟩ => ⟨S32x8732x4, .f32⟩
  | .hbm, ⟨13, _⟩ => ⟨S32x8732x21, .f32⟩
  | .hbm, ⟨14, _⟩ => ⟨S32x8732x21, .f32⟩
  | .hbm, ⟨15, _⟩ => ⟨S32x8732x21, .f32⟩
  | .hbm, ⟨16, _⟩ => ⟨S32x8732x21, .f32⟩
  | .hbm, ⟨17, _⟩ => ⟨S32x8732x21, .f32⟩
  | .hbm, ⟨18, _⟩ => ⟨S32x8732x21, .f32⟩
  | .hbm, ⟨19, _⟩ => ⟨S32x8732x21, .f32⟩
  | .hbm, ⟨20, _⟩ => ⟨S32x8732x21, .f32⟩
  | .hbm, ⟨21, _⟩ => ⟨S32x8732x21, .f32⟩
  | .hbm, ⟨22, _⟩ => ⟨S32x8732x21, .f32⟩
  | .hbm, ⟨23, _⟩ => ⟨S32x8732x21, .f32⟩
  | .hbm, ⟨24, _⟩ => ⟨S32x8732x21, .f32⟩
  | .hbm, ⟨25, _⟩ => ⟨S32x8732x4, .f32⟩
  | .hbm, ⟨26, _⟩ => ⟨S32x8732x4, .f32⟩
  | .hbm, ⟨27, _⟩ => ⟨S32x8732x4, .f32⟩
  | .hbm, ⟨28, _⟩ => ⟨S32x8732x4, .f32⟩
  | .hbm, ⟨29, _⟩ => ⟨S32x8732x4, .f32⟩
  | .hbm, ⟨30, _⟩ => ⟨S32x8732x4, .f32⟩
  | .hbm, ⟨31, _⟩ => ⟨S32x8732x4, .f32⟩
  | .hbm, ⟨32, _⟩ => ⟨S32x8732x4, .f32⟩
  | .hbm, ⟨33, _⟩ => ⟨S32x8732x4, .f32⟩
  | .hbm, ⟨34, _⟩ => ⟨S32x8732x4, .f32⟩
  | .hbm, ⟨35, _⟩ => ⟨S32x8732x4, .f32⟩
  | .hbm, ⟨36, _⟩ => ⟨S32x8732x4, .f32⟩
  | .hbm, ⟨37, _⟩ => ⟨S32x8732x4, .f32⟩
  | .hbm, ⟨38, _⟩ => ⟨S32x8732x4, .f32⟩
  | .hbm, ⟨39, _⟩ => ⟨S32x8732x4, .f32⟩
  | .hbm, ⟨40, _⟩ => ⟨S32x8732x4, .f32⟩
  | .hbm, ⟨41, _⟩ => ⟨S32x8732x4, .f32⟩
  | .hbm, ⟨42, _⟩ => ⟨S32x8732x4, .f32⟩
  | .hbm, ⟨43, _⟩ => ⟨S32x8732x4, .f32⟩
  | .hbm, ⟨44, _⟩ => ⟨S32x8732x4, .f32⟩
  | .hbm, ⟨45, _⟩ => ⟨S32x8732x4, .f32⟩
  | .hbm, ⟨46, _⟩ => ⟨S32x8732x4, .f32⟩
  | .hbm, ⟨47, _⟩ => ⟨S32x8732x4, .f32⟩
  | .hbm, ⟨48, _⟩ => ⟨S32x8732x4, .f32⟩
  | .hbm, ⟨49, _⟩ => ⟨S32x8732x4, .f32⟩
  | .hbm, ⟨50, _⟩ => ⟨S32x8732x4, .f32⟩
  | .hbm, ⟨51, _⟩ => ⟨S32x8732x4, .f32⟩
  | .hbm, ⟨52, _⟩ => ⟨S32x8732x4, .f32⟩
  | .hbm, ⟨53, _⟩ => ⟨S32x8732x4, .f32⟩
  | .hbm, ⟨54, _⟩ => ⟨S32x8732x21, .f32⟩
  | .hbm, ⟨55, _⟩ => ⟨S32x8732x21, .f32⟩
  | .hbm, ⟨56, _⟩ => ⟨S32x8732x21, .f32⟩
  | .hbm, ⟨57, _⟩ => ⟨S32x8732x21, .f32⟩
  | .hbm, ⟨58, _⟩ => ⟨S32x8732x21, .f32⟩
  | .hbm, ⟨59, _⟩ => ⟨S32x8732x21, .f32⟩
  | .hbm, ⟨60, _⟩ => ⟨S32x8732x21, .f32⟩
  | .hbm, ⟨61, _⟩ => ⟨S32x8732x21, .f32⟩
  | .hbm, ⟨62, _⟩ => ⟨S32x8732x21, .f32⟩
  | .hbm, ⟨63, _⟩ => ⟨S32x8732x21, .f32⟩
  | .hbm, ⟨64, _⟩ => ⟨S32x8732x21, .f32⟩
  | .hbm, ⟨65, _⟩ => ⟨S32x8732x21, .f32⟩
  | .hbm, ⟨66, _⟩ => ⟨S32x8732x21, .f32⟩
  | .hbm, ⟨67, _⟩ => ⟨S32x8732x21, .f32⟩
  | .hbm, ⟨68, _⟩ => ⟨S32x8732x21, .f32⟩
  | .hbm, ⟨69, _⟩ => ⟨S32x8732x21, .f32⟩
  | .hbm, ⟨70, _⟩ => ⟨S32x8732x21, .f32⟩
  | .hbm, ⟨71, _⟩ => ⟨S32x8732x21, .f32⟩
  | .hbm, ⟨72, _⟩ => ⟨S32x8732x21, .f32⟩
  | .hbm, ⟨73, _⟩ => ⟨S32x8732x21, .f32⟩
  | .hbm, ⟨74, _⟩ => ⟨S32x8732x21, .f32⟩
  | .hbm, ⟨75, _⟩ => ⟨S32x8732x21, .f32⟩
  | .hbm, ⟨76, _⟩ => ⟨S32x8732x21, .f32⟩
  | .hbm, ⟨77, _⟩ => ⟨S32x8732x21, .f32⟩
  | .hbm, ⟨78, _⟩ => ⟨S32x8732x21, .f32⟩
  | .hbm, ⟨79, _⟩ => ⟨S32x8732x21, .f32⟩
  | .hbm, ⟨80, _⟩ => ⟨S32x8732x21, .f32⟩
  | .hbm, ⟨81, _⟩ => ⟨S32x8732x21, .f32⟩
  | .hbm, ⟨82, _⟩ => ⟨S32x8732x21, .f32⟩
  | .hbm, ⟨83, _⟩ => ⟨S8732x2, .f32⟩
  | .hbm, ⟨84, _⟩ => ⟨S32x8732x2, .f32⟩
  | .hbm, ⟨85, _⟩ => ⟨S_, .f32⟩
  | .hbm, ⟨86, _⟩ => ⟨S32x8732x2, .f32⟩
  | .hbm, ⟨87, _⟩ => ⟨S32x8732x2, .f32⟩
  | .hbm, ⟨88, _⟩ => ⟨S8732x2, .f32⟩
  | .hbm, ⟨89, _⟩ => ⟨S1x8732x2, .f32⟩
  | .hbm, ⟨90, _⟩ => ⟨S32x8732x2, .f32⟩
  | .hbm, ⟨91, _⟩ => ⟨S32x8732x2, .f32⟩
  | .hbm, ⟨92, _⟩ => ⟨S1x8732x2, .f32⟩
  | .hbm, ⟨93, _⟩ => ⟨S32x8732x2, .f32⟩
  | .hbm, ⟨94, _⟩ => ⟨S32x8732x2, .f32⟩
  | .hbm, ⟨95, _⟩ => ⟨S8732x2, .f32⟩
  | .hbm, ⟨96, _⟩ => ⟨S32x8732x2, .f32⟩
  | .hbm, ⟨97, _⟩ => ⟨S_, .f32⟩
  | .hbm, ⟨98, _⟩ => ⟨S32x8732x2, .f32⟩
  | .hbm, ⟨99, _⟩ => ⟨S32x8732x2, .f32⟩
  | .hbm, ⟨100, _⟩ => ⟨S32x8732x2, .f32⟩
  | .hbm, ⟨101, _⟩ => ⟨S1x8732x2, .f32⟩
  | .hbm, ⟨102, _⟩ => ⟨S32x8732x2, .f32⟩
  | .hbm, ⟨103, _⟩ => ⟨S32x8732x2, .f32⟩
  | .hbm, ⟨104, _⟩ => ⟨S_, .f32⟩
  | .hbm, ⟨105, _⟩ => ⟨S32x8732x2, .f32⟩
  | .hbm, ⟨106, _⟩ => ⟨S32x8732x2, .f32⟩
  | .hbm, ⟨107, _⟩ => ⟨S32x8732x2, .f32⟩
  | .hbm, ⟨108, _⟩ => ⟨S32x8732x2, .f32⟩
  | .hbm, ⟨109, _⟩ => ⟨S32x8732x4, .f32⟩
  | .hbm, ⟨110, _⟩ => ⟨S32x8732x75, .f32⟩
  | _, _ => ⟨S8732x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_0 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_1 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩

abbrev nD : Nat := 1
abbrev τ : Topo := Topo.v7x

variable {F : FTy → Type} [FloatOps F]

class Facts₀ : Prop where
  slices_S8732x4_S8732x2_0_0 : S8732x4.Slices ![0, 0] S8732x2
  slices_S32x8732x4_S32x8732x2_0_0_0 : S32x8732x4.Slices ![0, 0, 0] S32x8732x2
  bcast_S_S32x8732x2 : S_.BroadcastsInDim S32x8732x2 (![] : Fin 0 → Fin S32x8732x2.rank)
  slices_S8732x4_S8732x2_0_2 : S8732x4.Slices ![0, 2] S8732x2
  bcast_S8732x2_S1x8732x2_1_2 : S8732x2.BroadcastsInDim S1x8732x2 (![1, 2] : Fin 2 → Fin S1x8732x2.rank)
  bcast_S1x8732x2_S32x8732x2_0_1_2 : S1x8732x2.BroadcastsInDim S32x8732x2 (![0, 1, 2] : Fin 3 → Fin S32x8732x2.rank)
  slices_S32x8732x4_S32x8732x2_0_0_2 : S32x8732x4.Slices ![0, 0, 2] S32x8732x2
  concatenates_S32x8732x2_S32x8732x2_S32x8732x4_d2 : Shape.Concatenates [S32x8732x2, S32x8732x2] S32x8732x4 2
  concatenates_S32x8732x4_S32x8732x4_S32x8732x4_S32x8732x21_S32x8732x21_S32x8732x21_S32x8732x75_d2 : Shape.Concatenates [S32x8732x4, S32x8732x4, S32x8732x4, S32x8732x21, S32x8732x21, S32x8732x21] S32x8732x75 2

variable [Facts₀]

class Facts : Prop extends Facts₀ where

variable [Facts]
-- ==== Proof.Spec.lean ====
import Idealize.ShloMosaic.Lib.ValueIdx

noncomputable section

namespace Cert.Spec

open Idealize.ShloMosaic

variable {F : FTy → Type} [FloatOps F]

abbrev c01 : F .f32 := Scalar.ofBits .f32 0x3DCCCCCD#32
abbrev c02 : F .f32 := Scalar.ofBits .f32 0x3E4CCCCD#32
abbrev c05 : F .f32 := Scalar.ofBits .f32 0x3F000000#32

def mix (w1 x1 w2 x2 w3 x3 w4 x4 : F .f32) : F .f32 :=
  FloatOps.addf (FloatOps.addf (FloatOps.addf (FloatOps.mulf w1 x1) (FloatOps.mulf w2 x2)) (FloatOps.mulf w3 x3))
    (FloatOps.mulf w4 x4)

def dev2 (w x μ : F .f32) : F .f32 := FloatOps.mulf w (FloatOps.mulf (FloatOps.subf x μ) (FloatOps.subf x μ))

def spread (w1 x1 w2 x2 w3 x3 w4 x4 : F .f32) : F .f32 :=
  FloatOps.addf (FloatOps.addf (FloatOps.addf (dev2 w1 x1 (mix w1 x1 w2 x2 w3 x3 w4 x4)) (dev2 w2 x2 (mix w1 x1 w2 x2 w3 x3 w4 x4)))
    (dev2 w3 x3 (mix w1 x1 w2 x2 w3 x3 w4 x4))) (dev2 w4 x4 (mix w1 x1 w2 x2 w3 x3 w4 x4))

def boxWH (ps ν : F .f32) : F .f32 := FloatOps.mulf ps (FloatOps.exp (FloatOps.mulf ν c02))

def boxLo (pc νc ps νs : F .f32) : F .f32 :=
  FloatOps.subf (FloatOps.addf pc (FloatOps.mulf (FloatOps.mulf νc c01) ps)) (FloatOps.mulf c05 (boxWH ps νs))

def boxHi (pc νc ps νs : F .f32) : F .f32 := FloatOps.addf (boxLo pc νc ps νs) (boxWH ps νs)

structure LocIn (α B N : Type) where
  (m1 s1 w1 m2 s2 w2 m3 s3 w3 m4 s4 w4 : B → Fin 4 → N → α)

structure ConfIn (α B N : Type) where
  (a1 t1 q1 a2 t2 q2 a3 t3 q3 a4 t4 q4 : Fin 21 → B → N → α)

variable {B N N' : Type}

def LocIn.comap {α : Type} (L : LocIn α B N) (f : N' → N) : LocIn α B N' :=
  ⟨fun b c p => L.m1 b c (f p), fun b c p => L.s1 b c (f p), fun b c p => L.w1 b c (f p),
   fun b c p => L.m2 b c (f p), fun b c p => L.s2 b c (f p), fun b c p => L.w2 b c (f p),
   fun b c p => L.m3 b c (f p), fun b c p => L.s3 b c (f p), fun b c p => L.w3 b c (f p),
   fun b c p => L.m4 b c (f p), fun b c p => L.s4 b c (f p), fun b c p => L.w4 b c (f p)⟩

def ConfIn.comap {α : Type} (C : ConfIn α B N) (f : N' → N) : ConfIn α B N' :=
  ⟨fun q b p => C.a1 q b (f p), fun q b p => C.t1 q b (f p), fun q b p => C.q1 q b (f p),
   fun q b p => C.a2 q b (f p), fun q b p => C.t2 q b (f p), fun q b p => C.q2 q b (f p),
   fun q b p => C.a3 q b (f p), fun q b p => C.t3 q b (f p), fun q b p => C.q3 q b (f p),
   fun q b p => C.a4 q b (f p), fun q b p => C.t4 q b (f p), fun q b p => C.q4 q b (f p)⟩

def locMean (L : LocIn (F .f32) B N) (b : B) (c : Fin 4) (p : N) : F .f32 :=
  mix (L.w1 b c p) (L.m1 b c p) (L.w2 b c p) (L.m2 b c p) (L.w3 b c p) (L.m3 b c p) (L.w4 b c p) (L.m4 b c p)

def locAl (L : LocIn (F .f32) B N) (b : B) (c : Fin 4) (p : N) : F .f32 :=
  mix (L.w1 b c p) (L.s1 b c p) (L.w2 b c p) (L.s2 b c p) (L.w3 b c p) (L.s3 b c p) (L.w4 b c p) (L.s4 b c p)

def locEp (L : LocIn (F .f32) B N) (b : B) (c : Fin 4) (p : N) : F .f32 :=
  spread (L.w1 b c p) (L.m1 b c p) (L.w2 b c p) (L.m2 b c p) (L.w3 b c p) (L.m3 b c p) (L.w4 b c p) (L.m4 b c p)

def confMean (C : ConfIn (F .f32) B N) (q : Fin 21) (b : B) (p : N) : F .f32 :=
  mix (C.q1 q b p) (C.a1 q b p) (C.q2 q b p) (C.a2 q b p) (C.q3 q b p) (C.a3 q b p) (C.q4 q b p) (C.a4 q b p)

def confAl (C : ConfIn (F .f32) B N) (q : Fin 21) (b : B) (p : N) : F .f32 :=
  mix (C.q1 q b p) (C.t1 q b p) (C.q2 q b p) (C.t2 q b p) (C.q3 q b p) (C.t3 q b p) (C.q4 q b p) (C.t4 q b p)

def confEp (C : ConfIn (F .f32) B N) (q : Fin 21) (b : B) (p : N) : F .f32 :=
  spread (C.q1 q b p) (C.a1 q b p) (C.q2 q b p) (C.a2 q b p) (C.q3 q b p) (C.a3 q b p) (C.q4 q b p) (C.a4 q b p)

structure Fused (pr : Fin 4 → N → F .f32) (L : LocIn (F .f32) B N) (C : ConfIn (F .f32) B N)
    (out : Fin 75 → B → N → F .f32) : Prop where
  lo0 : ∀ b p, out 0 b p = boxLo (pr 0 p) (locMean L b 0 p) (pr 2 p) (locMean L b 2 p)
  lo1 : ∀ b p, out 1 b p = boxLo (pr 1 p) (locMean L b 1 p) (pr 3 p) (locMean L b 3 p)
  hi0 : ∀ b p, out 2 b p = boxHi (pr 0 p) (locMean L b 0 p) (pr 2 p) (locMean L b 2 p)
  hi1 : ∀ b p, out 3 b p = boxHi (pr 1 p) (locMean L b 1 p) (pr 3 p) (locMean L b 3 p)
  al : ∀ (c : Fin 4) b p, out ⟨4 + c.val, by have := c.isLt; omega⟩ b p = locAl L b c p
  ep : ∀ (c : Fin 4) b p, out ⟨8 + c.val, by have := c.isLt; omega⟩ b p = locEp L b c p
  nc : ∀ (q : Fin 21) b p, out ⟨12 + q.val, by have := q.isLt; omega⟩ b p = confMean C q b p
  ca : ∀ (q : Fin 21) b p, out ⟨33 + q.val, by have := q.isLt; omega⟩ b p = confAl C q b p
  ce : ∀ (q : Fin 21) b p, out ⟨54 + q.val, by have := q.isLt; omega⟩ b p = confEp C q b p

variable {pr : Fin 4 → N → F .f32} {L : LocIn (F .f32) B N} {C : ConfIn (F .f32) B N} {o o' : Fin 75 → B → N → F .f32}

theorem Fused.comap (h : Fused pr L C o) (f : N' → N) :
    Fused (fun c p => pr c (f p)) (L.comap f) (C.comap f) (fun k b p => o k b (f p)) :=
  ⟨fun b p => h.lo0 b (f p), fun b p => h.lo1 b (f p), fun b p => h.hi0 b (f p), fun b p => h.hi1 b (f p),
   fun c b p => h.al c b (f p), fun c b p => h.ep c b (f p), fun q b p => h.nc q b (f p), fun q b p => h.ca q b (f p),
   fun q b p => h.ce q b (f p)⟩

theorem Fused.eq_at (h : Fused pr L C o) (h' : Fused pr L C o') (k : Fin 75) (b : B) (p : N) : o k b p = o' k b p := by
  obtain ⟨k, hk⟩ := k
  by_cases h0 : k = 0
  · subst h0; exact (h.lo0 b p).trans (h'.lo0 b p).symm
  by_cases h1 : k = 1
  · subst h1; exact (h.lo1 b p).trans (h'.lo1 b p).symm
  by_cases h2 : k = 2
  · subst h2; exact (h.hi0 b p).trans (h'.hi0 b p).symm
  by_cases h3 : k = 3
  · subst h3; exact (h.hi1 b p).trans (h'.hi1 b p).symm
  by_cases h8 : k < 8
  · have e : (⟨4 + (k - 4), by omega⟩ : Fin 75) = ⟨k, hk⟩ := Fin.ext (by show 4 + (k - 4) = k; omega)
    have a := h.al ⟨k - 4, by omega⟩ b p; have a' := h'.al ⟨k - 4, by omega⟩ b p
    rw [e] at a a'; exact a.trans a'.symm
  by_cases h12 : k < 12
  · have e : (⟨8 + (k - 8), by omega⟩ : Fin 75) = ⟨k, hk⟩ := Fin.ext (by show 8 + (k - 8) = k; omega)
    have a := h.ep ⟨k - 8, by omega⟩ b p; have a' := h'.ep ⟨k - 8, by omega⟩ b p
    rw [e] at a a'; exact a.trans a'.symm
  by_cases h33 : k < 33
  · have e : (⟨12 + (k - 12), by omega⟩ : Fin 75) = ⟨k, hk⟩ := Fin.ext (by show 12 + (k - 12) = k; omega)
    have a := h.nc ⟨k - 12, by omega⟩ b p; have a' := h'.nc ⟨k - 12, by omega⟩ b p
    rw [e] at a a'; exact a.trans a'.symm
  by_cases h54 : k < 54
  · have e : (⟨33 + (k - 33), by omega⟩ : Fin 75) = ⟨k, hk⟩ := Fin.ext (by show 33 + (k - 33) = k; omega)
    have a := h.ca ⟨k - 33, by omega⟩ b p; have a' := h'.ca ⟨k - 33, by omega⟩ b p
    rw [e] at a a'; exact a.trans a'.symm
  · have e : (⟨54 + (k - 54), by omega⟩ : Fin 75) = ⟨k, hk⟩ := Fin.ext (by show 54 + (k - 54) = k; omega)
    have a := h.ce ⟨k - 54, by omega⟩ b p; have a' := h'.ce ⟨k - 54, by omega⟩ b p
    rw [e] at a a'; exact a.trans a'.symm

-- A fusion's channels are determined by its inputs.
theorem Fused.ext (h : Fused pr L C o) (h' : Fused pr L C o') : o = o' :=
  funext fun k => funext fun b => funext fun p => h.eq_at h' k b p

section Arrays

variable {α : Type}

def prA (a0 : (⟨2, ![8732, 4]⟩ : Shape).Idx → α) : Fin 4 → Fin 8732 → α := fun c p => a0 (ValueIdx.ix2 p c)

def locInA (m1 s1 w1 m2 s2 w2 m3 s3 w3 m4 s4 w4 : (⟨3, ![32, 8732, 4]⟩ : Shape).Idx → α) : LocIn α (Fin 32) (Fin 8732) :=
  ⟨fun b c p => m1 (ValueIdx.ix3 b p c), fun b c p => s1 (ValueIdx.ix3 b p c), fun b c p => w1 (ValueIdx.ix3 b p c),
   fun b c p => m2 (ValueIdx.ix3 b p c), fun b c p => s2 (ValueIdx.ix3 b p c), fun b c p => w2 (ValueIdx.ix3 b p c),
   fun b c p => m3 (ValueIdx.ix3 b p c), fun b c p => s3 (ValueIdx.ix3 b p c), fun b c p => w3 (ValueIdx.ix3 b p c),
   fun b c p => m4 (ValueIdx.ix3 b p c), fun b c p => s4 (ValueIdx.ix3 b p c), fun b c p => w4 (ValueIdx.ix3 b p c)⟩

def confInA (a1 t1 q1 a2 t2 q2 a3 t3 q3 a4 t4 q4 : (⟨3, ![32, 8732, 21]⟩ : Shape).Idx → α) : ConfIn α (Fin 32) (Fin 8732) :=
  ⟨fun q b p => a1 (ValueIdx.ix3 b p q), fun q b p => t1 (ValueIdx.ix3 b p q), fun q b p => q1 (ValueIdx.ix3 b p q),
   fun q b p => a2 (ValueIdx.ix3 b p q), fun q b p => t2 (ValueIdx.ix3 b p q), fun q b p => q2 (ValueIdx.ix3 b p q),
   fun q b p => a3 (ValueIdx.ix3 b p q), fun q b p => t3 (ValueIdx.ix3 b p q), fun q b p => q3 (ValueIdx.ix3 b p q),
   fun q b p => a4 (ValueIdx.ix3 b p q), fun q b p => t4 (ValueIdx.ix3 b p q), fun q b p => q4 (ValueIdx.ix3 b p q)⟩

def outAtA (o : (⟨3, ![32, 8732, 75]⟩ : Shape).Idx → α) : Fin 75 → Fin 32 → Fin 8732 → α := fun k b p => o (ValueIdx.ix3 b p k)

theorem outAtA_inj {o o' : (⟨3, ![32, 8732, 75]⟩ : Shape).Idx → α} (h : outAtA o = outAtA o') : o = o' := by
  funext j
  have e := congrFun (congrFun (congrFun h (j 2)) (j 0)) (j 1)
  rw [ValueIdx.eq_ix3 j]; exact e

end Arrays
end Cert.Spec
end
-- ==== Proof.Blk.lean ====
import proofs.«160245_g86517821215618_cont_9to1_m_1401_10_alg».proof.Proof.Gen.KernelIdeal.Skeleton
import proofs.«160245_g86517821215618_cont_9to1_m_1401_10_alg».proof.Proof.Spec
import Idealize.ShloMosaic.Lib.Pipeline.FrameBody
import Idealize.ShloMosaic.Lib.ValueIdx
import Idealize.ShloMosaic.Lib.Ring
import Idealize.ShloMosaic.Lib.Tactic

noncomputable section

namespace Cert.Block

open Cert.KernelIdeal Cert.KernelIdeal.Gen
open Idealize.ShloMosaic Idealize.ShloMosaic.TcCoe Idealize.ShloMosaic.Tactic

variable {F : FTy → Type} [FloatOps F]

abbrev rP : Rect S4x640 := Rect.unit (s := S4x640) ![0, 0] S4x640.size inb_S4x640_S4x640_0_0
abbrev rL : Rect S16x4x640 := Rect.unit (s := S16x4x640) ![0, 0, 0] S16x4x640.size inb_S16x4x640_S16x4x640_0_0_0
abbrev rC : Rect S21x16x640 := Rect.unit (s := S21x16x640) ![0, 0, 0] S21x16x640.size inb_S21x16x640_S21x16x640_0_0_0
abbrev rk0 : Rect S75x16x640 := Rect.unit (s := S75x16x640) ![0, 0, 0] S1x16x640.size inb_S75x16x640_S1x16x640_0_0_0
abbrev rk1 : Rect S75x16x640 := Rect.unit (s := S75x16x640) ![1, 0, 0] S1x16x640.size inb_S75x16x640_S1x16x640_1_0_0
abbrev rk2 : Rect S75x16x640 := Rect.unit (s := S75x16x640) ![2, 0, 0] S1x16x640.size inb_S75x16x640_S1x16x640_2_0_0
abbrev rk3 : Rect S75x16x640 := Rect.unit (s := S75x16x640) ![3, 0, 0] S1x16x640.size inb_S75x16x640_S1x16x640_3_0_0
abbrev rk4 : Rect S75x16x640 := Rect.unit (s := S75x16x640) ![4, 0, 0] S1x16x640.size inb_S75x16x640_S1x16x640_4_0_0
abbrev rk5 : Rect S75x16x640 := Rect.unit (s := S75x16x640) ![5, 0, 0] S1x16x640.size inb_S75x16x640_S1x16x640_5_0_0
abbrev rk6 : Rect S75x16x640 := Rect.unit (s := S75x16x640) ![6, 0, 0] S1x16x640.size inb_S75x16x640_S1x16x640_6_0_0
abbrev rk7 : Rect S75x16x640 := Rect.unit (s := S75x16x640) ![7, 0, 0] S1x16x640.size inb_S75x16x640_S1x16x640_7_0_0
abbrev rk8 : Rect S75x16x640 := Rect.unit (s := S75x16x640) ![8, 0, 0] S1x16x640.size inb_S75x16x640_S1x16x640_8_0_0
abbrev rk9 : Rect S75x16x640 := Rect.unit (s := S75x16x640) ![9, 0, 0] S1x16x640.size inb_S75x16x640_S1x16x640_9_0_0
abbrev rk10 : Rect S75x16x640 := Rect.unit (s := S75x16x640) ![10, 0, 0] S1x16x640.size inb_S75x16x640_S1x16x640_10_0_0
abbrev rk11 : Rect S75x16x640 := Rect.unit (s := S75x16x640) ![11, 0, 0] S1x16x640.size inb_S75x16x640_S1x16x640_11_0_0
abbrev rg12 : Rect S75x16x640 := Rect.unit (s := S75x16x640) ![12, 0, 0] S21x16x640.size inb_S75x16x640_S21x16x640_12_0_0
abbrev rg33 : Rect S75x16x640 := Rect.unit (s := S75x16x640) ![33, 0, 0] S21x16x640.size inb_S75x16x640_S21x16x640_33_0_0
abbrev rg54 : Rect S75x16x640 := Rect.unit (s := S75x16x640) ![54, 0, 0] S21x16x640.size inb_S75x16x640_S21x16x640_54_0_0
abbrev lm1 (M1 : Vec F S16x4x640 .f32) : FVec F S16x4x640 .f32 := k0_pay4 (View.ld M1 rL)
abbrev lm2 (M2 : Vec F S16x4x640 .f32) : FVec F S16x4x640 .f32 := k0_pay5 (View.ld M2 rL)
abbrev lm3 (M3 : Vec F S16x4x640 .f32) : FVec F S16x4x640 .f32 := k0_pay6 (View.ld M3 rL)
abbrev lm4 (M4 : Vec F S16x4x640 .f32) : FVec F S16x4x640 .f32 := k0_pay7 (View.ld M4 rL)
abbrev lw1 (W1 : Vec F S16x4x640 .f32) : FVec F S16x4x640 .f32 := k0_pay8 (View.ld W1 rL)
abbrev lw2 (W2 : Vec F S16x4x640 .f32) : FVec F S16x4x640 .f32 := k0_pay9 (View.ld W2 rL)
abbrev lw3 (W3 : Vec F S16x4x640 .f32) : FVec F S16x4x640 .f32 := k0_pay10 (View.ld W3 rL)
abbrev lw4 (W4 : Vec F S16x4x640 .f32) : FVec F S16x4x640 .f32 := k0_pay11 (View.ld W4 rL)
abbrev ls1 (S1 : Vec F S16x4x640 .f32) : FVec F S16x4x640 .f32 := k0_pay12 (View.ld S1 rL)
abbrev ls2 (S2 : Vec F S16x4x640 .f32) : FVec F S16x4x640 .f32 := k0_pay13 (View.ld S2 rL)
abbrev ls3 (S3 : Vec F S16x4x640 .f32) : FVec F S16x4x640 .f32 := k0_pay14 (View.ld S3 rL)

def alB (S1 S2 S3 S4 W1 W2 W3 W4 : Vec F S16x4x640 .f32) : FVec F S16x4x640 .f32 :=
  k0_pay16 (lw1 W1) (lw2 W2) (lw3 W3) (lw4 W4) (ls1 S1) (ls2 S2) (ls3 S3) (View.ld S4 rL)

def epB (M1 M2 M3 M4 W1 W2 W3 W4 : Vec F S16x4x640 .f32) : FVec F S16x4x640 .f32 := k0_pay17 (lm1 M1) (lm2 M2) (lm3 M3) (lm4 M4) (lw1 W1) (lw2 W2) (lw3 W3) (lw4 W4)
def whB (P : Vec F S4x640 .f32) (M1 M2 M3 M4 W1 W2 W3 W4 : Vec F S16x4x640 .f32) : FVec F S16x4x640 .f32 := k0_pay20 (lm1 M1) (lm2 M2) (lm3 M3) (lm4 M4) (lw1 W1) (lw2 W2) (lw3 W3) (lw4 W4) (View.ld P rP)
def ctrB (P : Vec F S4x640 .f32) (M1 M2 M3 M4 W1 W2 W3 W4 : Vec F S16x4x640 .f32) : FVec F S16x4x640 .f32 := k0_pay21 (lm1 M1) (lm2 M2) (lm3 M3) (lm4 M4) (lw1 W1) (lw2 W2) (lw3 W3) (lw4 W4) (View.ld P rP)
def halfB (P : Vec F S4x640 .f32) (M1 M2 M3 M4 W1 W2 W3 W4 : Vec F S16x4x640 .f32) : FVec F S16x4x640 .f32 := k0_pay22 (lm1 M1) (lm2 M2) (lm3 M3) (lm4 M4) (lw1 W1) (lw2 W2) (lw3 W3) (lw4 W4) (View.ld P rP)

def decB (P : Vec F S4x640 .f32) (M1 M2 M3 M4 W1 W2 W3 W4 : Vec F S16x4x640 .f32) : FVec F S16x4x640 .f32 :=
  k0_pay23 (whB P M1 M2 M3 M4 W1 W2 W3 W4) (ctrB P M1 M2 M3 M4 W1 W2 W3 W4) (halfB P M1 M2 M3 M4 W1 W2 W3 W4)

abbrev ca1 (A1 : Vec F S21x16x640 .f32) : FVec F S21x16x640 .f32 := k0_pay37 (View.ld A1 rC)
abbrev ca2 (A2 : Vec F S21x16x640 .f32) : FVec F S21x16x640 .f32 := k0_pay38 (View.ld A2 rC)
abbrev ca3 (A3 : Vec F S21x16x640 .f32) : FVec F S21x16x640 .f32 := k0_pay39 (View.ld A3 rC)
abbrev ca4 (A4 : Vec F S21x16x640 .f32) : FVec F S21x16x640 .f32 := k0_pay40 (View.ld A4 rC)
abbrev cq1 (Q1 : Vec F S21x16x640 .f32) : FVec F S21x16x640 .f32 := k0_pay41 (View.ld Q1 rC)
abbrev cq2 (Q2 : Vec F S21x16x640 .f32) : FVec F S21x16x640 .f32 := k0_pay42 (View.ld Q2 rC)
abbrev cq3 (Q3 : Vec F S21x16x640 .f32) : FVec F S21x16x640 .f32 := k0_pay43 (View.ld Q3 rC)
abbrev cq4 (Q4 : Vec F S21x16x640 .f32) : FVec F S21x16x640 .f32 := k0_pay44 (View.ld Q4 rC)
abbrev ct1 (T1 : Vec F S21x16x640 .f32) : FVec F S21x16x640 .f32 := k0_pay45 (View.ld T1 rC)
abbrev ct2 (T2 : Vec F S21x16x640 .f32) : FVec F S21x16x640 .f32 := k0_pay46 (View.ld T2 rC)
abbrev ct3 (T3 : Vec F S21x16x640 .f32) : FVec F S21x16x640 .f32 := k0_pay47 (View.ld T3 rC)
abbrev ct4 (T4 : Vec F S21x16x640 .f32) : FVec F S21x16x640 .f32 := k0_pay48 (View.ld T4 rC)
abbrev cqa1 (A1 Q1 : Vec F S21x16x640 .f32) : FVec F S21x16x640 .f32 := k0_pay49 (View.ld A1 rC) (View.ld Q1 rC)
abbrev cqa2 (A2 Q2 : Vec F S21x16x640 .f32) : FVec F S21x16x640 .f32 := k0_pay50 (View.ld A2 rC) (View.ld Q2 rC)

def ncB (A1 A2 A3 A4 Q1 Q2 Q3 Q4 : Vec F S21x16x640 .f32) : FVec F S21x16x640 .f32 :=
  k0_pay1 (ca3 A3) (ca4 A4) (cq3 Q3) (cq4 Q4) (cqa1 A1 Q1) (cqa2 A2 Q2)

def caB (T1 T2 T3 T4 Q1 Q2 Q3 Q4 : Vec F S21x16x640 .f32) : FVec F S21x16x640 .f32 :=
  k0_pay2 (cq1 Q1) (cq2 Q2) (cq3 Q3) (cq4 Q4) (ct1 T1) (ct2 T2) (ct3 T3) (ct4 T4)

def ceB (A1 A2 A3 A4 Q1 Q2 Q3 Q4 : Vec F S21x16x640 .f32) : FVec F S21x16x640 .f32 :=
  k0_pay3 (ca1 A1) (ca2 A2) (ca3 A3) (ca4 A4) (cq1 Q1) (cq2 Q2) (cq3 Q3) (cq4 Q4) (cqa1 A1 Q1) (cqa2 A2 Q2)

-- The stores in reverse program order: where two rectangles meet, the later store decides.
def outPieces (P : Vec F S4x640 .f32) (M1 S1 W1 M2 S2 W2 M3 S3 W3 M4 S4 W4 : Vec F S16x4x640 .f32) (A1 T1 Q1 A2 T2 Q2 A3 T3 Q3 A4 T4 Q4 : Vec F S21x16x640 .f32) : List (View.Piece (Elt F) S75x16x640 .f32) :=
  [⟨rg54, ceB A1 A2 A3 A4 Q1 Q2 Q3 Q4⟩, ⟨rg33, caB T1 T2 T3 T4 Q1 Q2 Q3 Q4⟩, ⟨rg12, ncB A1 A2 A3 A4 Q1 Q2 Q3 Q4⟩,
   ⟨rk11, k0_pay36 (epB M1 M2 M3 M4 W1 W2 W3 W4)⟩, ⟨rk7, k0_pay35 (alB S1 S2 S3 S4 W1 W2 W3 W4)⟩,
   ⟨rk3, k0_pay34 (decB P M1 M2 M3 M4 W1 W2 W3 W4)⟩, ⟨rk10, k0_pay33 (epB M1 M2 M3 M4 W1 W2 W3 W4)⟩,
   ⟨rk6, k0_pay32 (alB S1 S2 S3 S4 W1 W2 W3 W4)⟩, ⟨rk2, k0_pay31 (decB P M1 M2 M3 M4 W1 W2 W3 W4)⟩,
   ⟨rk9, k0_pay30 (k0_pay29 (epB M1 M2 M3 M4 W1 W2 W3 W4))⟩, ⟨rk5, k0_pay28 (alB S1 S2 S3 S4 W1 W2 W3 W4)⟩,
   ⟨rk1, k0_pay27 (whB P M1 M2 M3 M4 W1 W2 W3 W4) (ctrB P M1 M2 M3 M4 W1 W2 W3 W4) (halfB P M1 M2 M3 M4 W1 W2 W3 W4)⟩,
   ⟨rk8, k0_pay26 (epB M1 M2 M3 M4 W1 W2 W3 W4)⟩, ⟨rk4, k0_pay25 (alB S1 S2 S3 S4 W1 W2 W3 W4)⟩,
   ⟨rk0, k0_pay24 (whB P M1 M2 M3 M4 W1 W2 W3 W4) (ctrB P M1 M2 M3 M4 W1 W2 W3 W4) (halfB P M1 M2 M3 M4 W1 W2 W3 W4)⟩]

-- The output block after the body: at each index the value of the last store whose rectangle holds it.
def outBlk (P : Vec F S4x640 .f32) (M1 S1 W1 M2 S2 W2 M3 S3 W3 M4 S4 W4 : Vec F S16x4x640 .f32) (A1 T1 Q1 A2 T2 Q2 A3 T3 Q3 A4 T4 Q4 : Vec F S21x16x640 .f32) : Vec F S75x16x640 .f32 := View.canon (outPieces P M1 S1 W1 M2 S2 W2 M3 S3 W3 M4 S4 W4 A1 T1 Q1 A2 T2 Q2 A3 T3 Q3 A4 T4 Q4)

def prB (P : Vec F S4x640 .f32) : Fin 4 → Fin 640 → F .f32 := fun c p => P (ValueIdx.ix2 c p)

def locInB (M1 S1 W1 M2 S2 W2 M3 S3 W3 M4 S4 W4 : Vec F S16x4x640 .f32) : Spec.LocIn (F .f32) (Fin 16) (Fin 640) :=
  ⟨fun b c p => M1 (ValueIdx.ix3 b c p), fun b c p => S1 (ValueIdx.ix3 b c p), fun b c p => W1 (ValueIdx.ix3 b c p),
   fun b c p => M2 (ValueIdx.ix3 b c p), fun b c p => S2 (ValueIdx.ix3 b c p), fun b c p => W2 (ValueIdx.ix3 b c p),
   fun b c p => M3 (ValueIdx.ix3 b c p), fun b c p => S3 (ValueIdx.ix3 b c p), fun b c p => W3 (ValueIdx.ix3 b c p),
   fun b c p => M4 (ValueIdx.ix3 b c p), fun b c p => S4 (ValueIdx.ix3 b c p), fun b c p => W4 (ValueIdx.ix3 b c p)⟩

def confInB (A1 T1 Q1 A2 T2 Q2 A3 T3 Q3 A4 T4 Q4 : Vec F S21x16x640 .f32) : Spec.ConfIn (F .f32) (Fin 16) (Fin 640) :=
  ⟨fun q b p => A1 (ValueIdx.ix3 q b p), fun q b p => T1 (ValueIdx.ix3 q b p), fun q b p => Q1 (ValueIdx.ix3 q b p),
   fun q b p => A2 (ValueIdx.ix3 q b p), fun q b p => T2 (ValueIdx.ix3 q b p), fun q b p => Q2 (ValueIdx.ix3 q b p),
   fun q b p => A3 (ValueIdx.ix3 q b p), fun q b p => T3 (ValueIdx.ix3 q b p), fun q b p => Q3 (ValueIdx.ix3 q b p),
   fun q b p => A4 (ValueIdx.ix3 q b p), fun q b p => T4 (ValueIdx.ix3 q b p), fun q b p => Q4 (ValueIdx.ix3 q b p)⟩

def outAtB (O : Vec F S75x16x640 .f32) : Fin 75 → Fin 16 → Fin 640 → F .f32 := fun k b p => O (ValueIdx.ix3 k b p)

-- Twelve single rows and three runs of twenty-one rows of the leading axis make all 75 rows, so every index is covered.
theorem outPieces_cover (P : Vec F S4x640 .f32) (M1 S1 W1 M2 S2 W2 M3 S3 W3 M4 S4 W4 : Vec F S16x4x640 .f32) (A1 T1 Q1 A2 T2 Q2 A3 T3 Q3 A4 T4 Q4 : Vec F S21x16x640 .f32) (y : S75x16x640.Idx) :
    ∃ pc ∈ outPieces P M1 S1 W1 M2 S2 W2 M3 S3 W3 M4 S4 W4 A1 T1 Q1 A2 T2 Q2 A3 T3 Q3 A4 T4 Q4, y ∈ pc.1.set :=
  View.cover_of_tiledBy (outPieces P M1 S1 W1 M2 S2 W2 M3 S3 W3 M4 S4 W4 A1 T1 Q1 A2 T2 Q2 A3 T3 Q3 A4 T4 Q4) S1x16x640.size (by sl_kernel_rfl) y

end Cert.Block
end
-- ==== Proof.BlkLocAE.lean ====
import proofs.«160245_g86517821215618_cont_9to1_m_1401_10_alg».proof.Proof.Blk
import Idealize.ShloMosaic.Lib.Pipeline.Value
import Idealize.ShloMosaic.Lib.ValueIdx
import Idealize.ShloMosaic.Lib.ValueLayout
import Idealize.ShloMosaic.Lib.Pipeline.FrameBody

noncomputable section

namespace Cert.Block

open Cert.KernelIdeal Cert.KernelIdeal.Gen
open Idealize.ShloMosaic Idealize.ShloMosaic.TcCoe Idealize.ShloMosaic.ValueIdx

variable {F : FTy → Type} [FloatOps F]

theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

theorem row0_read (X : FVec F S16x4x640 .f32) (b : Fin 16) (p : Fin 640) :
    shapeCast S1x16x640 (shapeCast S16x640 (extractStridedSlice S16x1x640 ![0, 0, 0] X slices_S16x4x640_o0_0_0_S16x1x640)
      shapeCasts_S16x1x640_S16x640) shapeCasts_S16x640_S1x16x640 (ix3 (0 : Fin 1) b p) = X (ix3 b (⟨0, by decide⟩ : Fin 4) p) :=
  (shapeCast_ab_1ab_apply _ _ 0 b p).trans ((shapeCast_a1b_ab_apply _ _ b p).trans
    (slice3_axis1_apply 0 X _ b 0 p ⟨0, by decide⟩ rfl))

theorem row1_read (X : FVec F S16x4x640 .f32) (b : Fin 16) (p : Fin 640) :
    shapeCast S1x16x640 (shapeCast S16x640 (extractStridedSlice S16x1x640 ![0, 1, 0] X slices_S16x4x640_o0_1_0_S16x1x640)
      shapeCasts_S16x1x640_S16x640) shapeCasts_S16x640_S1x16x640 (ix3 (0 : Fin 1) b p) = X (ix3 b (⟨1, by decide⟩ : Fin 4) p) :=
  (shapeCast_ab_1ab_apply _ _ 0 b p).trans ((shapeCast_a1b_ab_apply _ _ b p).trans
    (slice3_axis1_apply 1 X _ b 0 p ⟨1, by decide⟩ rfl))

theorem row2_read (X : FVec F S16x4x640 .f32) (b : Fin 16) (p : Fin 640) :
    shapeCast S1x16x640 (shapeCast S16x640 (extractStridedSlice S16x1x640 ![0, 2, 0] X slices_S16x4x640_o0_2_0_S16x1x640)
      shapeCasts_S16x1x640_S16x640) shapeCasts_S16x640_S1x16x640 (ix3 (0 : Fin 1) b p) = X (ix3 b (⟨2, by decide⟩ : Fin 4) p) :=
  (shapeCast_ab_1ab_apply _ _ 0 b p).trans ((shapeCast_a1b_ab_apply _ _ b p).trans
    (slice3_axis1_apply 2 X _ b 0 p ⟨2, by decide⟩ rfl))

theorem row3_read (X : FVec F S16x4x640 .f32) (b : Fin 16) (p : Fin 640) :
    shapeCast S1x16x640 (shapeCast S16x640 (extractStridedSlice S16x1x640 ![0, 3, 0] X slices_S16x4x640_o0_3_0_S16x1x640)
      shapeCasts_S16x1x640_S16x640) shapeCasts_S16x640_S1x16x640 (ix3 (0 : Fin 1) b p) = X (ix3 b (⟨3, by decide⟩ : Fin 4) p) :=
  (shapeCast_ab_1ab_apply _ _ 0 b p).trans ((shapeCast_a1b_ab_apply _ _ b p).trans
    (slice3_axis1_apply 3 X _ b 0 p ⟨3, by decide⟩ rfl))

theorem not_mem_of_row (K : Fin 75) (b : Fin 16) (p : Fin 640) (off size : Fin 3 → Nat)
    (inb : ∀ a, off a + size a ≤ S75x16x640.size a) (h : K.val < off 0 ∨ off 0 + size 0 ≤ K.val) :
    ix3 K b p ∉ (Rect.unit (s := S75x16x640) off size inb).set := by
  intro hm
  have h0 := (Rect.mem_set_unit.mp hm) 0
  have e : ((ix3 K b p : S75x16x640.Idx) 0 : Nat) = K.val := rfl
  rw [e] at h0
  omega

theorem ix3_eq_row_emb (k : Nat) (hk : k < 75) (inb : ∀ a, (![k, 0, 0] : Fin 3 → Nat) a + S1x16x640.size a ≤ S75x16x640.size a)
    (b : Fin 16) (p : Fin 640) :
    (ix3 (⟨k, hk⟩ : Fin 75) b p : S75x16x640.Idx) = (Rect.unit (s := S75x16x640) ![k, 0, 0] S1x16x640.size inb).emb (ix3 (0 : Fin 1) b p) := by
  funext a
  apply Fin.ext
  rw [Rect.emb_apply]
  match a with
  | ⟨0, _⟩ => show k = k + 1 * 0; omega
  | ⟨1, _⟩ => show b.val = 0 + 1 * b.val; omega
  | ⟨2, _⟩ => show p.val = 0 + 1 * p.val; omega

theorem canon_row (k : Nat) (hk : k < 75) (inb : ∀ a, (![k, 0, 0] : Fin 3 → Nat) a + S1x16x640.size a ≤ S75x16x640.size a)
    (w : FVec F S1x16x640 .f32) (L : List (View.Piece (Elt F) S75x16x640 .f32)) (b : Fin 16) (p : Fin 640) :
    View.canon ((⟨Rect.unit (s := S75x16x640) ![k, 0, 0] S1x16x640.size inb, w⟩ : View.Piece (Elt F) S75x16x640 .f32) :: L)
      (ix3 (⟨k, hk⟩ : Fin 75) b p) = w (ix3 (0 : Fin 1) b p) := by
  have e := View.canon_cons_emb (Val := Elt F) (e := .f32) (Rect.unit (s := S75x16x640) ![k, 0, 0] S1x16x640.size inb) w L (ix3 (0 : Fin 1) b p)
  rw [← ix3_eq_row_emb k hk inb b p] at e
  exact e

theorem canon_skip (off size : Fin 3 → Nat) (inb : ∀ a, off a + size a ≤ S75x16x640.size a)
    (w : (Rect.unit (s := S75x16x640) off size inb).shape.Idx → Elt F .f32) (L : List (View.Piece (Elt F) S75x16x640 .f32))
    (K : Fin 75) (b : Fin 16) (p : Fin 640) (h : K.val < off 0 ∨ off 0 + size 0 ≤ K.val) :
    View.canon ((⟨Rect.unit (s := S75x16x640) off size inb, w⟩ : View.Piece (Elt F) S75x16x640 .f32) :: L) (ix3 K b p)
      = View.canon L (ix3 K b p) :=
  View.canon_cons_of_not_mem _ L (not_mem_of_row K b p off size inb h)

theorem ld_cast (X : Vec F S16x4x640 .f32) :
    shapeCast S16x4x640 (View.ld X rL) shapeCasts_S16x4x640_S16x4x640 = X :=
  (shapeCast_self _ _).trans (View.ld_unit_zero (funext fun a => by fin_cases a <;> rfl) _ X)

theorem alB_apply (S1 S2 S3 S4 W1 W2 W3 W4 : Vec F S16x4x640 .f32) (i : S16x4x640.Idx) :
    alB S1 S2 S3 S4 W1 W2 W3 W4 i = Spec.mix (W1 i) (S1 i) (W2 i) (S2 i) (W3 i) (S3 i) (W4 i) (S4 i) := by
  unfold alB
  rw [show lw1 W1 = W1 from ld_cast W1, show lw2 W2 = W2 from ld_cast W2, show lw3 W3 = W3 from ld_cast W3,
    show lw4 W4 = W4 from ld_cast W4, show ls1 S1 = S1 from ld_cast S1, show ls2 S2 = S2 from ld_cast S2,
    show ls3 S3 = S3 from ld_cast S3]
  unfold k0_pay16
  rw [ld_cast S4]
  rfl

theorem epB_apply (M1 M2 M3 M4 W1 W2 W3 W4 : Vec F S16x4x640 .f32) (i : S16x4x640.Idx) :
    epB M1 M2 M3 M4 W1 W2 W3 W4 i = Spec.spread (W1 i) (M1 i) (W2 i) (M2 i) (W3 i) (M3 i) (W4 i) (M4 i) := by
  unfold epB
  rw [show lw1 W1 = W1 from ld_cast W1, show lw2 W2 = W2 from ld_cast W2, show lw3 W3 = W3 from ld_cast W3,
    show lw4 W4 = W4 from ld_cast W4, show lm1 M1 = M1 from ld_cast M1, show lm2 M2 = M2 from ld_cast M2,
    show lm3 M3 = M3 from ld_cast M3, show lm4 M4 = M4 from ld_cast M4]
  rfl

theorem out_at_4 (P : Vec F S4x640 .f32) (M1 S1 W1 M2 S2 W2 M3 S3 W3 M4 S4 W4 : Vec F S16x4x640 .f32)
    (A1 T1 Q1 A2 T2 Q2 A3 T3 Q3 A4 T4 Q4 : Vec F S21x16x640 .f32) (b : Fin 16) (p : Fin 640) :
    outBlk P M1 S1 W1 M2 S2 W2 M3 S3 W3 M4 S4 W4 A1 T1 Q1 A2 T2 Q2 A3 T3 Q3 A4 T4 Q4 (ix3 (⟨4, by decide⟩ : Fin 75) b p)
      = k0_pay25 (alB S1 S2 S3 S4 W1 W2 W3 W4) (ix3 (0 : Fin 1) b p) := by
  unfold outBlk outPieces
  iterate 13 refine (canon_skip _ _ _ _ _ ⟨4, by decide⟩ b p (by decide)).trans ?_
  exact canon_row 4 (by decide) _ _ _ b p

theorem out_at_5 (P : Vec F S4x640 .f32) (M1 S1 W1 M2 S2 W2 M3 S3 W3 M4 S4 W4 : Vec F S16x4x640 .f32)
    (A1 T1 Q1 A2 T2 Q2 A3 T3 Q3 A4 T4 Q4 : Vec F S21x16x640 .f32) (b : Fin 16) (p : Fin 640) :
    outBlk P M1 S1 W1 M2 S2 W2 M3 S3 W3 M4 S4 W4 A1 T1 Q1 A2 T2 Q2 A3 T3 Q3 A4 T4 Q4 (ix3 (⟨5, by decide⟩ : Fin 75) b p)
      = k0_pay28 (alB S1 S2 S3 S4 W1 W2 W3 W4) (ix3 (0 : Fin 1) b p) := by
  unfold outBlk outPieces
  iterate 10 refine (canon_skip _ _ _ _ _ ⟨5, by decide⟩ b p (by decide)).trans ?_
  exact canon_row 5 (by decide) _ _ _ b p

theorem out_at_6 (P : Vec F S4x640 .f32) (M1 S1 W1 M2 S2 W2 M3 S3 W3 M4 S4 W4 : Vec F S16x4x640 .f32)
    (A1 T1 Q1 A2 T2 Q2 A3 T3 Q3 A4 T4 Q4 : Vec F S21x16x640 .f32) (b : Fin 16) (p : Fin 640) :
    outBlk P M1 S1 W1 M2 S2 W2 M3 S3 W3 M4 S4 W4 A1 T1 Q1 A2 T2 Q2 A3 T3 Q3 A4 T4 Q4 (ix3 (⟨6, by decide⟩ : Fin 75) b p)
      = k0_pay32 (alB S1 S2 S3 S4 W1 W2 W3 W4) (ix3 (0 : Fin 1) b p) := by
  unfold outBlk outPieces
  iterate 7 refine (canon_skip _ _ _ _ _ ⟨6, by decide⟩ b p (by decide)).trans ?_
  exact canon_row 6 (by decide) _ _ _ b p

theorem out_at_7 (P : Vec F S4x640 .f32) (M1 S1 W1 M2 S2 W2 M3 S3 W3 M4 S4 W4 : Vec F S16x4x640 .f32)
    (A1 T1 Q1 A2 T2 Q2 A3 T3 Q3 A4 T4 Q4 : Vec F S21x16x640 .f32) (b : Fin 16) (p : Fin 640) :
    outBlk P M1 S1 W1 M2 S2 W2 M3 S3 W3 M4 S4 W4 A1 T1 Q1 A2 T2 Q2 A3 T3 Q3 A4 T4 Q4 (ix3 (⟨7, by decide⟩ : Fin 75) b p)
      = k0_pay35 (alB S1 S2 S3 S4 W1 W2 W3 W4) (ix3 (0 : Fin 1) b p) := by
  unfold outBlk outPieces
  iterate 4 refine (canon_skip _ _ _ _ _ ⟨7, by decide⟩ b p (by decide)).trans ?_
  exact canon_row 7 (by decide) _ _ _ b p

theorem out_at_8 (P : Vec F S4x640 .f32) (M1 S1 W1 M2 S2 W2 M3 S3 W3 M4 S4 W4 : Vec F S16x4x640 .f32)
    (A1 T1 Q1 A2 T2 Q2 A3 T3 Q3 A4 T4 Q4 : Vec F S21x16x640 .f32) (b : Fin 16) (p : Fin 640) :
    outBlk P M1 S1 W1 M2 S2 W2 M3 S3 W3 M4 S4 W4 A1 T1 Q1 A2 T2 Q2 A3 T3 Q3 A4 T4 Q4 (ix3 (⟨8, by decide⟩ : Fin 75) b p)
      = k0_pay26 (epB M1 M2 M3 M4 W1 W2 W3 W4) (ix3 (0 : Fin 1) b p) := by
  unfold outBlk outPieces
  iterate 12 refine (canon_skip _ _ _ _ _ ⟨8, by decide⟩ b p (by decide)).trans ?_
  exact canon_row 8 (by decide) _ _ _ b p

theorem out_at_9 (P : Vec F S4x640 .f32) (M1 S1 W1 M2 S2 W2 M3 S3 W3 M4 S4 W4 : Vec F S16x4x640 .f32)
    (A1 T1 Q1 A2 T2 Q2 A3 T3 Q3 A4 T4 Q4 : Vec F S21x16x640 .f32) (b : Fin 16) (p : Fin 640) :
    outBlk P M1 S1 W1 M2 S2 W2 M3 S3 W3 M4 S4 W4 A1 T1 Q1 A2 T2 Q2 A3 T3 Q3 A4 T4 Q4 (ix3 (⟨9, by decide⟩ : Fin 75) b p)
      = k0_pay30 (k0_pay29 (epB M1 M2 M3 M4 W1 W2 W3 W4)) (ix3 (0 : Fin 1) b p) := by
  unfold outBlk outPieces
  iterate 9 refine (canon_skip _ _ _ _ _ ⟨9, by decide⟩ b p (by decide)).trans ?_
  exact canon_row 9 (by decide) _ _ _ b p

theorem out_at_10 (P : Vec F S4x640 .f32) (M1 S1 W1 M2 S2 W2 M3 S3 W3 M4 S4 W4 : Vec F S16x4x640 .f32)
    (A1 T1 Q1 A2 T2 Q2 A3 T3 Q3 A4 T4 Q4 : Vec F S21x16x640 .f32) (b : Fin 16) (p : Fin 640) :
    outBlk P M1 S1 W1 M2 S2 W2 M3 S3 W3 M4 S4 W4 A1 T1 Q1 A2 T2 Q2 A3 T3 Q3 A4 T4 Q4 (ix3 (⟨10, by decide⟩ : Fin 75) b p)
      = k0_pay33 (epB M1 M2 M3 M4 W1 W2 W3 W4) (ix3 (0 : Fin 1) b p) := by
  unfold outBlk outPieces
  iterate 6 refine (canon_skip _ _ _ _ _ ⟨10, by decide⟩ b p (by decide)).trans ?_
  exact canon_row 10 (by decide) _ _ _ b p

theorem out_at_11 (P : Vec F S4x640 .f32) (M1 S1 W1 M2 S2 W2 M3 S3 W3 M4 S4 W4 : Vec F S16x4x640 .f32)
    (A1 T1 Q1 A2 T2 Q2 A3 T3 Q3 A4 T4 Q4 : Vec F S21x16x640 .f32) (b : Fin 16) (p : Fin 640) :
    outBlk P M1 S1 W1 M2 S2 W2 M3 S3 W3 M4 S4 W4 A1 T1 Q1 A2 T2 Q2 A3 T3 Q3 A4 T4 Q4 (ix3 (⟨11, by decide⟩ : Fin 75) b p)
      = k0_pay36 (epB M1 M2 M3 M4 W1 W2 W3 W4) (ix3 (0 : Fin 1) b p) := by
  unfold outBlk outPieces
  iterate 3 refine (canon_skip _ _ _ _ _ ⟨11, by decide⟩ b p (by decide)).trans ?_
  exact canon_row 11 (by decide) _ _ _ b p

theorem pay25_apply (X : FVec F S16x4x640 .f32) (b : Fin 16) (p : Fin 640) :
    k0_pay25 X (ix3 (0 : Fin 1) b p) = X (ix3 b (⟨0, by decide⟩ : Fin 4) p) := by
  unfold k0_pay25
  exact row0_read X b p

theorem pay28_apply (X : FVec F S16x4x640 .f32) (b : Fin 16) (p : Fin 640) :
    k0_pay28 X (ix3 (0 : Fin 1) b p) = X (ix3 b (⟨1, by decide⟩ : Fin 4) p) := by
  unfold k0_pay28
  exact row1_read X b p

theorem pay32_apply (X : FVec F S16x4x640 .f32) (b : Fin 16) (p : Fin 640) :
    k0_pay32 X (ix3 (0 : Fin 1) b p) = X (ix3 b (⟨2, by decide⟩ : Fin 4) p) := by
  unfold k0_pay32
  exact row2_read X b p

theorem pay35_apply (X : FVec F S16x4x640 .f32) (b : Fin 16) (p : Fin 640) :
    k0_pay35 X (ix3 (0 : Fin 1) b p) = X (ix3 b (⟨3, by decide⟩ : Fin 4) p) := by
  unfold k0_pay35
  exact row3_read X b p

theorem pay26_apply (X : FVec F S16x4x640 .f32) (b : Fin 16) (p : Fin 640) :
    k0_pay26 X (ix3 (0 : Fin 1) b p) = X (ix3 b (⟨0, by decide⟩ : Fin 4) p) := by
  unfold k0_pay26
  exact row0_read X b p

theorem pay33_apply (X : FVec F S16x4x640 .f32) (b : Fin 16) (p : Fin 640) :
    k0_pay33 X (ix3 (0 : Fin 1) b p) = X (ix3 b (⟨2, by decide⟩ : Fin 4) p) := by
  unfold k0_pay33
  exact row2_read X b p

theorem pay36_apply (X : FVec F S16x4x640 .f32) (b : Fin 16) (p : Fin 640) :
    k0_pay36 X (ix3 (0 : Fin 1) b p) = X (ix3 b (⟨3, by decide⟩ : Fin 4) p) := by
  unfold k0_pay36
  exact row3_read X b p

theorem pay30_29_apply (X : FVec F S16x4x640 .f32) (b : Fin 16) (p : Fin 640) :
    k0_pay30 (k0_pay29 X) (ix3 (0 : Fin 1) b p) = X (ix3 b (⟨1, by decide⟩ : Fin 4) p) := by
  unfold k0_pay30 k0_pay29
  exact row1_read X b p

theorem outAtB_apply (O : Vec F S75x16x640 .f32) (k : Fin 75) (b : Fin 16) (p : Fin 640) :
    outAtB O k b p = O (ix3 k b p) := rfl

theorem outBlk_al0 (P : Vec F S4x640 .f32) (M1 S1 W1 M2 S2 W2 M3 S3 W3 M4 S4 W4 : Vec F S16x4x640 .f32)
    (A1 T1 Q1 A2 T2 Q2 A3 T3 Q3 A4 T4 Q4 : Vec F S21x16x640 .f32) (b : Fin 16) (p : Fin 640) :
    outAtB (outBlk P M1 S1 W1 M2 S2 W2 M3 S3 W3 M4 S4 W4 A1 T1 Q1 A2 T2 Q2 A3 T3 Q3 A4 T4 Q4) ⟨4, by decide⟩ b p
      = Spec.locAl (locInB M1 S1 W1 M2 S2 W2 M3 S3 W3 M4 S4 W4) b ⟨0, by decide⟩ p :=
  (outAtB_apply (outBlk P M1 S1 W1 M2 S2 W2 M3 S3 W3 M4 S4 W4 A1 T1 Q1 A2 T2 Q2 A3 T3 Q3 A4 T4 Q4) ⟨4, by decide⟩ b p).trans
    ((out_at_4 P M1 S1 W1 M2 S2 W2 M3 S3 W3 M4 S4 W4 A1 T1 Q1 A2 T2 Q2 A3 T3 Q3 A4 T4 Q4 b p).trans ((pay25_apply (alB S1 S2 S3 S4 W1 W2 W3 W4) b p).trans
      (alB_apply S1 S2 S3 S4 W1 W2 W3 W4 (ix3 b ⟨0, by decide⟩ p))))

theorem outBlk_al1 (P : Vec F S4x640 .f32) (M1 S1 W1 M2 S2 W2 M3 S3 W3 M4 S4 W4 : Vec F S16x4x640 .f32)
    (A1 T1 Q1 A2 T2 Q2 A3 T3 Q3 A4 T4 Q4 : Vec F S21x16x640 .f32) (b : Fin 16) (p : Fin 640) :
    outAtB (outBlk P M1 S1 W1 M2 S2 W2 M3 S3 W3 M4 S4 W4 A1 T1 Q1 A2 T2 Q2 A3 T3 Q3 A4 T4 Q4) ⟨5, by decide⟩ b p
      = Spec.locAl (locInB M1 S1 W1 M2 S2 W2 M3 S3 W3 M4 S4 W4) b ⟨1, by decide⟩ p :=
  (outAtB_apply (outBlk P M1 S1 W1 M2 S2 W2 M3 S3 W3 M4 S4 W4 A1 T1 Q1 A2 T2 Q2 A3 T3 Q3 A4 T4 Q4) ⟨5, by decide⟩ b p).trans
    ((out_at_5 P M1 S1 W1 M2 S2 W2 M3 S3 W3 M4 S4 W4 A1 T1 Q1 A2 T2 Q2 A3 T3 Q3 A4 T4 Q4 b p).trans ((pay28_apply (alB S1 S2 S3 S4 W1 W2 W3 W4) b p).trans
      (alB_apply S1 S2 S3 S4 W1 W2 W3 W4 (ix3 b ⟨1, by decide⟩ p))))

theorem outBlk_al2 (P : Vec F S4x640 .f32) (M1 S1 W1 M2 S2 W2 M3 S3 W3 M4 S4 W4 : Vec F S16x4x640 .f32)
    (A1 T1 Q1 A2 T2 Q2 A3 T3 Q3 A4 T4 Q4 : Vec F S21x16x640 .f32) (b : Fin 16) (p : Fin 640) :
    outAtB (outBlk P M1 S1 W1 M2 S2 W2 M3 S3 W3 M4 S4 W4 A1 T1 Q1 A2 T2 Q2 A3 T3 Q3 A4 T4 Q4) ⟨6, by decide⟩ b p
      = Spec.locAl (locInB M1 S1 W1 M2 S2 W2 M3 S3 W3 M4 S4 W4) b ⟨2, by decide⟩ p :=
  (outAtB_apply (outBlk P M1 S1 W1 M2 S2 W2 M3 S3 W3 M4 S4 W4 A1 T1 Q1 A2 T2 Q2 A3 T3 Q3 A4 T4 Q4) ⟨6, by decide⟩ b p).trans
    ((out_at_6 P M1 S1 W1 M2 S2 W2 M3 S3 W3 M4 S4 W4 A1 T1 Q1 A2 T2 Q2 A3 T3 Q3 A4 T4 Q4 b p).trans ((pay32_apply (alB S1 S2 S3 S4 W1 W2 W3 W4) b p).trans
      (alB_apply S1 S2 S3 S4 W1 W2 W3 W4 (ix3 b ⟨2, by decide⟩ p))))

theorem outBlk_al3 (P : Vec F S4x640 .f32) (M1 S1 W1 M2 S2 W2 M3 S3 W3 M4 S4 W4 : Vec F S16x4x640 .f32)
    (A1 T1 Q1 A2 T2 Q2 A3 T3 Q3 A4 T4 Q4 : Vec F S21x16x640 .f32) (b : Fin 16) (p : Fin 640) :
    outAtB (outBlk P M1 S1 W1 M2 S2 W2 M3 S3 W3 M4 S4 W4 A1 T1 Q1 A2 T2 Q2 A3 T3 Q3 A4 T4 Q4) ⟨7, by decide⟩ b p
      = Spec.locAl (locInB M1 S1 W1 M2 S2 W2 M3 S3 W3 M4 S4 W4) b ⟨3, by decide⟩ p :=
  (outAtB_apply (outBlk P M1 S1 W1 M2 S2 W2 M3 S3 W3 M4 S4 W4 A1 T1 Q1 A2 T2 Q2 A3 T3 Q3 A4 T4 Q4) ⟨7, by decide⟩ b p).trans
    ((out_at_7 P M1 S1 W1 M2 S2 W2 M3 S3 W3 M4 S4 W4 A1 T1 Q1 A2 T2 Q2 A3 T3 Q3 A4 T4 Q4 b p).trans ((pay35_apply (alB S1 S2 S3 S4 W1 W2 W3 W4) b p).trans
      (alB_apply S1 S2 S3 S4 W1 W2 W3 W4 (ix3 b ⟨3, by decide⟩ p))))

theorem outBlk_ep0 (P : Vec F S4x640 .f32) (M1 S1 W1 M2 S2 W2 M3 S3 W3 M4 S4 W4 : Vec F S16x4x640 .f32)
    (A1 T1 Q1 A2 T2 Q2 A3 T3 Q3 A4 T4 Q4 : Vec F S21x16x640 .f32) (b : Fin 16) (p : Fin 640) :
    outAtB (outBlk P M1 S1 W1 M2 S2 W2 M3 S3 W3 M4 S4 W4 A1 T1 Q1 A2 T2 Q2 A3 T3 Q3 A4 T4 Q4) ⟨8, by decide⟩ b p
      = Spec.locEp (locInB M1 S1 W1 M2 S2 W2 M3 S3 W3 M4 S4 W4) b ⟨0, by decide⟩ p :=
  (outAtB_apply (outBlk P M1 S1 W1 M2 S2 W2 M3 S3 W3 M4 S4 W4 A1 T1 Q1 A2 T2 Q2 A3 T3 Q3 A4 T4 Q4) ⟨8, by decide⟩ b p).trans
    ((out_at_8 P M1 S1 W1 M2 S2 W2 M3 S3 W3 M4 S4 W4 A1 T1 Q1 A2 T2 Q2 A3 T3 Q3 A4 T4 Q4 b p).trans ((pay26_apply (epB M1 M2 M3 M4 W1 W2 W3 W4) b p).trans
      (epB_apply M1 M2 M3 M4 W1 W2 W3 W4 (ix3 b ⟨0, by decide⟩ p))))

theorem outBlk_ep1 (P : Vec F S4x640 .f32) (M1 S1 W1 M2 S2 W2 M3 S3 W3 M4 S4 W4 : Vec F S16x4x640 .f32)
    (A1 T1 Q1 A2 T2 Q2 A3 T3 Q3 A4 T4 Q4 : Vec F S21x16x640 .f32) (b : Fin 16) (p : Fin 640) :
    outAtB (outBlk P M1 S1 W1 M2 S2 W2 M3 S3 W3 M4 S4 W4 A1 T1 Q1 A2 T2 Q2 A3 T3 Q3 A4 T4 Q4) ⟨9, by decide⟩ b p
      = Spec.locEp (locInB M1 S1 W1 M2 S2 W2 M3 S3 W3 M4 S4 W4) b ⟨1, by decide⟩ p :=
  (outAtB_apply (outBlk P M1 S1 W1 M2 S2 W2 M3 S3 W3 M4 S4 W4 A1 T1 Q1 A2 T2 Q2 A3 T3 Q3 A4 T4 Q4) ⟨9, by decide⟩ b p).trans
    ((out_at_9 P M1 S1 W1 M2 S2 W2 M3 S3 W3 M4 S4 W4 A1 T1 Q1 A2 T2 Q2 A3 T3 Q3 A4 T4 Q4 b p).trans ((pay30_29_apply (epB M1 M2 M3 M4 W1 W2 W3 W4) b p).trans
      (epB_apply M1 M2 M3 M4 W1 W2 W3 W4 (ix3 b ⟨1, by decide⟩ p))))

theorem outBlk_ep2 (P : Vec F S4x640 .f32) (M1 S1 W1 M2 S2 W2 M3 S3 W3 M4 S4 W4 : Vec F S16x4x640 .f32)
    (A1 T1 Q1 A2 T2 Q2 A3 T3 Q3 A4 T4 Q4 : Vec F S21x16x640 .f32) (b : Fin 16) (p : Fin 640) :
    outAtB (outBlk P M1 S1 W1 M2 S2 W2 M3 S3 W3 M4 S4 W4 A1 T1 Q1 A2 T2 Q2 A3 T3 Q3 A4 T4 Q4) ⟨10, by decide⟩ b p
      = Spec.locEp (locInB M1 S1 W1 M2 S2 W2 M3 S3 W3 M4 S4 W4) b ⟨2, by decide⟩ p :=
  (outAtB_apply (outBlk P M1 S1 W1 M2 S2 W2 M3 S3 W3 M4 S4 W4 A1 T1 Q1 A2 T2 Q2 A3 T3 Q3 A4 T4 Q4) ⟨10, by decide⟩ b p).trans
    ((out_at_10 P M1 S1 W1 M2 S2 W2 M3 S3 W3 M4 S4 W4 A1 T1 Q1 A2 T2 Q2 A3 T3 Q3 A4 T4 Q4 b p).trans ((pay33_apply (epB M1 M2 M3 M4 W1 W2 W3 W4) b p).trans
      (epB_apply M1 M2 M3 M4 W1 W2 W3 W4 (ix3 b ⟨2, by decide⟩ p))))

theorem outBlk_ep3 (P : Vec F S4x640 .f32) (M1 S1 W1 M2 S2 W2 M3 S3 W3 M4 S4 W4 : Vec F S16x4x640 .f32)
    (A1 T1 Q1 A2 T2 Q2 A3 T3 Q3 A4 T4 Q4 : Vec F S21x16x640 .f32) (b : Fin 16) (p : Fin 640) :
    outAtB (outBlk P M1 S1 W1 M2 S2 W2 M3 S3 W3 M4 S4 W4 A1 T1 Q1 A2 T2 Q2 A3 T3 Q3 A4 T4 Q4) ⟨11, by decide⟩ b p
      = Spec.locEp (locInB M1 S1 W1 M2 S2 W2 M3 S3 W3 M4 S4 W4) b ⟨3, by decide⟩ p :=
  (outAtB_apply (outBlk P M1 S1 W1 M2 S2 W2 M3 S3 W3 M4 S4 W4 A1 T1 Q1 A2 T2 Q2 A3 T3 Q3 A4 T4 Q4) ⟨11, by decide⟩ b p).trans
    ((out_at_11 P M1 S1 W1 M2 S2 W2 M3 S3 W3 M4 S4 W4 A1 T1 Q1 A2 T2 Q2 A3 T3 Q3 A4 T4 Q4 b p).trans ((pay36_apply (epB M1 M2 M3 M4 W1 W2 W3 W4) b p).trans
      (epB_apply M1 M2 M3 M4 W1 W2 W3 W4 (ix3 b ⟨3, by decide⟩ p))))

theorem outBlk_al (P : Vec F S4x640 .f32) (M1 S1 W1 M2 S2 W2 M3 S3 W3 M4 S4 W4 : Vec F S16x4x640 .f32)
    (A1 T1 Q1 A2 T2 Q2 A3 T3 Q3 A4 T4 Q4 : Vec F S21x16x640 .f32) (c : Fin 4) (b : Fin 16) (p : Fin 640) :
    outAtB (outBlk P M1 S1 W1 M2 S2 W2 M3 S3 W3 M4 S4 W4 A1 T1 Q1 A2 T2 Q2 A3 T3 Q3 A4 T4 Q4) ⟨4 + c.val, by have := c.isLt; omega⟩ b p = Spec.locAl (locInB M1 S1 W1 M2 S2 W2 M3 S3 W3 M4 S4 W4) b c p :=
  match c with
  | ⟨0, _⟩ => outBlk_al0 P M1 S1 W1 M2 S2 W2 M3 S3 W3 M4 S4 W4 A1 T1 Q1 A2 T2 Q2 A3 T3 Q3 A4 T4 Q4 b p
  | ⟨1, _⟩ => outBlk_al1 P M1 S1 W1 M2 S2 W2 M3 S3 W3 M4 S4 W4 A1 T1 Q1 A2 T2 Q2 A3 T3 Q3 A4 T4 Q4 b p
  | ⟨2, _⟩ => outBlk_al2 P M1 S1 W1 M2 S2 W2 M3 S3 W3 M4 S4 W4 A1 T1 Q1 A2 T2 Q2 A3 T3 Q3 A4 T4 Q4 b p
  | ⟨3, _⟩ => outBlk_al3 P M1 S1 W1 M2 S2 W2 M3 S3 W3 M4 S4 W4 A1 T1 Q1 A2 T2 Q2 A3 T3 Q3 A4 T4 Q4 b p

theorem outBlk_ep (P : Vec F S4x640 .f32) (M1 S1 W1 M2 S2 W2 M3 S3 W3 M4 S4 W4 : Vec F S16x4x640 .f32)
    (A1 T1 Q1 A2 T2 Q2 A3 T3 Q3 A4 T4 Q4 : Vec F S21x16x640 .f32) (c : Fin 4) (b : Fin 16) (p : Fin 640) :
    outAtB (outBlk P M1 S1 W1 M2 S2 W2 M3 S3 W3 M4 S4 W4 A1 T1 Q1 A2 T2 Q2 A3 T3 Q3 A4 T4 Q4) ⟨8 + c.val, by have := c.isLt; omega⟩ b p = Spec.locEp (locInB M1 S1 W1 M2 S2 W2 M3 S3 W3 M4 S4 W4) b c p :=
  match c with
  | ⟨0, _⟩ => outBlk_ep0 P M1 S1 W1 M2 S2 W2 M3 S3 W3 M4 S4 W4 A1 T1 Q1 A2 T2 Q2 A3 T3 Q3 A4 T4 Q4 b p
  | ⟨1, _⟩ => outBlk_ep1 P M1 S1 W1 M2 S2 W2 M3 S3 W3 M4 S4 W4 A1 T1 Q1 A2 T2 Q2 A3 T3 Q3 A4 T4 Q4 b p
  | ⟨2, _⟩ => outBlk_ep2 P M1 S1 W1 M2 S2 W2 M3 S3 W3 M4 S4 W4 A1 T1 Q1 A2 T2 Q2 A3 T3 Q3 A4 T4 Q4 b p
  | ⟨3, _⟩ => outBlk_ep3 P M1 S1 W1 M2 S2 W2 M3 S3 W3 M4 S4 W4 A1 T1 Q1 A2 T2 Q2 A3 T3 Q3 A4 T4 Q4 b p

end Cert.Block
end
-- ==== Proof.BlkLocBox.lean ====
import proofs.«160245_g86517821215618_cont_9to1_m_1401_10_alg».proof.Proof.BlkLocAE
import Idealize.ShloMosaic.Lib.Pipeline.Value
import Idealize.ShloMosaic.Lib.ValueIdx
import Idealize.ShloMosaic.Lib.ValueLayout
import Idealize.ShloMosaic.Lib.Pipeline.FrameBody

noncomputable section

namespace Cert.Block

open Cert.KernelIdeal Cert.KernelIdeal.Gen
open Idealize.ShloMosaic Idealize.ShloMosaic.TcCoe Idealize.ShloMosaic.ValueIdx

variable {F : FTy → Type} [FloatOps F]

namespace LocBox

section Layout

variable {α : Type}

theorem rowc_read (o : Nat) (X : S16x4x640.Idx → α) (h : S16x4x640.Slices ![0, o, 0] S16x1x640)
    (h' : S16x1x640.ShapeCasts S16x640) (h'' : S16x640.ShapeCasts S1x16x640) (b : Fin 16) (c : Fin 4) (hc : c.val = o)
    (p : Fin 640) :
    shapeCast S1x16x640 (shapeCast S16x640 (extractStridedSlice S16x1x640 ![0, o, 0] X h) h') h'' (ix3 (0 : Fin 1) b p)
      = X (ix3 b c p) := by
  refine (shapeCast_ab_1ab_apply _ h'' 0 b p).trans ?_
  refine (shapeCast_apply _ h' (ix2 b p) (ix3 b (0 : Fin 1) p) ?_).trans ?_
  · rw [Shape.rowMajor_val_three, Shape.rowMajor_val_two]
    show (b.val * 1 + 0) * 640 + p.val = b.val * 640 + p.val
    omega
  · exact slice3_axis1_apply o X h b (0 : Fin 1) p c (by show c.val = o + 0; omega)

theorem rot3_apply (X : S16x4x640.Idx → α) (h₂ : S16x4x640.Slices ![0, 2, 0] S16x2x640)
    (h₀ : S16x4x640.Slices ![0, 0, 0] S16x2x640) (hc : Shape.Concatenates [S16x2x640, S16x2x640] S16x4x640 1)
    (b : Fin 16) (c c' : Fin 4) (p : Fin 640) (hcc : c'.val = (c.val + 2) % 4) :
    concatenate S16x4x640 1 [⟨S16x2x640, extractStridedSlice S16x2x640 ![0, 2, 0] X h₂⟩,
      ⟨S16x2x640, extractStridedSlice S16x2x640 ![0, 0, 0] X h₀⟩] hc (ix3 b c p) = X (ix3 b c' p) := by
  have hc4 := c.isLt
  by_cases hlt : c.val < 2
  · refine (concatenate_pair_apply_left (t := S16x4x640) (s₁ := S16x2x640) (s₂ := S16x2x640) (1 : Fin 3) _ _ hc (ix3 b c p) rfl (ix3 b (⟨c.val, hlt⟩ : Fin 2) p) ?_).trans ?_
    · intro a
      match a with
      | ⟨0, _⟩ => rfl
      | ⟨1, _⟩ => rfl
      | ⟨2, _⟩ => rfl
    · exact slice3_axis1_apply 2 X h₂ b ⟨c.val, hlt⟩ p c' (by show c'.val = 2 + c.val; omega)
  · refine (concatenate_pair_apply_right (t := S16x4x640) (s₁ := S16x2x640) (s₂ := S16x2x640) (1 : Fin 3) _ _ hc (ix3 b c p) rfl rfl
      (ix3 b (⟨c.val - 2, by omega⟩ : Fin 2) p) ?_ ?_).trans ?_
    · intro a ha
      match a, ha with
      | ⟨0, _⟩, _ => rfl
      | ⟨1, _⟩, ha => exact absurd rfl ha
      | ⟨2, _⟩, _ => rfl
    · show c.val - 2 + 2 = c.val
      omega
    · exact slice3_axis1_apply 0 X h₀ b ⟨c.val - 2, by omega⟩ p c' (by show c'.val = 0 + (c.val - 2); omega)

theorem rot2_apply (Y : S4x640.Idx → α) (h₂ : S4x640.Slices ![2, 0] S2x640) (h₀ : S4x640.Slices ![0, 0] S2x640)
    (hc : Shape.Concatenates [S2x640, S2x640] S4x640 0) (c c' : Fin 4) (p : Fin 640) (hcc : c'.val = (c.val + 2) % 4) :
    concatenate S4x640 0 [⟨S2x640, extractStridedSlice S2x640 ![2, 0] Y h₂⟩,
      ⟨S2x640, extractStridedSlice S2x640 ![0, 0] Y h₀⟩] hc (ix2 c p) = Y (ix2 c' p) := by
  have hc4 := c.isLt
  by_cases hlt : c.val < 2
  · refine (concatenate_pair_apply_left (t := S4x640) (s₁ := S2x640) (s₂ := S2x640) (0 : Fin 2) _ _ hc (ix2 c p) rfl (ix2 (⟨c.val, hlt⟩ : Fin 2) p) ?_).trans ?_
    · intro a
      match a with
      | ⟨0, _⟩ => rfl
      | ⟨1, _⟩ => rfl
    · exact slice2_axis0_apply 2 Y h₂ ⟨c.val, hlt⟩ p c' (by show c'.val = 2 + c.val; omega)
  · refine (concatenate_pair_apply_right (t := S4x640) (s₁ := S2x640) (s₂ := S2x640) (0 : Fin 2) _ _ hc (ix2 c p) rfl rfl
      (ix2 (⟨c.val - 2, by omega⟩ : Fin 2) p) ?_ ?_).trans ?_
    · intro a ha
      match a, ha with
      | ⟨0, _⟩, ha => exact absurd rfl ha
      | ⟨1, _⟩, _ => rfl
    · show c.val - 2 + 2 = c.val
      omega
    · exact slice2_axis0_apply 0 Y h₀ ⟨c.val - 2, by omega⟩ p c' (by show c'.val = 0 + (c.val - 2); omega)

theorem bcast_apply (Y : S4x640.Idx → α) (h : S4x640.ShapeCasts S1x4x640) (h' : S1x4x640.Broadcasts S16x4x640)
    (b : Fin 16) (c : Fin 4) (p : Fin 640) :
    broadcastTo S16x4x640 (shapeCast S1x4x640 Y h) h' (ix3 b c p) = Y (ix2 c p) := by
  refine (broadcastTo_apply _ h' (ix3 b c p) (ix3 (0 : Fin 1) c p) ?_).trans (shapeCast_ab_1ab_apply Y h 0 c p)
  intro a
  match a with
  | ⟨0, _⟩ => rfl
  | ⟨1, _⟩ => rfl
  | ⟨2, _⟩ => rfl

end Layout

theorem out_at_0 (P : Vec F S4x640 .f32) (M1 S1 W1 M2 S2 W2 M3 S3 W3 M4 S4 W4 : Vec F S16x4x640 .f32)
    (A1 T1 Q1 A2 T2 Q2 A3 T3 Q3 A4 T4 Q4 : Vec F S21x16x640 .f32) (b : Fin 16) (p : Fin 640) :
    outBlk P M1 S1 W1 M2 S2 W2 M3 S3 W3 M4 S4 W4 A1 T1 Q1 A2 T2 Q2 A3 T3 Q3 A4 T4 Q4 (ix3 (⟨0, by decide⟩ : Fin 75) b p)
      = k0_pay24 (whB P M1 M2 M3 M4 W1 W2 W3 W4) (ctrB P M1 M2 M3 M4 W1 W2 W3 W4) (halfB P M1 M2 M3 M4 W1 W2 W3 W4)
          (ix3 (0 : Fin 1) b p) := by
  unfold outBlk outPieces
  iterate 14 refine (canon_skip _ _ _ _ _ ⟨0, by decide⟩ b p (by decide)).trans ?_
  exact canon_row 0 (by decide) _ _ _ b p

theorem out_at_1 (P : Vec F S4x640 .f32) (M1 S1 W1 M2 S2 W2 M3 S3 W3 M4 S4 W4 : Vec F S16x4x640 .f32)
    (A1 T1 Q1 A2 T2 Q2 A3 T3 Q3 A4 T4 Q4 : Vec F S21x16x640 .f32) (b : Fin 16) (p : Fin 640) :
    outBlk P M1 S1 W1 M2 S2 W2 M3 S3 W3 M4 S4 W4 A1 T1 Q1 A2 T2 Q2 A3 T3 Q3 A4 T4 Q4 (ix3 (⟨1, by decide⟩ : Fin 75) b p)
      = k0_pay27 (whB P M1 M2 M3 M4 W1 W2 W3 W4) (ctrB P M1 M2 M3 M4 W1 W2 W3 W4) (halfB P M1 M2 M3 M4 W1 W2 W3 W4)
          (ix3 (0 : Fin 1) b p) := by
  unfold outBlk outPieces
  iterate 11 refine (canon_skip _ _ _ _ _ ⟨1, by decide⟩ b p (by decide)).trans ?_
  exact canon_row 1 (by decide) _ _ _ b p

theorem out_at_2 (P : Vec F S4x640 .f32) (M1 S1 W1 M2 S2 W2 M3 S3 W3 M4 S4 W4 : Vec F S16x4x640 .f32)
    (A1 T1 Q1 A2 T2 Q2 A3 T3 Q3 A4 T4 Q4 : Vec F S21x16x640 .f32) (b : Fin 16) (p : Fin 640) :
    outBlk P M1 S1 W1 M2 S2 W2 M3 S3 W3 M4 S4 W4 A1 T1 Q1 A2 T2 Q2 A3 T3 Q3 A4 T4 Q4 (ix3 (⟨2, by decide⟩ : Fin 75) b p)
      = k0_pay31 (decB P M1 M2 M3 M4 W1 W2 W3 W4)
          (ix3 (0 : Fin 1) b p) := by
  unfold outBlk outPieces
  iterate 8 refine (canon_skip _ _ _ _ _ ⟨2, by decide⟩ b p (by decide)).trans ?_
  exact canon_row 2 (by decide) _ _ _ b p

theorem out_at_3 (P : Vec F S4x640 .f32) (M1 S1 W1 M2 S2 W2 M3 S3 W3 M4 S4 W4 : Vec F S16x4x640 .f32)
    (A1 T1 Q1 A2 T2 Q2 A3 T3 Q3 A4 T4 Q4 : Vec F S21x16x640 .f32) (b : Fin 16) (p : Fin 640) :
    outBlk P M1 S1 W1 M2 S2 W2 M3 S3 W3 M4 S4 W4 A1 T1 Q1 A2 T2 Q2 A3 T3 Q3 A4 T4 Q4 (ix3 (⟨3, by decide⟩ : Fin 75) b p)
      = k0_pay34 (decB P M1 M2 M3 M4 W1 W2 W3 W4)
          (ix3 (0 : Fin 1) b p) := by
  unfold outBlk outPieces
  iterate 5 refine (canon_skip _ _ _ _ _ ⟨3, by decide⟩ b p (by decide)).trans ?_
  exact canon_row 3 (by decide) _ _ _ b p

theorem ldL (X : Vec F S16x4x640 .f32) : View.ld X rL = X :=
  View.ld_unit_zero (funext fun a => match a with | ⟨0, _⟩ => rfl | ⟨1, _⟩ => rfl | ⟨2, _⟩ => rfl)
    inb_S16x4x640_S16x4x640_0_0_0 X

theorem ldP (P : Vec F S4x640 .f32) : View.ld P rP = P :=
  View.ld_unit_zero (funext fun a => match a with | ⟨0, _⟩ => rfl | ⟨1, _⟩ => rfl) inb_S4x640_S4x640_0_0 P

theorem pay4_ld (X : Vec F S16x4x640 .f32) : k0_pay4 (View.ld X rL) = X := (shapeCast_self _ _).trans (ldL X)
theorem pay5_ld (X : Vec F S16x4x640 .f32) : k0_pay5 (View.ld X rL) = X := (shapeCast_self _ _).trans (ldL X)
theorem pay6_ld (X : Vec F S16x4x640 .f32) : k0_pay6 (View.ld X rL) = X := (shapeCast_self _ _).trans (ldL X)
theorem pay7_ld (X : Vec F S16x4x640 .f32) : k0_pay7 (View.ld X rL) = X := (shapeCast_self _ _).trans (ldL X)
theorem pay8_ld (X : Vec F S16x4x640 .f32) : k0_pay8 (View.ld X rL) = X := (shapeCast_self _ _).trans (ldL X)
theorem pay9_ld (X : Vec F S16x4x640 .f32) : k0_pay9 (View.ld X rL) = X := (shapeCast_self _ _).trans (ldL X)
theorem pay10_ld (X : Vec F S16x4x640 .f32) : k0_pay10 (View.ld X rL) = X := (shapeCast_self _ _).trans (ldL X)
theorem pay11_ld (X : Vec F S16x4x640 .f32) : k0_pay11 (View.ld X rL) = X := (shapeCast_self _ _).trans (ldL X)
theorem pay18_eq (P : Vec F S4x640 .f32) : k0_pay18 P = P := shapeCast_self _ _

section Blocks

variable (P : Vec F S4x640 .f32) (M1 M2 M3 M4 W1 W2 W3 W4 : Vec F S16x4x640 .f32)

theorem whB_eq : whB P M1 M2 M3 M4 W1 W2 W3 W4 = k0_pay20 M1 M2 M3 M4 W1 W2 W3 W4 P := by
  show k0_pay20 (k0_pay4 (View.ld M1 rL)) (k0_pay5 (View.ld M2 rL)) (k0_pay6 (View.ld M3 rL)) (k0_pay7 (View.ld M4 rL))
    (k0_pay8 (View.ld W1 rL)) (k0_pay9 (View.ld W2 rL)) (k0_pay10 (View.ld W3 rL)) (k0_pay11 (View.ld W4 rL)) (View.ld P rP) = _
  rw [pay4_ld, pay5_ld, pay6_ld, pay7_ld, pay8_ld, pay9_ld, pay10_ld, pay11_ld, ldP]

theorem ctrB_eq : ctrB P M1 M2 M3 M4 W1 W2 W3 W4 = k0_pay21 M1 M2 M3 M4 W1 W2 W3 W4 P := by
  show k0_pay21 (k0_pay4 (View.ld M1 rL)) (k0_pay5 (View.ld M2 rL)) (k0_pay6 (View.ld M3 rL)) (k0_pay7 (View.ld M4 rL))
    (k0_pay8 (View.ld W1 rL)) (k0_pay9 (View.ld W2 rL)) (k0_pay10 (View.ld W3 rL)) (k0_pay11 (View.ld W4 rL)) (View.ld P rP) = _
  rw [pay4_ld, pay5_ld, pay6_ld, pay7_ld, pay8_ld, pay9_ld, pay10_ld, pay11_ld, ldP]

theorem halfB_eq : halfB P M1 M2 M3 M4 W1 W2 W3 W4 = k0_pay22 M1 M2 M3 M4 W1 W2 W3 W4 P := by
  show k0_pay22 (k0_pay4 (View.ld M1 rL)) (k0_pay5 (View.ld M2 rL)) (k0_pay6 (View.ld M3 rL)) (k0_pay7 (View.ld M4 rL))
    (k0_pay8 (View.ld W1 rL)) (k0_pay9 (View.ld W2 rL)) (k0_pay10 (View.ld W3 rL)) (k0_pay11 (View.ld W4 rL)) (View.ld P rP) = _
  rw [pay4_ld, pay5_ld, pay6_ld, pay7_ld, pay8_ld, pay9_ld, pay10_ld, pay11_ld, ldP]

end Blocks

section Decode

variable (m1 m2 m3 m4 w1 w2 w3 w4 : FVec F S16x4x640 .f32) (P : Vec F S4x640 .f32)

theorem pay15_apply (i : S16x4x640.Idx) :
    k0_pay15 m1 m2 m3 m4 w1 w2 w3 w4 i = Spec.mix (w1 i) (m1 i) (w2 i) (m2 i) (w3 i) (m3 i) (w4 i) (m4 i) := rfl

theorem pay19_apply (c c' : Fin 4) (p : Fin 640) (hcc : c'.val = (c.val + 2) % 4) :
    k0_pay19 P (ix2 c p) = P (ix2 c' p) :=
  (rot2_apply (k0_pay18 P) slices_S4x640_o2_0_S2x640 slices_S4x640_o0_0_S2x640 concatenates_S2x640_S2x640_S4x640_d0
    c c' p hcc).trans (congrFun (pay18_eq P) _)

theorem pay20_apply (b : Fin 16) (c c' : Fin 4) (p : Fin 640) (hcc : c'.val = (c.val + 2) % 4) :
    k0_pay20 m1 m2 m3 m4 w1 w2 w3 w4 P (ix3 b c p)
      = Spec.boxWH (P (ix2 c' p)) (k0_pay15 m1 m2 m3 m4 w1 w2 w3 w4 (ix3 b c' p)) := by
  show FloatOps.mulf _ (FloatOps.exp (FloatOps.mulf _ _)) = FloatOps.mulf _ (FloatOps.exp (FloatOps.mulf _ _))
  refine congrArg₂ FloatOps.mulf ?_ (congrArg FloatOps.exp (congrArg₂ FloatOps.mulf ?_ rfl))
  · exact (bcast_apply (k0_pay19 P) shapeCasts_S4x640_S1x4x640 broadcasts_S1x4x640_S16x4x640 b c p).trans
      (pay19_apply P c c' p hcc)
  · exact rot3_apply (k0_pay15 m1 m2 m3 m4 w1 w2 w3 w4) slices_S16x4x640_o0_2_0_S16x2x640
      slices_S16x4x640_o0_0_0_S16x2x640 concatenates_S16x2x640_S16x2x640_S16x4x640_d1 b c c' p hcc

theorem pay21_apply (b : Fin 16) (c c' : Fin 4) (p : Fin 640) (hcc : c'.val = (c.val + 2) % 4) :
    k0_pay21 m1 m2 m3 m4 w1 w2 w3 w4 P (ix3 b c p)
      = FloatOps.addf (P (ix2 c p))
          (FloatOps.mulf (FloatOps.mulf (k0_pay15 m1 m2 m3 m4 w1 w2 w3 w4 (ix3 b c p)) Spec.c01) (P (ix2 c' p))) := by
  show FloatOps.addf _ (FloatOps.mulf (FloatOps.mulf _ _) _) = FloatOps.addf _ (FloatOps.mulf (FloatOps.mulf _ _) _)
  refine congrArg₂ FloatOps.addf ?_ (congrArg₂ FloatOps.mulf rfl ?_)
  · exact (bcast_apply (k0_pay18 P) shapeCasts_S4x640_S1x4x640 broadcasts_S1x4x640_S16x4x640 b c p).trans
      (congrFun (pay18_eq P) _)
  · exact (bcast_apply (k0_pay19 P) shapeCasts_S4x640_S1x4x640 broadcasts_S1x4x640_S16x4x640 b c p).trans
      (pay19_apply P c c' p hcc)

theorem pay22_apply (i : S16x4x640.Idx) :
    k0_pay22 m1 m2 m3 m4 w1 w2 w3 w4 P i = FloatOps.mulf Spec.c05 (k0_pay20 m1 m2 m3 m4 w1 w2 w3 w4 P i) := rfl

theorem lo_apply (b : Fin 16) (c c' : Fin 4) (p : Fin 640) (hcc : c'.val = (c.val + 2) % 4) :
    FloatOps.subf (k0_pay21 m1 m2 m3 m4 w1 w2 w3 w4 P (ix3 b c p)) (k0_pay22 m1 m2 m3 m4 w1 w2 w3 w4 P (ix3 b c p))
      = Spec.boxLo (P (ix2 c p)) (k0_pay15 m1 m2 m3 m4 w1 w2 w3 w4 (ix3 b c p)) (P (ix2 c' p))
          (k0_pay15 m1 m2 m3 m4 w1 w2 w3 w4 (ix3 b c' p)) :=
  congrArg₂ FloatOps.subf (pay21_apply m1 m2 m3 m4 w1 w2 w3 w4 P b c c' p hcc)
    ((pay22_apply m1 m2 m3 m4 w1 w2 w3 w4 P _).trans
      (congrArg (FloatOps.mulf Spec.c05) (pay20_apply m1 m2 m3 m4 w1 w2 w3 w4 P b c c' p hcc)))

theorem hi_apply (b : Fin 16) (c c' : Fin 4) (p : Fin 640) (hcc : c'.val = (c.val + 2) % 4) :
    FloatOps.addf
        (FloatOps.subf (k0_pay21 m1 m2 m3 m4 w1 w2 w3 w4 P (ix3 b c p)) (k0_pay22 m1 m2 m3 m4 w1 w2 w3 w4 P (ix3 b c p)))
        (k0_pay20 m1 m2 m3 m4 w1 w2 w3 w4 P (ix3 b c p))
      = Spec.boxHi (P (ix2 c p)) (k0_pay15 m1 m2 m3 m4 w1 w2 w3 w4 (ix3 b c p)) (P (ix2 c' p))
          (k0_pay15 m1 m2 m3 m4 w1 w2 w3 w4 (ix3 b c' p)) :=
  congrArg₂ FloatOps.addf (lo_apply m1 m2 m3 m4 w1 w2 w3 w4 P b c c' p hcc)
    (pay20_apply m1 m2 m3 m4 w1 w2 w3 w4 P b c c' p hcc)

end Decode

section Select

variable (wh ctr half : FVec F S16x4x640 .f32)

theorem mask_apply (b : Fin 16) (c : Fin 4) (p : Fin 640) :
    cmpi .slt (iota .tc S16x4x640 32 [1] iota_S16x4x640_d1_w32) (broadcast S16x4x640 2#32) (ix3 b c p)
      = IntOp.cmpi .slt (BitVec.ofNat 32 c.val) 2#32 := by
  show IntOp.cmpi .slt (iota .tc S16x4x640 32 [1] iota_S16x4x640_d1_w32 (ix3 b c p)) 2#32 = _
  rw [iota_single_apply]

theorem pay23_lo (b : Fin 16) (c : Fin 4) (p : Fin 640) (hc : c.val < 2) :
    k0_pay23 wh ctr half (ix3 b c p) = FloatOps.subf (ctr (ix3 b c p)) (half (ix3 b c p)) := by
  have hm : IntOp.cmpi .slt (BitVec.ofNat 32 c.val) 2#32 = 1#1 := by
    have h01 : c.val = 0 ∨ c.val = 1 := by omega
    rcases h01 with h | h <;> rw [h] <;> decide
  show Scalar.select (cmpi .slt (iota .tc S16x4x640 32 [1] iota_S16x4x640_d1_w32) (broadcast S16x4x640 2#32) (ix3 b c p)) _ _ = _
  rw [mask_apply, hm]
  exact select_one _ _

theorem pay23_hi (b : Fin 16) (c c' : Fin 4) (p : Fin 640) (hc : 2 ≤ c.val) (hcc : c'.val = (c.val + 2) % 4) :
    k0_pay23 wh ctr half (ix3 b c p)
      = FloatOps.addf (FloatOps.subf (ctr (ix3 b c' p)) (half (ix3 b c' p))) (wh (ix3 b c' p)) := by
  have hm : IntOp.cmpi .slt (BitVec.ofNat 32 c.val) 2#32 = 0#1 := by
    have h23 : c.val = 2 ∨ c.val = 3 := by have := c.isLt; omega
    rcases h23 with h | h <;> rw [h] <;> decide
  show Scalar.select (cmpi .slt (iota .tc S16x4x640 32 [1] iota_S16x4x640_d1_w32) (broadcast S16x4x640 2#32) (ix3 b c p)) _ _ = _
  rw [mask_apply, hm]
  refine (select_zero _ _).trans ?_
  exact rot3_apply (addf (subf ctr half) wh) slices_S16x4x640_o0_2_0_S16x2x640 slices_S16x4x640_o0_0_0_S16x2x640
    concatenates_S16x2x640_S16x2x640_S16x4x640_d1 b c c' p hcc

end Select
end LocBox

open LocBox

theorem outBlk_lo0 (P : Vec F S4x640 .f32) (M1 S1 W1 M2 S2 W2 M3 S3 W3 M4 S4 W4 : Vec F S16x4x640 .f32)
    (A1 T1 Q1 A2 T2 Q2 A3 T3 Q3 A4 T4 Q4 : Vec F S21x16x640 .f32) (b : Fin 16) (p : Fin 640) :
    outAtB (outBlk P M1 S1 W1 M2 S2 W2 M3 S3 W3 M4 S4 W4 A1 T1 Q1 A2 T2 Q2 A3 T3 Q3 A4 T4 Q4) 0 b p
      = Spec.boxLo (prB P 0 p) (Spec.locMean (locInB M1 S1 W1 M2 S2 W2 M3 S3 W3 M4 S4 W4) b 0 p) (prB P 2 p) (Spec.locMean (locInB M1 S1 W1 M2 S2 W2 M3 S3 W3 M4 S4 W4) b 2 p) := by
  refine (outAtB_apply (outBlk P M1 S1 W1 M2 S2 W2 M3 S3 W3 M4 S4 W4 A1 T1 Q1 A2 T2 Q2 A3 T3 Q3 A4 T4 Q4) 0 b p).trans ?_
  refine (out_at_0 P M1 S1 W1 M2 S2 W2 M3 S3 W3 M4 S4 W4 A1 T1 Q1 A2 T2 Q2 A3 T3 Q3 A4 T4 Q4 b p).trans ?_
  refine (rowc_read 0 (k0_pay23 (whB P M1 M2 M3 M4 W1 W2 W3 W4) (ctrB P M1 M2 M3 M4 W1 W2 W3 W4) (halfB P M1 M2 M3 M4 W1 W2 W3 W4)) slices_S16x4x640_o0_0_0_S16x1x640
    shapeCasts_S16x1x640_S16x640 shapeCasts_S16x640_S1x16x640 b 0 rfl p).trans ?_
  refine (pay23_lo (whB P M1 M2 M3 M4 W1 W2 W3 W4) (ctrB P M1 M2 M3 M4 W1 W2 W3 W4) (halfB P M1 M2 M3 M4 W1 W2 W3 W4) b 0 p (by decide)).trans ?_
  rw [ctrB_eq, halfB_eq]
  exact lo_apply M1 M2 M3 M4 W1 W2 W3 W4 P b 0 2 p (by decide)

theorem outBlk_lo1 (P : Vec F S4x640 .f32) (M1 S1 W1 M2 S2 W2 M3 S3 W3 M4 S4 W4 : Vec F S16x4x640 .f32)
    (A1 T1 Q1 A2 T2 Q2 A3 T3 Q3 A4 T4 Q4 : Vec F S21x16x640 .f32) (b : Fin 16) (p : Fin 640) :
    outAtB (outBlk P M1 S1 W1 M2 S2 W2 M3 S3 W3 M4 S4 W4 A1 T1 Q1 A2 T2 Q2 A3 T3 Q3 A4 T4 Q4) 1 b p
      = Spec.boxLo (prB P 1 p) (Spec.locMean (locInB M1 S1 W1 M2 S2 W2 M3 S3 W3 M4 S4 W4) b 1 p) (prB P 3 p) (Spec.locMean (locInB M1 S1 W1 M2 S2 W2 M3 S3 W3 M4 S4 W4) b 3 p) := by
  refine (outAtB_apply (outBlk P M1 S1 W1 M2 S2 W2 M3 S3 W3 M4 S4 W4 A1 T1 Q1 A2 T2 Q2 A3 T3 Q3 A4 T4 Q4) 1 b p).trans ?_
  refine (out_at_1 P M1 S1 W1 M2 S2 W2 M3 S3 W3 M4 S4 W4 A1 T1 Q1 A2 T2 Q2 A3 T3 Q3 A4 T4 Q4 b p).trans ?_
  refine (rowc_read 1 (k0_pay23 (whB P M1 M2 M3 M4 W1 W2 W3 W4) (ctrB P M1 M2 M3 M4 W1 W2 W3 W4) (halfB P M1 M2 M3 M4 W1 W2 W3 W4)) slices_S16x4x640_o0_1_0_S16x1x640
    shapeCasts_S16x1x640_S16x640 shapeCasts_S16x640_S1x16x640 b 1 rfl p).trans ?_
  refine (pay23_lo (whB P M1 M2 M3 M4 W1 W2 W3 W4) (ctrB P M1 M2 M3 M4 W1 W2 W3 W4) (halfB P M1 M2 M3 M4 W1 W2 W3 W4) b 1 p (by decide)).trans ?_
  rw [ctrB_eq, halfB_eq]
  exact lo_apply M1 M2 M3 M4 W1 W2 W3 W4 P b 1 3 p (by decide)

theorem outBlk_hi0 (P : Vec F S4x640 .f32) (M1 S1 W1 M2 S2 W2 M3 S3 W3 M4 S4 W4 : Vec F S16x4x640 .f32)
    (A1 T1 Q1 A2 T2 Q2 A3 T3 Q3 A4 T4 Q4 : Vec F S21x16x640 .f32) (b : Fin 16) (p : Fin 640) :
    outAtB (outBlk P M1 S1 W1 M2 S2 W2 M3 S3 W3 M4 S4 W4 A1 T1 Q1 A2 T2 Q2 A3 T3 Q3 A4 T4 Q4) 2 b p
      = Spec.boxHi (prB P 0 p) (Spec.locMean (locInB M1 S1 W1 M2 S2 W2 M3 S3 W3 M4 S4 W4) b 0 p) (prB P 2 p) (Spec.locMean (locInB M1 S1 W1 M2 S2 W2 M3 S3 W3 M4 S4 W4) b 2 p) := by
  refine (outAtB_apply (outBlk P M1 S1 W1 M2 S2 W2 M3 S3 W3 M4 S4 W4 A1 T1 Q1 A2 T2 Q2 A3 T3 Q3 A4 T4 Q4) 2 b p).trans ?_
  refine (out_at_2 P M1 S1 W1 M2 S2 W2 M3 S3 W3 M4 S4 W4 A1 T1 Q1 A2 T2 Q2 A3 T3 Q3 A4 T4 Q4 b p).trans ?_
  refine (rowc_read 2 (decB P M1 M2 M3 M4 W1 W2 W3 W4) slices_S16x4x640_o0_2_0_S16x1x640
    shapeCasts_S16x1x640_S16x640 shapeCasts_S16x640_S1x16x640 b 2 rfl p).trans ?_
  refine (pay23_hi (whB P M1 M2 M3 M4 W1 W2 W3 W4) (ctrB P M1 M2 M3 M4 W1 W2 W3 W4) (halfB P M1 M2 M3 M4 W1 W2 W3 W4) b 2 0 p (by decide) (by decide)).trans ?_
  rw [ctrB_eq, halfB_eq, whB_eq]
  exact hi_apply M1 M2 M3 M4 W1 W2 W3 W4 P b 0 2 p (by decide)

theorem outBlk_hi1 (P : Vec F S4x640 .f32) (M1 S1 W1 M2 S2 W2 M3 S3 W3 M4 S4 W4 : Vec F S16x4x640 .f32)
    (A1 T1 Q1 A2 T2 Q2 A3 T3 Q3 A4 T4 Q4 : Vec F S21x16x640 .f32) (b : Fin 16) (p : Fin 640) :
    outAtB (outBlk P M1 S1 W1 M2 S2 W2 M3 S3 W3 M4 S4 W4 A1 T1 Q1 A2 T2 Q2 A3 T3 Q3 A4 T4 Q4) 3 b p
      = Spec.boxHi (prB P 1 p) (Spec.locMean (locInB M1 S1 W1 M2 S2 W2 M3 S3 W3 M4 S4 W4) b 1 p) (prB P 3 p) (Spec.locMean (locInB M1 S1 W1 M2 S2 W2 M3 S3 W3 M4 S4 W4) b 3 p) := by
  refine (outAtB_apply (outBlk P M1 S1 W1 M2 S2 W2 M3 S3 W3 M4 S4 W4 A1 T1 Q1 A2 T2 Q2 A3 T3 Q3 A4 T4 Q4) 3 b p).trans ?_
  refine (out_at_3 P M1 S1 W1 M2 S2 W2 M3 S3 W3 M4 S4 W4 A1 T1 Q1 A2 T2 Q2 A3 T3 Q3 A4 T4 Q4 b p).trans ?_
  refine (rowc_read 3 (decB P M1 M2 M3 M4 W1 W2 W3 W4) slices_S16x4x640_o0_3_0_S16x1x640
    shapeCasts_S16x1x640_S16x640 shapeCasts_S16x640_S1x16x640 b 3 rfl p).trans ?_
  refine (pay23_hi (whB P M1 M2 M3 M4 W1 W2 W3 W4) (ctrB P M1 M2 M3 M4 W1 W2 W3 W4) (halfB P M1 M2 M3 M4 W1 W2 W3 W4) b 3 1 p (by decide) (by decide)).trans ?_
  rw [ctrB_eq, halfB_eq, whB_eq]
  exact hi_apply M1 M2 M3 M4 W1 W2 W3 W4 P b 1 3 p (by decide)

end Cert.Block
end
-- ==== Proof.BlkConf.lean ====
import proofs.«160245_g86517821215618_cont_9to1_m_1401_10_alg».proof.Proof.Blk
import Idealize.ShloMosaic.Lib.Pipeline.Value
import Idealize.ShloMosaic.Lib.ValueIdx
import Idealize.ShloMosaic.Lib.Pipeline.FrameBody

noncomputable section

namespace Cert.Block

open Cert.KernelIdeal Cert.KernelIdeal.Gen
open Idealize.ShloMosaic Idealize.ShloMosaic.TcCoe
open Idealize.ShloMosaic.ValueIdx

variable {F : FTy → Type} [FloatOps F]

namespace Conf

theorem rg54_emb (k : Fin 75) (q : Fin 21) (hk : k.val = 54 + q.val) (b : Fin 16) (p : Fin 640) :
    rg54.emb (ix3 q b p) = ix3 k b p := by
  funext a
  refine Fin.ext ?_
  rw [Rect.emb_apply]
  match a with
  | ⟨0, _⟩ => show 54 + 1 * q.val = k.val; omega
  | ⟨1, _⟩ => show 0 + 1 * b.val = b.val; omega
  | ⟨2, _⟩ => show 0 + 1 * p.val = p.val; omega

theorem rg33_emb (k : Fin 75) (q : Fin 21) (hk : k.val = 33 + q.val) (b : Fin 16) (p : Fin 640) :
    rg33.emb (ix3 q b p) = ix3 k b p := by
  funext a
  refine Fin.ext ?_
  rw [Rect.emb_apply]
  match a with
  | ⟨0, _⟩ => show 33 + 1 * q.val = k.val; omega
  | ⟨1, _⟩ => show 0 + 1 * b.val = b.val; omega
  | ⟨2, _⟩ => show 0 + 1 * p.val = p.val; omega

theorem rg12_emb (k : Fin 75) (q : Fin 21) (hk : k.val = 12 + q.val) (b : Fin 16) (p : Fin 640) :
    rg12.emb (ix3 q b p) = ix3 k b p := by
  funext a
  refine Fin.ext ?_
  rw [Rect.emb_apply]
  match a with
  | ⟨0, _⟩ => show 12 + 1 * q.val = k.val; omega
  | ⟨1, _⟩ => show 0 + 1 * b.val = b.val; omega
  | ⟨2, _⟩ => show 0 + 1 * p.val = p.val; omega

theorem not_mem_rg54 (k : Fin 75) (hk : k.val < 54) (b : Fin 16) (p : Fin 640) : ix3 k b p ∉ rg54.set := by
  rw [Rect.mem_set_unit]
  intro h
  have h0 := (h ⟨0, Nat.zero_lt_succ _⟩).1
  change 54 ≤ k.val at h0
  omega

theorem not_mem_rg33 (k : Fin 75) (hk : k.val < 33) (b : Fin 16) (p : Fin 640) : ix3 k b p ∉ rg33.set := by
  rw [Rect.mem_set_unit]
  intro h
  have h0 := (h ⟨0, Nat.zero_lt_succ _⟩).1
  change 33 ≤ k.val at h0
  omega

theorem canon_skip (r : Rect S75x16x640) (w : r.shape.Idx → Elt F .f32) (L : List (View.Piece (Elt F) S75x16x640 .f32)) {y : S75x16x640.Idx}
    (h : y ∉ r.set) : View.canon ((⟨r, w⟩ : View.Piece (Elt F) S75x16x640 .f32) :: L) y = View.canon L y :=
  View.canon_cons_of_not_mem ⟨r, w⟩ L h

theorem canon_hit (r : Rect S75x16x640) (w : r.shape.Idx → Elt F .f32) (L : List (View.Piece (Elt F) S75x16x640 .f32)) (x : r.shape.Idx)
    {y : S75x16x640.Idx} (h : r.emb x = y) : View.canon ((⟨r, w⟩ : View.Piece (Elt F) S75x16x640 .f32) :: L) y = w x := by
  subst h; exact View.canon_cons_emb r w L x

theorem canon_ce (P : Vec F S4x640 .f32) (M1 S1 W1 M2 S2 W2 M3 S3 W3 M4 S4 W4 : Vec F S16x4x640 .f32) (A1 T1 Q1 A2 T2 Q2 A3 T3 Q3 A4 T4 Q4 : Vec F S21x16x640 .f32) (k : Fin 75) (q : Fin 21) (hk : k.val = 54 + q.val) (b : Fin 16) (p : Fin 640) :
    outBlk P M1 S1 W1 M2 S2 W2 M3 S3 W3 M4 S4 W4 A1 T1 Q1 A2 T2 Q2 A3 T3 Q3 A4 T4 Q4 (ix3 k b p) = ceB A1 A2 A3 A4 Q1 Q2 Q3 Q4 (ix3 q b p) :=
  canon_hit rg54 (ceB A1 A2 A3 A4 Q1 Q2 Q3 Q4) _ (ix3 q b p) (rg54_emb k q hk b p)

theorem canon_ca (P : Vec F S4x640 .f32) (M1 S1 W1 M2 S2 W2 M3 S3 W3 M4 S4 W4 : Vec F S16x4x640 .f32) (A1 T1 Q1 A2 T2 Q2 A3 T3 Q3 A4 T4 Q4 : Vec F S21x16x640 .f32) (k : Fin 75) (q : Fin 21) (hk : k.val = 33 + q.val) (b : Fin 16) (p : Fin 640) :
    outBlk P M1 S1 W1 M2 S2 W2 M3 S3 W3 M4 S4 W4 A1 T1 Q1 A2 T2 Q2 A3 T3 Q3 A4 T4 Q4 (ix3 k b p) = caB T1 T2 T3 T4 Q1 Q2 Q3 Q4 (ix3 q b p) :=
  (canon_skip rg54 (ceB A1 A2 A3 A4 Q1 Q2 Q3 Q4) _ (not_mem_rg54 k (by have := q.isLt; omega) b p)).trans
    (canon_hit rg33 (caB T1 T2 T3 T4 Q1 Q2 Q3 Q4) _ (ix3 q b p) (rg33_emb k q hk b p))

theorem canon_nc (P : Vec F S4x640 .f32) (M1 S1 W1 M2 S2 W2 M3 S3 W3 M4 S4 W4 : Vec F S16x4x640 .f32) (A1 T1 Q1 A2 T2 Q2 A3 T3 Q3 A4 T4 Q4 : Vec F S21x16x640 .f32) (k : Fin 75) (q : Fin 21) (hk : k.val = 12 + q.val) (b : Fin 16) (p : Fin 640) :
    outBlk P M1 S1 W1 M2 S2 W2 M3 S3 W3 M4 S4 W4 A1 T1 Q1 A2 T2 Q2 A3 T3 Q3 A4 T4 Q4 (ix3 k b p) = ncB A1 A2 A3 A4 Q1 Q2 Q3 Q4 (ix3 q b p) :=
  (canon_skip rg54 (ceB A1 A2 A3 A4 Q1 Q2 Q3 Q4) _ (not_mem_rg54 k (by have := q.isLt; omega) b p)).trans
    ((canon_skip rg33 (caB T1 T2 T3 T4 Q1 Q2 Q3 Q4) _ (not_mem_rg33 k (by have := q.isLt; omega) b p)).trans
      (canon_hit rg12 (ncB A1 A2 A3 A4 Q1 Q2 Q3 Q4) _ (ix3 q b p) (rg12_emb k q hk b p)))

theorem ld_rC (X : Vec F S21x16x640 .f32) : View.ld X rC = X :=
  View.ld_unit_zero (funext fun a => match a with | ⟨0, _⟩ => rfl | ⟨1, _⟩ => rfl | ⟨2, _⟩ => rfl)
    inb_S21x16x640_S21x16x640_0_0_0 X

theorem cast_ld (X : Vec F S21x16x640 .f32) :
    shapeCast S21x16x640 (View.ld X rC) shapeCasts_S21x16x640_S21x16x640 = X :=
  (shapeCast_self (s := S21x16x640) (View.ld X rC) shapeCasts_S21x16x640_S21x16x640).trans (ld_rC X)

theorem pay37_ld (X : Vec F S21x16x640 .f32) : k0_pay37 (View.ld X rC) = X := cast_ld X
theorem pay38_ld (X : Vec F S21x16x640 .f32) : k0_pay38 (View.ld X rC) = X := cast_ld X
theorem pay39_ld (X : Vec F S21x16x640 .f32) : k0_pay39 (View.ld X rC) = X := cast_ld X
theorem pay40_ld (X : Vec F S21x16x640 .f32) : k0_pay40 (View.ld X rC) = X := cast_ld X
theorem pay41_ld (X : Vec F S21x16x640 .f32) : k0_pay41 (View.ld X rC) = X := cast_ld X
theorem pay42_ld (X : Vec F S21x16x640 .f32) : k0_pay42 (View.ld X rC) = X := cast_ld X
theorem pay43_ld (X : Vec F S21x16x640 .f32) : k0_pay43 (View.ld X rC) = X := cast_ld X
theorem pay44_ld (X : Vec F S21x16x640 .f32) : k0_pay44 (View.ld X rC) = X := cast_ld X
theorem pay45_ld (X : Vec F S21x16x640 .f32) : k0_pay45 (View.ld X rC) = X := cast_ld X
theorem pay46_ld (X : Vec F S21x16x640 .f32) : k0_pay46 (View.ld X rC) = X := cast_ld X
theorem pay47_ld (X : Vec F S21x16x640 .f32) : k0_pay47 (View.ld X rC) = X := cast_ld X
theorem pay48_ld (X : Vec F S21x16x640 .f32) : k0_pay48 (View.ld X rC) = X := cast_ld X

theorem ncB_apply (A1 A2 A3 A4 Q1 Q2 Q3 Q4 : Vec F S21x16x640 .f32) (i : S21x16x640.Idx) :
    ncB A1 A2 A3 A4 Q1 Q2 Q3 Q4 i = Spec.mix (Q1 i) (A1 i) (Q2 i) (A2 i) (Q3 i) (A3 i) (Q4 i) (A4 i) := by
  have h : ∀ a3 a4 q3 q4 q1 a1 q2 a2 : FVec F S21x16x640 .f32, a3 = A3 → a4 = A4 → q3 = Q3 → q4 = Q4 →
      q1 = Q1 → a1 = A1 → q2 = Q2 → a2 = A2 →
      k0_pay1 a3 a4 q3 q4 (mulf q1 a1) (mulf q2 a2) i
        = Spec.mix (Q1 i) (A1 i) (Q2 i) (A2 i) (Q3 i) (A3 i) (Q4 i) (A4 i) := by
    intro a3 a4 q3 q4 q1 a1 q2 a2 e1 e2 e3 e4 e5 e6 e7 e8
    subst e1 e2 e3 e4 e5 e6 e7 e8
    rfl
  exact h _ _ _ _ _ _ _ _ (pay39_ld A3) (pay40_ld A4) (pay43_ld Q3) (pay44_ld Q4) (pay41_ld Q1) (pay37_ld A1)
    (pay42_ld Q2) (pay38_ld A2)

theorem caB_apply (T1 T2 T3 T4 Q1 Q2 Q3 Q4 : Vec F S21x16x640 .f32) (i : S21x16x640.Idx) :
    caB T1 T2 T3 T4 Q1 Q2 Q3 Q4 i = Spec.mix (Q1 i) (T1 i) (Q2 i) (T2 i) (Q3 i) (T3 i) (Q4 i) (T4 i) := by
  have h : ∀ q1 q2 q3 q4 t1 t2 t3 t4 : FVec F S21x16x640 .f32, q1 = Q1 → q2 = Q2 → q3 = Q3 → q4 = Q4 →
      t1 = T1 → t2 = T2 → t3 = T3 → t4 = T4 →
      k0_pay2 q1 q2 q3 q4 t1 t2 t3 t4 i
        = Spec.mix (Q1 i) (T1 i) (Q2 i) (T2 i) (Q3 i) (T3 i) (Q4 i) (T4 i) := by
    intro q1 q2 q3 q4 t1 t2 t3 t4 e1 e2 e3 e4 e5 e6 e7 e8
    subst e1 e2 e3 e4 e5 e6 e7 e8
    rfl
  exact h _ _ _ _ _ _ _ _ (pay41_ld Q1) (pay42_ld Q2) (pay43_ld Q3) (pay44_ld Q4) (pay45_ld T1) (pay46_ld T2)
    (pay47_ld T3) (pay48_ld T4)

theorem ceB_apply (A1 A2 A3 A4 Q1 Q2 Q3 Q4 : Vec F S21x16x640 .f32) (i : S21x16x640.Idx) :
    ceB A1 A2 A3 A4 Q1 Q2 Q3 Q4 i = Spec.spread (Q1 i) (A1 i) (Q2 i) (A2 i) (Q3 i) (A3 i) (Q4 i) (A4 i) := by
  have h : ∀ a1 a2 a3 a4 q1 q2 q3 q4 : FVec F S21x16x640 .f32, a1 = A1 → a2 = A2 → a3 = A3 → a4 = A4 →
      q1 = Q1 → q2 = Q2 → q3 = Q3 → q4 = Q4 →
      k0_pay3 a1 a2 a3 a4 q1 q2 q3 q4 (mulf q1 a1) (mulf q2 a2) i
        = Spec.spread (Q1 i) (A1 i) (Q2 i) (A2 i) (Q3 i) (A3 i) (Q4 i) (A4 i) := by
    intro a1 a2 a3 a4 q1 q2 q3 q4 e1 e2 e3 e4 e5 e6 e7 e8
    subst e1 e2 e3 e4 e5 e6 e7 e8
    rfl
  exact h _ _ _ _ _ _ _ _ (pay37_ld A1) (pay38_ld A2) (pay39_ld A3) (pay40_ld A4) (pay41_ld Q1) (pay42_ld Q2)
    (pay43_ld Q3) (pay44_ld Q4)

end Conf

open Conf

theorem outBlk_nc (P : Vec F S4x640 .f32) (M1 S1 W1 M2 S2 W2 M3 S3 W3 M4 S4 W4 : Vec F S16x4x640 .f32) (A1 T1 Q1 A2 T2 Q2 A3 T3 Q3 A4 T4 Q4 : Vec F S21x16x640 .f32) (q : Fin 21) (b : Fin 16) (p : Fin 640) :
    outAtB (outBlk P M1 S1 W1 M2 S2 W2 M3 S3 W3 M4 S4 W4 A1 T1 Q1 A2 T2 Q2 A3 T3 Q3 A4 T4 Q4) ⟨12 + q.val, by have := q.isLt; omega⟩ b p = Spec.confMean (confInB A1 T1 Q1 A2 T2 Q2 A3 T3 Q3 A4 T4 Q4) q b p :=
  (canon_nc P M1 S1 W1 M2 S2 W2 M3 S3 W3 M4 S4 W4 A1 T1 Q1 A2 T2 Q2 A3 T3 Q3 A4 T4 Q4 ⟨12 + q.val, by have := q.isLt; omega⟩ q rfl b p).trans
    (ncB_apply A1 A2 A3 A4 Q1 Q2 Q3 Q4 (ix3 q b p))

theorem outBlk_ca (P : Vec F S4x640 .f32) (M1 S1 W1 M2 S2 W2 M3 S3 W3 M4 S4 W4 : Vec F S16x4x640 .f32) (A1 T1 Q1 A2 T2 Q2 A3 T3 Q3 A4 T4 Q4 : Vec F S21x16x640 .f32) (q : Fin 21) (b : Fin 16) (p : Fin 640) :
    outAtB (outBlk P M1 S1 W1 M2 S2 W2 M3 S3 W3 M4 S4 W4 A1 T1 Q1 A2 T2 Q2 A3 T3 Q3 A4 T4 Q4) ⟨33 + q.val, by have := q.isLt; omega⟩ b p = Spec.confAl (confInB A1 T1 Q1 A2 T2 Q2 A3 T3 Q3 A4 T4 Q4) q b p :=
  (canon_ca P M1 S1 W1 M2 S2 W2 M3 S3 W3 M4 S4 W4 A1 T1 Q1 A2 T2 Q2 A3 T3 Q3 A4 T4 Q4 ⟨33 + q.val, by have := q.isLt; omega⟩ q rfl b p).trans
    (caB_apply T1 T2 T3 T4 Q1 Q2 Q3 Q4 (ix3 q b p))

theorem outBlk_ce (P : Vec F S4x640 .f32) (M1 S1 W1 M2 S2 W2 M3 S3 W3 M4 S4 W4 : Vec F S16x4x640 .f32) (A1 T1 Q1 A2 T2 Q2 A3 T3 Q3 A4 T4 Q4 : Vec F S21x16x640 .f32) (q : Fin 21) (b : Fin 16) (p : Fin 640) :
    outAtB (outBlk P M1 S1 W1 M2 S2 W2 M3 S3 W3 M4 S4 W4 A1 T1 Q1 A2 T2 Q2 A3 T3 Q3 A4 T4 Q4) ⟨54 + q.val, by have := q.isLt; omega⟩ b p = Spec.confEp (confInB A1 T1 Q1 A2 T2 Q2 A3 T3 Q3 A4 T4 Q4) q b p :=
  (canon_ce P M1 S1 W1 M2 S2 W2 M3 S3 W3 M4 S4 W4 A1 T1 Q1 A2 T2 Q2 A3 T3 Q3 A4 T4 Q4 ⟨54 + q.val, by have := q.isLt; omega⟩ q rfl b p).trans
    (ceB_apply A1 A2 A3 A4 Q1 Q2 Q3 Q4 (ix3 q b p))

end Cert.Block
end
-- ==== Proof.BlkFused.lean ====
import proofs.«160245_g86517821215618_cont_9to1_m_1401_10_alg».proof.Proof.BlkLocBox
import proofs.«160245_g86517821215618_cont_9to1_m_1401_10_alg».proof.Proof.BlkLocAE
import proofs.«160245_g86517821215618_cont_9to1_m_1401_10_alg».proof.Proof.BlkConf

noncomputable section

namespace Cert.Block

open Cert.KernelIdeal Cert.KernelIdeal.Gen
open Idealize.ShloMosaic Idealize.ShloMosaic.TcCoe

variable {F : FTy → Type} [FloatOps F]

-- The output block is the fusion of the input blocks, one channel group at a time.

theorem outBlk_fused (P : Vec F S4x640 .f32) (M1 S1 W1 M2 S2 W2 M3 S3 W3 M4 S4 W4 : Vec F S16x4x640 .f32) (A1 T1 Q1 A2 T2 Q2 A3 T3 Q3 A4 T4 Q4 : Vec F S21x16x640 .f32) :
    Spec.Fused (prB P) (locInB M1 S1 W1 M2 S2 W2 M3 S3 W3 M4 S4 W4) (confInB A1 T1 Q1 A2 T2 Q2 A3 T3 Q3 A4 T4 Q4) (outAtB (outBlk P M1 S1 W1 M2 S2 W2 M3 S3 W3 M4 S4 W4 A1 T1 Q1 A2 T2 Q2 A3 T3 Q3 A4 T4 Q4)) where
  lo0 := outBlk_lo0 P M1 S1 W1 M2 S2 W2 M3 S3 W3 M4 S4 W4 A1 T1 Q1 A2 T2 Q2 A3 T3 Q3 A4 T4 Q4
  lo1 := outBlk_lo1 P M1 S1 W1 M2 S2 W2 M3 S3 W3 M4 S4 W4 A1 T1 Q1 A2 T2 Q2 A3 T3 Q3 A4 T4 Q4
  hi0 := outBlk_hi0 P M1 S1 W1 M2 S2 W2 M3 S3 W3 M4 S4 W4 A1 T1 Q1 A2 T2 Q2 A3 T3 Q3 A4 T4 Q4
  hi1 := outBlk_hi1 P M1 S1 W1 M2 S2 W2 M3 S3 W3 M4 S4 W4 A1 T1 Q1 A2 T2 Q2 A3 T3 Q3 A4 T4 Q4
  al := outBlk_al P M1 S1 W1 M2 S2 W2 M3 S3 W3 M4 S4 W4 A1 T1 Q1 A2 T2 Q2 A3 T3 Q3 A4 T4 Q4
  ep := outBlk_ep P M1 S1 W1 M2 S2 W2 M3 S3 W3 M4 S4 W4 A1 T1 Q1 A2 T2 Q2 A3 T3 Q3 A4 T4 Q4
  nc := outBlk_nc P M1 S1 W1 M2 S2 W2 M3 S3 W3 M4 S4 W4 A1 T1 Q1 A2 T2 Q2 A3 T3 Q3 A4 T4 Q4
  ca := outBlk_ca P M1 S1 W1 M2 S2 W2 M3 S3 W3 M4 S4 W4 A1 T1 Q1 A2 T2 Q2 A3 T3 Q3 A4 T4 Q4
  ce := outBlk_ce P M1 S1 W1 M2 S2 W2 M3 S3 W3 M4 S4 W4 A1 T1 Q1 A2 T2 Q2 A3 T3 Q3 A4 T4 Q4

-- Two fillings of one clipped block agree at every index inside the clipped extent.

theorem fill_congr_of_moved {sg : RefSig} {G : Pipeline.Grid} (w : Pipeline.Window sg G) {α : Type} (i : G.Coords) (d d' : w.block.Idx → α)
    (g : (w.xblock i).Idx → α) (j : w.block.Idx) (hm : w.moved i j = true) : w.fill i d g j = w.fill i d' g j := by
  unfold Pipeline.Window.fill; rw [dif_pos hm, dif_pos hm]

theorem outAt_eq (O : Vec F S75x16x640 .f32) (k : Fin 75) (b : Fin 16) (p : Fin 640) :
    O (ValueIdx.ix3 k b p) = outAtB O k b p := rfl

-- Fusions whose inputs agree on a set of lanes agree on those lanes.

theorem fused_eq_of_agree {B N N' : Type} {pr pr' : Fin 4 → N → F .f32} {L L' : Spec.LocIn (F .f32) B N}
    {C C' : Spec.ConfIn (F .f32) B N} {o o' : Fin 75 → B → N → F .f32} (h : Spec.Fused pr L C o) (h' : Spec.Fused pr' L' C' o')
    (f : N' → N) (hpr : ∀ c p, pr c (f p) = pr' c (f p)) (hL : L.comap f = L'.comap f) (hC : C.comap f = C'.comap f)
    (k : Fin 75) (b : B) (p : N') : o k b (f p) = o' k b (f p) := by
  have e : (fun c p => pr c (f p)) = (fun c p => pr' c (f p)) := funext fun c => funext fun p => hpr c p
  have a := h.comap f
  have a' := h'.comap f
  rw [e, hL, hC] at a
  exact a.eq_at a' k b p

theorem locInB_comap_congr {N' : Type} (f : N' → Fin 640) (X1 X2 X3 X4 X5 X6 X7 X8 X9 X10 X11 X12 Y1 Y2 Y3 Y4 Y5 Y6 Y7 Y8 Y9 Y10 Y11 Y12 : Vec F S16x4x640 .f32)
    (h1 : ∀ b c p, X1 (ValueIdx.ix3 b c (f p)) = Y1 (ValueIdx.ix3 b c (f p))) (h2 : ∀ b c p, X2 (ValueIdx.ix3 b c (f p)) = Y2 (ValueIdx.ix3 b c (f p))) (h3 : ∀ b c p, X3 (ValueIdx.ix3 b c (f p)) = Y3 (ValueIdx.ix3 b c (f p))) (h4 : ∀ b c p, X4 (ValueIdx.ix3 b c (f p)) = Y4 (ValueIdx.ix3 b c (f p))) (h5 : ∀ b c p, X5 (ValueIdx.ix3 b c (f p)) = Y5 (ValueIdx.ix3 b c (f p))) (h6 : ∀ b c p, X6 (ValueIdx.ix3 b c (f p)) = Y6 (ValueIdx.ix3 b c (f p))) (h7 : ∀ b c p, X7 (ValueIdx.ix3 b c (f p)) = Y7 (ValueIdx.ix3 b c (f p))) (h8 : ∀ b c p, X8 (ValueIdx.ix3 b c (f p)) = Y8 (ValueIdx.ix3 b c (f p))) (h9 : ∀ b c p, X9 (ValueIdx.ix3 b c (f p)) = Y9 (ValueIdx.ix3 b c (f p))) (h10 : ∀ b c p, X10 (ValueIdx.ix3 b c (f p)) = Y10 (ValueIdx.ix3 b c (f p))) (h11 : ∀ b c p, X11 (ValueIdx.ix3 b c (f p)) = Y11 (ValueIdx.ix3 b c (f p))) (h12 : ∀ b c p, X12 (ValueIdx.ix3 b c (f p)) = Y12 (ValueIdx.ix3 b c (f p))) :
    (locInB X1 X2 X3 X4 X5 X6 X7 X8 X9 X10 X11 X12).comap f = (locInB Y1 Y2 Y3 Y4 Y5 Y6 Y7 Y8 Y9 Y10 Y11 Y12).comap f := by
  unfold locInB Spec.LocIn.comap
  simp only [h1, h2, h3, h4, h5, h6, h7, h8, h9, h10, h11, h12]

theorem confInB_comap_congr {N' : Type} (f : N' → Fin 640) (X1 X2 X3 X4 X5 X6 X7 X8 X9 X10 X11 X12 Y1 Y2 Y3 Y4 Y5 Y6 Y7 Y8 Y9 Y10 Y11 Y12 : Vec F S21x16x640 .f32)
    (h1 : ∀ q b p, X1 (ValueIdx.ix3 q b (f p)) = Y1 (ValueIdx.ix3 q b (f p))) (h2 : ∀ q b p, X2 (ValueIdx.ix3 q b (f p)) = Y2 (ValueIdx.ix3 q b (f p))) (h3 : ∀ q b p, X3 (ValueIdx.ix3 q b (f p)) = Y3 (ValueIdx.ix3 q b (f p))) (h4 : ∀ q b p, X4 (ValueIdx.ix3 q b (f p)) = Y4 (ValueIdx.ix3 q b (f p))) (h5 : ∀ q b p, X5 (ValueIdx.ix3 q b (f p)) = Y5 (ValueIdx.ix3 q b (f p))) (h6 : ∀ q b p, X6 (ValueIdx.ix3 q b (f p)) = Y6 (ValueIdx.ix3 q b (f p))) (h7 : ∀ q b p, X7 (ValueIdx.ix3 q b (f p)) = Y7 (ValueIdx.ix3 q b (f p))) (h8 : ∀ q b p, X8 (ValueIdx.ix3 q b (f p)) = Y8 (ValueIdx.ix3 q b (f p))) (h9 : ∀ q b p, X9 (ValueIdx.ix3 q b (f p)) = Y9 (ValueIdx.ix3 q b (f p))) (h10 : ∀ q b p, X10 (ValueIdx.ix3 q b (f p)) = Y10 (ValueIdx.ix3 q b (f p))) (h11 : ∀ q b p, X11 (ValueIdx.ix3 q b (f p)) = Y11 (ValueIdx.ix3 q b (f p))) (h12 : ∀ q b p, X12 (ValueIdx.ix3 q b (f p)) = Y12 (ValueIdx.ix3 q b (f p))) :
    (confInB X1 X2 X3 X4 X5 X6 X7 X8 X9 X10 X11 X12).comap f = (confInB Y1 Y2 Y3 Y4 Y5 Y6 Y7 Y8 Y9 Y10 Y11 Y12).comap f := by
  unfold confInB Spec.ConfIn.comap
  simp only [h1, h2, h3, h4, h5, h6, h7, h8, h9, h10, h11, h12]

-- The fusion acts lane by lane: input blocks that agree on the first n lanes give output blocks that agree there.

theorem last2 {n0 n1 n : Nat} (x : Fin n0) (p : Fin n1) (hp : p.val < n) (a : Fin 2) (ha : a.val + 1 = 2) : ((ValueIdx.ix2 x p) a).val < n := by
  match a, ha with
  | ⟨1, _⟩, _ => exact hp

theorem last3 {n0 n1 n2 n : Nat} (x : Fin n0) (y : Fin n1) (p : Fin n2) (hp : p.val < n) (a : Fin 3) (ha : a.val + 1 = 3) : ((ValueIdx.ix3 x y p) a).val < n := by
  match a, ha with
  | ⟨2, _⟩, _ => exact hp

-- X and Y agree at every index whose last coordinate is below n.
def Agree (n : Nat) {S : Shape} {α : Type} (X Y : S.Idx → α) : Prop :=
  ∀ j : S.Idx, (∀ a : Fin S.rank, a.val + 1 = S.rank → (j a).val < n) → X j = Y j

theorem outBlk_agree (n : Nat) (X0 Y0 : Vec F S4x640 .f32) (X1 X2 X3 X4 X5 X6 X7 X8 X9 X10 X11 X12 Y1 Y2 Y3 Y4 Y5 Y6 Y7 Y8 Y9 Y10 Y11 Y12 : Vec F S16x4x640 .f32) (X13 X14 X15 X16 X17 X18 X19 X20 X21 X22 X23 X24 Y13 Y14 Y15 Y16 Y17 Y18 Y19 Y20 Y21 Y22 Y23 Y24 : Vec F S21x16x640 .f32) (h0 : Agree n X0 Y0) (h1 : Agree n X1 Y1) (h2 : Agree n X2 Y2) (h3 : Agree n X3 Y3) (h4 : Agree n X4 Y4) (h5 : Agree n X5 Y5) (h6 : Agree n X6 Y6) (h7 : Agree n X7 Y7) (h8 : Agree n X8 Y8) (h9 : Agree n X9 Y9) (h10 : Agree n X10 Y10) (h11 : Agree n X11 Y11) (h12 : Agree n X12 Y12) (h13 : Agree n X13 Y13) (h14 : Agree n X14 Y14) (h15 : Agree n X15 Y15) (h16 : Agree n X16 Y16) (h17 : Agree n X17 Y17) (h18 : Agree n X18 Y18) (h19 : Agree n X19 Y19) (h20 : Agree n X20 Y20) (h21 : Agree n X21 Y21) (h22 : Agree n X22 Y22) (h23 : Agree n X23 Y23) (h24 : Agree n X24 Y24)
    (k : Fin 75) (b : Fin 16) (p : Fin 640) (hp : p.val < n) :
    outAtB (outBlk X0 X1 X2 X3 X4 X5 X6 X7 X8 X9 X10 X11 X12 X13 X14 X15 X16 X17 X18 X19 X20 X21 X22 X23 X24) k b p = outAtB (outBlk Y0 Y1 Y2 Y3 Y4 Y5 Y6 Y7 Y8 Y9 Y10 Y11 Y12 Y13 Y14 Y15 Y16 Y17 Y18 Y19 Y20 Y21 Y22 Y23 Y24) k b p :=
  fused_eq_of_agree (outBlk_fused X0 X1 X2 X3 X4 X5 X6 X7 X8 X9 X10 X11 X12 X13 X14 X15 X16 X17 X18 X19 X20 X21 X22 X23 X24) (outBlk_fused Y0 Y1 Y2 Y3 Y4 Y5 Y6 Y7 Y8 Y9 Y10 Y11 Y12 Y13 Y14 Y15 Y16 Y17 Y18 Y19 Y20 Y21 Y22 Y23 Y24)
    (fun p : {p : Fin 640 // p.val < n} => p.1)
    (fun c' p => h0 _ (last2 c' p.1 p.2))
    (locInB_comap_congr (fun p : {p : Fin 640 // p.val < n} => p.1) X1 X2 X3 X4 X5 X6 X7 X8 X9 X10 X11 X12 Y1 Y2 Y3 Y4 Y5 Y6 Y7 Y8 Y9 Y10 Y11 Y12
      (fun b c' p => h1 _ (last3 b c' p.1 p.2)) (fun b c' p => h2 _ (last3 b c' p.1 p.2)) (fun b c' p => h3 _ (last3 b c' p.1 p.2)) (fun b c' p => h4 _ (last3 b c' p.1 p.2)) (fun b c' p => h5 _ (last3 b c' p.1 p.2)) (fun b c' p => h6 _ (last3 b c' p.1 p.2)) (fun b c' p => h7 _ (last3 b c' p.1 p.2)) (fun b c' p => h8 _ (last3 b c' p.1 p.2)) (fun b c' p => h9 _ (last3 b c' p.1 p.2)) (fun b c' p => h10 _ (last3 b c' p.1 p.2)) (fun b c' p => h11 _ (last3 b c' p.1 p.2)) (fun b c' p => h12 _ (last3 b c' p.1 p.2)))
    (confInB_comap_congr (fun p : {p : Fin 640 // p.val < n} => p.1) X13 X14 X15 X16 X17 X18 X19 X20 X21 X22 X23 X24 Y13 Y14 Y15 Y16 Y17 Y18 Y19 Y20 Y21 Y22 Y23 Y24
      (fun q b p => h13 _ (last3 q b p.1 p.2)) (fun q b p => h14 _ (last3 q b p.1 p.2)) (fun q b p => h15 _ (last3 q b p.1 p.2)) (fun q b p => h16 _ (last3 q b p.1 p.2)) (fun q b p => h17 _ (last3 q b p.1 p.2)) (fun q b p => h18 _ (last3 q b p.1 p.2)) (fun q b p => h19 _ (last3 q b p.1 p.2)) (fun q b p => h20 _ (last3 q b p.1 p.2)) (fun q b p => h21 _ (last3 q b p.1 p.2)) (fun q b p => h22 _ (last3 q b p.1 p.2)) (fun q b p => h23 _ (last3 q b p.1 p.2)) (fun q b p => h24 _ (last3 q b p.1 p.2)))
    k b ⟨p, hp⟩

-- The last coordinate of an index built from coordinates is its last argument.

end Cert.Block
end
-- ==== Proof.WordBodyRun.lean ====
import proofs.«160245_g86517821215618_cont_9to1_m_1401_10_alg».proof.Proof.Blk
import proofs.«160245_g86517821215618_cont_9to1_m_1401_10_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Cert.Block
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

-- The body reads every input block whole, keeps it, and leaves the output block at the fusion of the input blocks.
set_option maxHeartbeats 1000000 in
theorem sound_kernel (c : Dev nD) (E : Set ℕ) (i : grid0.Coords) (arg2 : Memref sig .tc .vmem S4x640 .f32) (harg2 : arg2.IsWhole) (arg3 : Memref sig .tc .vmem S16x4x640 .f32) (harg3 : arg3.IsWhole) (arg4 : Memref sig .tc .vmem S16x4x640 .f32) (harg4 : arg4.IsWhole) (arg5 : Memref sig .tc .vmem S16x4x640 .f32) (harg5 : arg5.IsWhole) (arg6 : Memref sig .tc .vmem S16x4x640 .f32) (harg6 : arg6.IsWhole) (arg7 : Memref sig .tc .vmem S16x4x640 .f32) (harg7 : arg7.IsWhole) (arg8 : Memref sig .tc .vmem S16x4x640 .f32) (harg8 : arg8.IsWhole) (arg9 : Memref sig .tc .vmem S16x4x640 .f32) (harg9 : arg9.IsWhole) (arg10 : Memref sig .tc .vmem S16x4x640 .f32) (harg10 : arg10.IsWhole) (arg11 : Memref sig .tc .vmem S16x4x640 .f32) (harg11 : arg11.IsWhole) (arg12 : Memref sig .tc .vmem S16x4x640 .f32) (harg12 : arg12.IsWhole) (arg13 : Memref sig .tc .vmem S16x4x640 .f32) (harg13 : arg13.IsWhole) (arg14 : Memref sig .tc .vmem S16x4x640 .f32) (harg14 : arg14.IsWhole) (arg15 : Memref sig .tc .vmem S21x16x640 .f32) (harg15 : arg15.IsWhole) (arg16 : Memref sig .tc .vmem S21x16x640 .f32) (harg16 : arg16.IsWhole) (arg17 : Memref sig .tc .vmem S21x16x640 .f32) (harg17 : arg17.IsWhole) (arg18 : Memref sig .tc .vmem S21x16x640 .f32) (harg18 : arg18.IsWhole) (arg19 : Memref sig .tc .vmem S21x16x640 .f32) (harg19 : arg19.IsWhole) (arg20 : Memref sig .tc .vmem S21x16x640 .f32) (harg20 : arg20.IsWhole) (arg21 : Memref sig .tc .vmem S21x16x640 .f32) (harg21 : arg21.IsWhole) (arg22 : Memref sig .tc .vmem S21x16x640 .f32) (harg22 : arg22.IsWhole) (arg23 : Memref sig .tc .vmem S21x16x640 .f32) (harg23 : arg23.IsWhole) (arg24 : Memref sig .tc .vmem S21x16x640 .f32) (harg24 : arg24.IsWhole) (arg25 : Memref sig .tc .vmem S21x16x640 .f32) (harg25 : arg25.IsWhole) (arg26 : Memref sig .tc .vmem S21x16x640 .f32) (harg26 : arg26.IsWhole) (arg27 : Memref sig .tc .vmem S75x16x640 .f32) (harg27 : arg27.IsWhole)
    (P : Vec F S4x640 .f32) (M1 S1 W1 M2 S2 W2 M3 S3 W3 M4 S4 W4 : Vec F S16x4x640 .f32) (A1 T1 Q1 A2 T2 Q2 A3 T3 Q3 A4 T4 Q4 : Vec F S21x16x640 .f32) (K : PUnit → sProp 𝕄) :
    iprop(owns (c : Thread nD τ) arg2 fullShare P ∗ owns (c : Thread nD τ) arg3 fullShare M1 ∗ owns (c : Thread nD τ) arg4 fullShare S1 ∗ owns (c : Thread nD τ) arg5 fullShare W1 ∗ owns (c : Thread nD τ) arg6 fullShare M2 ∗ owns (c : Thread nD τ) arg7 fullShare S2 ∗ owns (c : Thread nD τ) arg8 fullShare W2 ∗ owns (c : Thread nD τ) arg9 fullShare M3 ∗ owns (c : Thread nD τ) arg10 fullShare S3 ∗ owns (c : Thread nD τ) arg11 fullShare W3 ∗ owns (c : Thread nD τ) arg12 fullShare M4 ∗ owns (c : Thread nD τ) arg13 fullShare S4 ∗ owns (c : Thread nD τ) arg14 fullShare W4 ∗ owns (c : Thread nD τ) arg15 fullShare A1 ∗ owns (c : Thread nD τ) arg16 fullShare T1 ∗ owns (c : Thread nD τ) arg17 fullShare Q1 ∗ owns (c : Thread nD τ) arg18 fullShare A2 ∗ owns (c : Thread nD τ) arg19 fullShare T2 ∗ owns (c : Thread nD τ) arg20 fullShare Q2 ∗ owns (c : Thread nD τ) arg21 fullShare A3 ∗ owns (c : Thread nD τ) arg22 fullShare T3 ∗ owns (c : Thread nD τ) arg23 fullShare Q3 ∗ owns (c : Thread nD τ) arg24 fullShare A4 ∗ owns (c : Thread nD τ) arg25 fullShare T4 ∗ owns (c : Thread nD τ) arg26 fullShare Q4 ∗ (∃ d, owns (c : Thread nD τ) arg27 fullShare d)
        ∗ (iprop(owns (c : Thread nD τ) arg2 fullShare P ∗ owns (c : Thread nD τ) arg3 fullShare M1 ∗ owns (c : Thread nD τ) arg4 fullShare S1 ∗ owns (c : Thread nD τ) arg5 fullShare W1 ∗ owns (c : Thread nD τ) arg6 fullShare M2 ∗ owns (c : Thread nD τ) arg7 fullShare S2 ∗ owns (c : Thread nD τ) arg8 fullShare W2 ∗ owns (c : Thread nD τ) arg9 fullShare M3 ∗ owns (c : Thread nD τ) arg10 fullShare S3 ∗ owns (c : Thread nD τ) arg11 fullShare W3 ∗ owns (c : Thread nD τ) arg12 fullShare M4 ∗ owns (c : Thread nD τ) arg13 fullShare S4 ∗ owns (c : Thread nD τ) arg14 fullShare W4 ∗ owns (c : Thread nD τ) arg15 fullShare A1 ∗ owns (c : Thread nD τ) arg16 fullShare T1 ∗ owns (c : Thread nD τ) arg17 fullShare Q1 ∗ owns (c : Thread nD τ) arg18 fullShare A2 ∗ owns (c : Thread nD τ) arg19 fullShare T2 ∗ owns (c : Thread nD τ) arg20 fullShare Q2 ∗ owns (c : Thread nD τ) arg21 fullShare A3 ∗ owns (c : Thread nD τ) arg22 fullShare T3 ∗ owns (c : Thread nD τ) arg23 fullShare Q3 ∗ owns (c : Thread nD τ) arg24 fullShare A4 ∗ owns (c : Thread nD τ) arg25 fullShare T4 ∗ owns (c : Thread nD τ) arg26 fullShare Q4 ∗ owns (c : Thread nD τ) arg27 fullShare (outBlk P M1 S1 W1 M2 S2 W2 M3 S3 W3 M4 S4 W4 A1 T1 Q1 A2 T2 Q2 A3 T3 Q3 A4 T4 Q4)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0__body_eq_skeleton]; unfold cc0__body_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%d25, %f25, -, H25⟩, Hk⟩
  subst hf0; subst hf1; subst hf2; subst hf3; subst hf4; subst hf5; subst hf6; subst hf7; subst hf8; subst hf9; subst hf10; subst hf11; subst hf12; subst hf13; subst hf14; subst hf15; subst hf16; subst hf17; subst hf18; subst hf19; subst hf20; subst hf21; subst hf22; subst hf23; subst hf24
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  iexists _; isplitr
  swap; · iexact H25
  ipureintro
  exact View.read_writes_eq_canon _ _ _ (outPieces_cover _ _ _ _ _ _ _ _ _ _ _ _ _ _ _ _ _ _ _ _ _ _ _ _ _)

end Cert.Kernel.Body
end
-- ==== Proof.WordFrameK.lean ====
import proofs.«160245_g86517821215618_cont_9to1_m_1401_10_alg».proof.Proof.BlkFused
import proofs.«160245_g86517821215618_cont_9to1_m_1401_10_alg».proof.Proof.WordBodyRun
import proofs.«160245_g86517821215618_cont_9to1_m_1401_10_alg».proof.Proof.Gen.Kernel.Frame
import Idealize.ShloMosaic.Lib.Pipeline.FrameSuffix

set_option maxRecDepth 16384

noncomputable section

namespace Cert.Kernel.Body

open Cert.Kernel Cert.Kernel.Gen
open Cert.Block
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

attribute [local irreducible] outBlk

variable (m : (ℓ : Loc nD τ sig) → Buf (Elt F) ℓ) (ρ : Dev nD → PrngReg)

-- The number of a block's lanes that lie inside the arrays at grid point t.

abbrev lanes (t : Fin cfg0.N) : Nat := win0_25.xsize (grid0.coords t) 2

-- Every block is whole on the axes before the last and has `lanes t` lanes inside its array on the last.

theorem xs : ∀ (w : Fin 26) (t : Fin cfg0.N) (a : Fin (win0 w).block.rank),
    (win0 w).xsize (grid0.coords t) a = if a.val + 1 = (win0 w).block.rank then lanes t else (win0 w).block.size a :=
  (by decide +kernel : ∀ (w : Fin 26) (t : Fin grid0.N) (a : Fin (win0 w).block.rank), _)

-- An index whose last coordinate is below `lanes t` lies inside the block's clipped extent.

theorem mv (w : Fin 26) (t : Fin cfg0.N) (j : (win0 w).block.Idx)
    (hj : ∀ a : Fin (win0 w).block.rank, a.val + 1 = (win0 w).block.rank → (j a).val < lanes t) :
    (win0 w).moved (grid0.coords t) j = true := ((win0 w).moved_iff _ _).mpr fun a => by
  rw [xs w t a]; split
  · exact hj a ‹_›
  · exact (j a).isLt

theorem xs25 (t : Fin cfg0.N) : win0_25.xsize (grid0.coords t) 0 = 75 ∧ win0_25.xsize (grid0.coords t) 1 = 16 :=
  ⟨(xs 25 t ⟨0, by decide⟩).trans (if_neg (by decide : ¬ (0 + 1 = 3))), (xs 25 t ⟨1, by decide⟩).trans (if_neg (by decide : ¬ (1 + 1 = 3)))⟩

theorem fetch0_25 : ∀ t : Fin cfg0.N, (cfg0.win 25).fetch t = false :=
  (by decide +kernel : ∀ t : Fin grid0.N, _)

-- An input's block at point t, filled out beyond the array with `d`.

def buf (w : Fin 26) (c : Dev nD) (t : Fin cfg0.N) (d : (win0 w).block.Idx → Elt F (win0 w).elt) : (win0 w).block.Idx → Elt F (win0 w).elt :=
  (win0 w).fill (grid0.coords t) d (iblk m c w t)

abbrev zf (S : Shape) : S.Idx → Elt F .f32 := fun _ => Scalar.ofBits .f32 0#32

def outBuf (c : Dev nD) (t : Fin cfg0.N) (d0 : S4x640.Idx → Elt F .f32) (d1 : S16x4x640.Idx → Elt F .f32) (d2 : S16x4x640.Idx → Elt F .f32) (d3 : S16x4x640.Idx → Elt F .f32) (d4 : S16x4x640.Idx → Elt F .f32) (d5 : S16x4x640.Idx → Elt F .f32) (d6 : S16x4x640.Idx → Elt F .f32) (d7 : S16x4x640.Idx → Elt F .f32) (d8 : S16x4x640.Idx → Elt F .f32) (d9 : S16x4x640.Idx → Elt F .f32) (d10 : S16x4x640.Idx → Elt F .f32) (d11 : S16x4x640.Idx → Elt F .f32) (d12 : S16x4x640.Idx → Elt F .f32) (d13 : S21x16x640.Idx → Elt F .f32) (d14 : S21x16x640.Idx → Elt F .f32) (d15 : S21x16x640.Idx → Elt F .f32) (d16 : S21x16x640.Idx → Elt F .f32) (d17 : S21x16x640.Idx → Elt F .f32) (d18 : S21x16x640.Idx → Elt F .f32) (d19 : S21x16x640.Idx → Elt F .f32) (d20 : S21x16x640.Idx → Elt F .f32) (d21 : S21x16x640.Idx → Elt F .f32) (d22 : S21x16x640.Idx → Elt F .f32) (d23 : S21x16x640.Idx → Elt F .f32) (d24 : S21x16x640.Idx → Elt F .f32) : S75x16x640.Idx → Elt F .f32 :=
  outBlk (buf m 0 c t d0) (buf m 1 c t d1) (buf m 2 c t d2) (buf m 3 c t d3) (buf m 4 c t d4) (buf m 5 c t d5) (buf m 6 c t d6) (buf m 7 c t d7) (buf m 8 c t d8) (buf m 9 c t d9) (buf m 10 c t d10) (buf m 11 c t d11) (buf m 12 c t d12) (buf m 13 c t d13) (buf m 14 c t d14) (buf m 15 c t d15) (buf m 16 c t d16) (buf m 17 c t d17) (buf m 18 c t d18) (buf m 19 c t d19) (buf m 20 c t d20) (buf m 21 c t d21) (buf m 22 c t d22) (buf m 23 c t d23) (buf m 24 c t d24)

def dats (_ : Fin 1) (c : Dev nD) : Dat τ (Elt F) Unit ℕ (UR sig nD τ) ℕ cfg0 c where
  A w := V m c (Pipeline.arrRef spec0 w)
  after w t := match w with
    | ⟨0, _⟩ => buf m 0 c t (zf S4x640)
    | ⟨1, _⟩ => buf m 1 c t (zf S16x4x640)
    | ⟨2, _⟩ => buf m 2 c t (zf S16x4x640)
    | ⟨3, _⟩ => buf m 3 c t (zf S16x4x640)
    | ⟨4, _⟩ => buf m 4 c t (zf S16x4x640)
    | ⟨5, _⟩ => buf m 5 c t (zf S16x4x640)
    | ⟨6, _⟩ => buf m 6 c t (zf S16x4x640)
    | ⟨7, _⟩ => buf m 7 c t (zf S16x4x640)
    | ⟨8, _⟩ => buf m 8 c t (zf S16x4x640)
    | ⟨9, _⟩ => buf m 9 c t (zf S16x4x640)
    | ⟨10, _⟩ => buf m 10 c t (zf S16x4x640)
    | ⟨11, _⟩ => buf m 11 c t (zf S16x4x640)
    | ⟨12, _⟩ => buf m 12 c t (zf S16x4x640)
    | ⟨13, _⟩ => buf m 13 c t (zf S21x16x640)
    | ⟨14, _⟩ => buf m 14 c t (zf S21x16x640)
    | ⟨15, _⟩ => buf m 15 c t (zf S21x16x640)
    | ⟨16, _⟩ => buf m 16 c t (zf S21x16x640)
    | ⟨17, _⟩ => buf m 17 c t (zf S21x16x640)
    | ⟨18, _⟩ => buf m 18 c t (zf S21x16x640)
    | ⟨19, _⟩ => buf m 19 c t (zf S21x16x640)
    | ⟨20, _⟩ => buf m 20 c t (zf S21x16x640)
    | ⟨21, _⟩ => buf m 21 c t (zf S21x16x640)
    | ⟨22, _⟩ => buf m 22 c t (zf S21x16x640)
    | ⟨23, _⟩ => buf m 23 c t (zf S21x16x640)
    | ⟨24, _⟩ => buf m 24 c t (zf S21x16x640)
    | ⟨25, _⟩ => outBuf m c t (zf S4x640) (zf S16x4x640) (zf S16x4x640) (zf S16x4x640) (zf S16x4x640) (zf S16x4x640) (zf S16x4x640) (zf S16x4x640) (zf S16x4x640) (zf S16x4x640) (zf S16x4x640) (zf S16x4x640) (zf S16x4x640) (zf S21x16x640) (zf S21x16x640) (zf S21x16x640) (zf S21x16x640) (zf S21x16x640) (zf S21x16x640) (zf S21x16x640) (zf S21x16x640) (zf S21x16x640) (zf S21x16x640) (zf S21x16x640) (zf S21x16x640)
    | ⟨_ + 26, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = buf m 0 c t (zf S4x640) := by dsimp only [dats]
theorem after_1 (c : Dev nD) (t : Fin cfg0.N) : (dats m 0 c).after 1 t = buf m 1 c t (zf S16x4x640) := by dsimp only [dats]
theorem after_2 (c : Dev nD) (t : Fin cfg0.N) : (dats m 0 c).after 2 t = buf m 2 c t (zf S16x4x640) := by dsimp only [dats]
theorem after_3 (c : Dev nD) (t : Fin cfg0.N) : (dats m 0 c).after 3 t = buf m 3 c t (zf S16x4x640) := by dsimp only [dats]
theorem after_4 (c : Dev nD) (t : Fin cfg0.N) : (dats m 0 c).after 4 t = buf m 4 c t (zf S16x4x640) := by dsimp only [dats]
theorem after_5 (c : Dev nD) (t : Fin cfg0.N) : (dats m 0 c).after 5 t = buf m 5 c t (zf S16x4x640) := by dsimp only [dats]
theorem after_6 (c : Dev nD) (t : Fin cfg0.N) : (dats m 0 c).after 6 t = buf m 6 c t (zf S16x4x640) := by dsimp only [dats]
theorem after_7 (c : Dev nD) (t : Fin cfg0.N) : (dats m 0 c).after 7 t = buf m 7 c t (zf S16x4x640) := by dsimp only [dats]
theorem after_8 (c : Dev nD) (t : Fin cfg0.N) : (dats m 0 c).after 8 t = buf m 8 c t (zf S16x4x640) := by dsimp only [dats]
theorem after_9 (c : Dev nD) (t : Fin cfg0.N) : (dats m 0 c).after 9 t = buf m 9 c t (zf S16x4x640) := by dsimp only [dats]
theorem after_10 (c : Dev nD) (t : Fin cfg0.N) : (dats m 0 c).after 10 t = buf m 10 c t (zf S16x4x640) := by dsimp only [dats]
theorem after_11 (c : Dev nD) (t : Fin cfg0.N) : (dats m 0 c).after 11 t = buf m 11 c t (zf S16x4x640) := by dsimp only [dats]
theorem after_12 (c : Dev nD) (t : Fin cfg0.N) : (dats m 0 c).after 12 t = buf m 12 c t (zf S16x4x640) := by dsimp only [dats]
theorem after_13 (c : Dev nD) (t : Fin cfg0.N) : (dats m 0 c).after 13 t = buf m 13 c t (zf S21x16x640) := by dsimp only [dats]
theorem after_14 (c : Dev nD) (t : Fin cfg0.N) : (dats m 0 c).after 14 t = buf m 14 c t (zf S21x16x640) := by dsimp only [dats]
theorem after_15 (c : Dev nD) (t : Fin cfg0.N) : (dats m 0 c).after 15 t = buf m 15 c t (zf S21x16x640) := by dsimp only [dats]
theorem after_16 (c : Dev nD) (t : Fin cfg0.N) : (dats m 0 c).after 16 t = buf m 16 c t (zf S21x16x640) := by dsimp only [dats]
theorem after_17 (c : Dev nD) (t : Fin cfg0.N) : (dats m 0 c).after 17 t = buf m 17 c t (zf S21x16x640) := by dsimp only [dats]
theorem after_18 (c : Dev nD) (t : Fin cfg0.N) : (dats m 0 c).after 18 t = buf m 18 c t (zf S21x16x640) := by dsimp only [dats]
theorem after_19 (c : Dev nD) (t : Fin cfg0.N) : (dats m 0 c).after 19 t = buf m 19 c t (zf S21x16x640) := by dsimp only [dats]
theorem after_20 (c : Dev nD) (t : Fin cfg0.N) : (dats m 0 c).after 20 t = buf m 20 c t (zf S21x16x640) := by dsimp only [dats]
theorem after_21 (c : Dev nD) (t : Fin cfg0.N) : (dats m 0 c).after 21 t = buf m 21 c t (zf S21x16x640) := by dsimp only [dats]
theorem after_22 (c : Dev nD) (t : Fin cfg0.N) : (dats m 0 c).after 22 t = buf m 22 c t (zf S21x16x640) := by dsimp only [dats]
theorem after_23 (c : Dev nD) (t : Fin cfg0.N) : (dats m 0 c).after 23 t = buf m 23 c t (zf S21x16x640) := by dsimp only [dats]
theorem after_24 (c : Dev nD) (t : Fin cfg0.N) : (dats m 0 c).after 24 t = buf m 24 c t (zf S21x16x640) := by dsimp only [dats]
theorem after_25 (c : Dev nD) (t : Fin cfg0.N) : (dats m 0 c).after 25 t = outBuf m c t (zf S4x640) (zf S16x4x640) (zf S16x4x640) (zf S16x4x640) (zf S16x4x640) (zf S16x4x640) (zf S16x4x640) (zf S16x4x640) (zf S16x4x640) (zf S16x4x640) (zf S16x4x640) (zf S16x4x640) (zf S16x4x640) (zf S21x16x640) (zf S21x16x640) (zf S21x16x640) (zf S21x16x640) (zf S21x16x640) (zf S21x16x640) (zf S21x16x640) (zf S21x16x640) (zf S21x16x640) (zf S21x16x640) (zf S21x16x640) (zf S21x16x640) := by dsimp only [dats]

theorem fetch_in : ∀ (w : Fin 26), w ≠ 25 → ∀ t : Fin cfg0.N, (win0 w).fetch t = true :=
  (by decide +kernel : ∀ (w : Fin 26), w ≠ 25 → ∀ t : Fin grid0.N, _)

theorem before_in (c : Dev nD) (w : Fin 26) (hw : w ≠ 25) (t : Fin cfg0.N) (d) : (dats m 0 c).before w t d = buf m w c t d := by
  unfold Dat.before; rw [if_pos (fetch_in w hw t)]; rfl

theorem before_25 (c : Dev nD) (t : Fin cfg0.N) (d) : (dats m 0 c).before 25 t d = d := by
  unfold Dat.before
  rw [if_neg (by rw [fetch0_25 t]; exact Bool.false_ne_true)]
  by_cases ht : t.val = 0
  · rw [if_pos ht]
  · rw [if_neg ht]; exact if_pos (flush0_25 _)

-- An index whose lane is below `lanes t` lies inside the block's clipped extent (one statement per input).

-- Two fillings of one input's block agree on the lanes inside the array.
theorem buf_agree (w : Fin 26) (c : Dev nD) (t : Fin cfg0.N) (d e : (win0 w).block.Idx → Elt F (win0 w).elt) :
    Agree (lanes t) (buf m w c t d) (buf m w c t e) :=
  fun j hj => fill_congr_of_moved _ _ _ _ _ _ (mv w t j hj)

set_option maxHeartbeats 800000 in
theorem cut_outBuf_indep (c : Dev nD) (t : Fin cfg0.N) (d0 : S4x640.Idx → Elt F .f32) (d1 : S16x4x640.Idx → Elt F .f32) (d2 : S16x4x640.Idx → Elt F .f32) (d3 : S16x4x640.Idx → Elt F .f32) (d4 : S16x4x640.Idx → Elt F .f32) (d5 : S16x4x640.Idx → Elt F .f32) (d6 : S16x4x640.Idx → Elt F .f32) (d7 : S16x4x640.Idx → Elt F .f32) (d8 : S16x4x640.Idx → Elt F .f32) (d9 : S16x4x640.Idx → Elt F .f32) (d10 : S16x4x640.Idx → Elt F .f32) (d11 : S16x4x640.Idx → Elt F .f32) (d12 : S16x4x640.Idx → Elt F .f32) (d13 : S21x16x640.Idx → Elt F .f32) (d14 : S21x16x640.Idx → Elt F .f32) (d15 : S21x16x640.Idx → Elt F .f32) (d16 : S21x16x640.Idx → Elt F .f32) (d17 : S21x16x640.Idx → Elt F .f32) (d18 : S21x16x640.Idx → Elt F .f32) (d19 : S21x16x640.Idx → Elt F .f32) (d20 : S21x16x640.Idx → Elt F .f32) (d21 : S21x16x640.Idx → Elt F .f32) (d22 : S21x16x640.Idx → Elt F .f32) (d23 : S21x16x640.Idx → Elt F .f32) (d24 : S21x16x640.Idx → Elt F .f32) (e0 : S4x640.Idx → Elt F .f32) (e1 : S16x4x640.Idx → Elt F .f32) (e2 : S16x4x640.Idx → Elt F .f32) (e3 : S16x4x640.Idx → Elt F .f32) (e4 : S16x4x640.Idx → Elt F .f32) (e5 : S16x4x640.Idx → Elt F .f32) (e6 : S16x4x640.Idx → Elt F .f32) (e7 : S16x4x640.Idx → Elt F .f32) (e8 : S16x4x640.Idx → Elt F .f32) (e9 : S16x4x640.Idx → Elt F .f32) (e10 : S16x4x640.Idx → Elt F .f32) (e11 : S16x4x640.Idx → Elt F .f32) (e12 : S16x4x640.Idx → Elt F .f32) (e13 : S21x16x640.Idx → Elt F .f32) (e14 : S21x16x640.Idx → Elt F .f32) (e15 : S21x16x640.Idx → Elt F .f32) (e16 : S21x16x640.Idx → Elt F .f32) (e17 : S21x16x640.Idx → Elt F .f32) (e18 : S21x16x640.Idx → Elt F .f32) (e19 : S21x16x640.Idx → Elt F .f32) (e20 : S21x16x640.Idx → Elt F .f32) (e21 : S21x16x640.Idx → Elt F .f32) (e22 : S21x16x640.Idx → Elt F .f32) (e23 : S21x16x640.Idx → Elt F .f32) (e24 : S21x16x640.Idx → Elt F .f32) :
    win0_25.cut (grid0.coords t) (outBuf m c t d0 d1 d2 d3 d4 d5 d6 d7 d8 d9 d10 d11 d12 d13 d14 d15 d16 d17 d18 d19 d20 d21 d22 d23 d24) = win0_25.cut (grid0.coords t) (outBuf m c t e0 e1 e2 e3 e4 e5 e6 e7 e8 e9 e10 e11 e12 e13 e14 e15 e16 e17 e18 e19 e20 e21 e22 e23 e24) := by
  funext j
  have hj0 : (j 0).val < 75 := Nat.lt_of_lt_of_eq (j 0).isLt (xs25 t).1
  have hj1 : (j 1).val < 16 := Nat.lt_of_lt_of_eq (j 1).isLt (xs25 t).2
  have hj2 : (j 2).val < 640 := Nat.lt_of_lt_of_le (j 2).isLt (win0_25.xsize_le (grid0.coords t) 2)
  have hl : (j 2).val < lanes t := (j 2).isLt
  have hix : win0_25.xinj (grid0.coords t) j = ValueIdx.ix3 (⟨(j 0).val, hj0⟩ : Fin 75) (⟨(j 1).val, hj1⟩ : Fin 16) (⟨(j 2).val, hj2⟩ : Fin 640) :=
    funext fun a => by
      match a with
      | ⟨0, _⟩ => rfl
      | ⟨1, _⟩ => rfl
      | ⟨2, _⟩ => rfl
  show outBuf m c t d0 d1 d2 d3 d4 d5 d6 d7 d8 d9 d10 d11 d12 d13 d14 d15 d16 d17 d18 d19 d20 d21 d22 d23 d24 (win0_25.xinj (grid0.coords t) j) = outBuf m c t e0 e1 e2 e3 e4 e5 e6 e7 e8 e9 e10 e11 e12 e13 e14 e15 e16 e17 e18 e19 e20 e21 e22 e23 e24 (win0_25.xinj (grid0.coords t) j)
  rw [hix]
  unfold outBuf
  refine (outAt_eq _ _ _ _).trans (Eq.trans ?_ (outAt_eq _ _ _ _).symm)
  exact outBlk_agree (lanes t) (buf m 0 c t d0) (buf m 0 c t e0) (buf m 1 c t d1) (buf m 2 c t d2) (buf m 3 c t d3) (buf m 4 c t d4) (buf m 5 c t d5) (buf m 6 c t d6) (buf m 7 c t d7) (buf m 8 c t d8) (buf m 9 c t d9) (buf m 10 c t d10) (buf m 11 c t d11) (buf m 12 c t d12) (buf m 1 c t e1) (buf m 2 c t e2) (buf m 3 c t e3) (buf m 4 c t e4) (buf m 5 c t e5) (buf m 6 c t e6) (buf m 7 c t e7) (buf m 8 c t e8) (buf m 9 c t e9) (buf m 10 c t e10) (buf m 11 c t e11) (buf m 12 c t e12) (buf m 13 c t d13) (buf m 14 c t d14) (buf m 15 c t d15) (buf m 16 c t d16) (buf m 17 c t d17) (buf m 18 c t d18) (buf m 19 c t d19) (buf m 20 c t d20) (buf m 21 c t d21) (buf m 22 c t d22) (buf m 23 c t d23) (buf m 24 c t d24) (buf m 13 c t e13) (buf m 14 c t e14) (buf m 15 c t e15) (buf m 16 c t e16) (buf m 17 c t e17) (buf m 18 c t e18) (buf m 19 c t e19) (buf m 20 c t e20) (buf m 21 c t e21) (buf m 22 c t e22) (buf m 23 c t e23) (buf m 24 c t e24) (buf_agree m 0 c t _ _) (buf_agree m 1 c t _ _) (buf_agree m 2 c t _ _) (buf_agree m 3 c t _ _) (buf_agree m 4 c t _ _) (buf_agree m 5 c t _ _) (buf_agree m 6 c t _ _) (buf_agree m 7 c t _ _) (buf_agree m 8 c t _ _) (buf_agree m 9 c t _ _) (buf_agree m 10 c t _ _) (buf_agree m 11 c t _ _) (buf_agree m 12 c t _ _) (buf_agree m 13 c t _ _) (buf_agree m 14 c t _ _) (buf_agree m 15 c t _ _) (buf_agree m 16 c t _ _) (buf_agree m 17 c t _ _) (buf_agree m 18 c t _ _) (buf_agree m 19 c t _ _) (buf_agree m 20 c t _ _) (buf_agree m 21 c t _ _) (buf_agree m 22 c t _ _) (buf_agree m 23 c t _ _) (buf_agree m 24 c t _ _)
    ⟨(j 0).val, hj0⟩ ⟨(j 1).val, hj1⟩ ⟨(j 2).val, hj2⟩ hl

theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ d, owns (c : Thread nD τ) (st0_7 t) fullShare ((dats m 0 c).before 7 t d))
      ∗ (∃ d, owns (c : Thread nD τ) (st0_8 t) fullShare ((dats m 0 c).before 8 t d))
      ∗ (∃ d, owns (c : Thread nD τ) (st0_9 t) fullShare ((dats m 0 c).before 9 t d))
      ∗ (∃ d, owns (c : Thread nD τ) (st0_10 t) fullShare ((dats m 0 c).before 10 t d))
      ∗ (∃ d, owns (c : Thread nD τ) (st0_11 t) fullShare ((dats m 0 c).before 11 t d))
      ∗ (∃ d, owns (c : Thread nD τ) (st0_12 t) fullShare ((dats m 0 c).before 12 t d))
      ∗ (∃ d, owns (c : Thread nD τ) (st0_13 t) fullShare ((dats m 0 c).before 13 t d))
      ∗ (∃ d, owns (c : Thread nD τ) (st0_14 t) fullShare ((dats m 0 c).before 14 t d))
      ∗ (∃ d, owns (c : Thread nD τ) (st0_15 t) fullShare ((dats m 0 c).before 15 t d))
      ∗ (∃ d, owns (c : Thread nD τ) (st0_16 t) fullShare ((dats m 0 c).before 16 t d))
      ∗ (∃ d, owns (c : Thread nD τ) (st0_17 t) fullShare ((dats m 0 c).before 17 t d))
      ∗ (∃ d, owns (c : Thread nD τ) (st0_18 t) fullShare ((dats m 0 c).before 18 t d))
      ∗ (∃ d, owns (c : Thread nD τ) (st0_19 t) fullShare ((dats m 0 c).before 19 t d))
      ∗ (∃ d, owns (c : Thread nD τ) (st0_20 t) fullShare ((dats m 0 c).before 20 t d))
      ∗ (∃ d, owns (c : Thread nD τ) (st0_21 t) fullShare ((dats m 0 c).before 21 t d))
      ∗ (∃ d, owns (c : Thread nD τ) (st0_22 t) fullShare ((dats m 0 c).before 22 t d))
      ∗ (∃ d, owns (c : Thread nD τ) (st0_23 t) fullShare ((dats m 0 c).before 23 t d))
      ∗ (∃ d, owns (c : Thread nD τ) (st0_24 t) fullShare ((dats m 0 c).before 24 t d))
      ∗ (∃ d, owns (c : Thread nD τ) (st0_25 t) fullShare ((dats m 0 c).before 25 t d)))
    ⊢ wp frame (wpE (defs₀ (F := F)) Variants.none c none) Set.univ (bodyAt0 t) (fun _ =>
      iprop((dats m 0 c).Φ t.succ ∗ (dats m 0 c).owesAt () t.succ
        ∗ (∃ d, owns (c : Thread nD τ) (st0_0 t) fullShare (win0_0.fill (grid0.coords t) d (win0_0.cut (grid0.coords t) ((dats m 0 c).after 0 t))))
        ∗ (∃ d, owns (c : Thread nD τ) (st0_1 t) fullShare (win0_1.fill (grid0.coords t) d (win0_1.cut (grid0.coords t) ((dats m 0 c).after 1 t))))
        ∗ (∃ d, owns (c : Thread nD τ) (st0_2 t) fullShare (win0_2.fill (grid0.coords t) d (win0_2.cut (grid0.coords t) ((dats m 0 c).after 2 t))))
        ∗ (∃ d, owns (c : Thread nD τ) (st0_3 t) fullShare (win0_3.fill (grid0.coords t) d (win0_3.cut (grid0.coords t) ((dats m 0 c).after 3 t))))
        ∗ (∃ d, owns (c : Thread nD τ) (st0_4 t) fullShare (win0_4.fill (grid0.coords t) d (win0_4.cut (grid0.coords t) ((dats m 0 c).after 4 t))))
        ∗ (∃ d, owns (c : Thread nD τ) (st0_5 t) fullShare (win0_5.fill (grid0.coords t) d (win0_5.cut (grid0.coords t) ((dats m 0 c).after 5 t))))
        ∗ (∃ d, owns (c : Thread nD τ) (st0_6 t) fullShare (win0_6.fill (grid0.coords t) d (win0_6.cut (grid0.coords t) ((dats m 0 c).after 6 t))))
        ∗ (∃ d, owns (c : Thread nD τ) (st0_7 t) fullShare (win0_7.fill (grid0.coords t) d (win0_7.cut (grid0.coords t) ((dats m 0 c).after 7 t))))
        ∗ (∃ d, owns (c : Thread nD τ) (st0_8 t) fullShare (win0_8.fill (grid0.coords t) d (win0_8.cut (grid0.coords t) ((dats m 0 c).after 8 t))))
        ∗ (∃ d, owns (c : Thread nD τ) (st0_9 t) fullShare (win0_9.fill (grid0.coords t) d (win0_9.cut (grid0.coords t) ((dats m 0 c).after 9 t))))
        ∗ (∃ d, owns (c : Thread nD τ) (st0_10 t) fullShare (win0_10.fill (grid0.coords t) d (win0_10.cut (grid0.coords t) ((dats m 0 c).after 10 t))))
        ∗ (∃ d, owns (c : Thread nD τ) (st0_11 t) fullShare (win0_11.fill (grid0.coords t) d (win0_11.cut (grid0.coords t) ((dats m 0 c).after 11 t))))
        ∗ (∃ d, owns (c : Thread nD τ) (st0_12 t) fullShare (win0_12.fill (grid0.coords t) d (win0_12.cut (grid0.coords t) ((dats m 0 c).after 12 t))))
        ∗ (∃ d, owns (c : Thread nD τ) (st0_13 t) fullShare (win0_13.fill (grid0.coords t) d (win0_13.cut (grid0.coords t) ((dats m 0 c).after 13 t))))
        ∗ (∃ d, owns (c : Thread nD τ) (st0_14 t) fullShare (win0_14.fill (grid0.coords t) d (win0_14.cut (grid0.coords t) ((dats m 0 c).after 14 t))))
        ∗ (∃ d, owns (c : Thread nD τ) (st0_15 t) fullShare (win0_15.fill (grid0.coords t) d (win0_15.cut (grid0.coords t) ((dats m 0 c).after 15 t))))
        ∗ (∃ d, owns (c : Thread nD τ) (st0_16 t) fullShare (win0_16.fill (grid0.coords t) d (win0_16.cut (grid0.coords t) ((dats m 0 c).after 16 t))))
        ∗ (∃ d, owns (c : Thread nD τ) (st0_17 t) fullShare (win0_17.fill (grid0.coords t) d (win0_17.cut (grid0.coords t) ((dats m 0 c).after 17 t))))
        ∗ (∃ d, owns (c : Thread nD τ) (st0_18 t) fullShare (win0_18.fill (grid0.coords t) d (win0_18.cut (grid0.coords t) ((dats m 0 c).after 18 t))))
        ∗ (∃ d, owns (c : Thread nD τ) (st0_19 t) fullShare (win0_19.fill (grid0.coords t) d (win0_19.cut (grid0.coords t) ((dats m 0 c).after 19 t))))
        ∗ (∃ d, owns (c : Thread nD τ) (st0_20 t) fullShare (win0_20.fill (grid0.coords t) d (win0_20.cut (grid0.coords t) ((dats m 0 c).after 20 t))))
        ∗ (∃ d, owns (c : Thread nD τ) (st0_21 t) fullShare (win0_21.fill (grid0.coords t) d (win0_21.cut (grid0.coords t) ((dats m 0 c).after 21 t))))
        ∗ (∃ d, owns (c : Thread nD τ) (st0_22 t) fullShare (win0_22.fill (grid0.coords t) d (win0_22.cut (grid0.coords t) ((dats m 0 c).after 22 t))))
        ∗ (∃ d, owns (c : Thread nD τ) (st0_23 t) fullShare (win0_23.fill (grid0.coords t) d (win0_23.cut (grid0.coords t) ((dats m 0 c).after 23 t))))
        ∗ (∃ d, owns (c : Thread nD τ) (st0_24 t) fullShare (win0_24.fill (grid0.coords t) d (win0_24.cut (grid0.coords t) ((dats m 0 c).after 24 t))))
        ∗ (∃ d, owns (c : Thread nD τ) (st0_25 t) fullShare (win0_25.fill (grid0.coords t) d (win0_25.cut (grid0.coords t) ((dats m 0 c).after 25 t)))))) := by
  unfold bodyAt0
  rw [show (dats m 0 c).Φ t.succ = (dats m 0 c).Φ t.castSucc from rfl,
    show (dats m 0 c).owesAt () t.succ = (dats m 0 c).owesAt () t.castSucc from rfl]
  simp (disch := decide) only [before_in, before_25, after_0, after_1, after_2, after_3, after_4, after_5, after_6, after_7, after_8, after_9, after_10, after_11, after_12, after_13, after_14, after_15, after_16, after_17, after_18, after_19, after_20, after_21, after_22, after_23, after_24, after_25, buf, Pipeline.Window.cut_fill]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ (buf m 0 c t d0) (buf m 1 c t d1) (buf m 2 c t d2) (buf m 3 c t d3) (buf m 4 c t d4) (buf m 5 c t d5) (buf m 6 c t d6) (buf m 7 c t d7) (buf m 8 c t d8) (buf m 9 c t d9) (buf m 10 c t d10) (buf m 11 c t d11) (buf m 12 c t d12) (buf m 13 c t d13) (buf m 14 c t d14) (buf m 15 c t d15) (buf m 16 c t d16) (buf m 17 c t d17) (buf m 18 c t d18) (buf m 19 c t d19) (buf m 20 c t d20) (buf m 21 c t d21) (buf m 22 c t d22) (buf m 23 c t d23) (buf m 24 c t d24) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  iintro ⟨H0, H1, H2, H3, H4, H5, H6, H7, H8, H9, H10, H11, H12, H13, H14, H15, H16, H17, H18, H19, H20, H21, H22, H23, H24, H25⟩
  isplitl [HΦ]; · iexact HΦ
  isplitl [Ho]; · iexact Ho
  isplitl [H0]; · iexists d0; iexact H0
  isplitl [H1]; · iexists d1; iexact H1
  isplitl [H2]; · iexists d2; iexact H2
  isplitl [H3]; · iexists d3; iexact H3
  isplitl [H4]; · iexists d4; iexact H4
  isplitl [H5]; · iexists d5; iexact H5
  isplitl [H6]; · iexists d6; iexact H6
  isplitl [H7]; · iexists d7; iexact H7
  isplitl [H8]; · iexists d8; iexact H8
  isplitl [H9]; · iexists d9; iexact H9
  isplitl [H10]; · iexists d10; iexact H10
  isplitl [H11]; · iexists d11; iexact H11
  isplitl [H12]; · iexists d12; iexact H12
  isplitl [H13]; · iexists d13; iexact H13
  isplitl [H14]; · iexists d14; iexact H14
  isplitl [H15]; · iexists d15; iexact H15
  isplitl [H16]; · iexists d16; iexact H16
  isplitl [H17]; · iexists d17; iexact H17
  isplitl [H18]; · iexists d18; iexact H18
  isplitl [H19]; · iexists d19; iexact H19
  isplitl [H20]; · iexists d20; iexact H20
  isplitl [H21]; · iexists d21; iexact H21
  isplitl [H22]; · iexists d22; iexact H22
  isplitl [H23]; · iexists d23; iexact H23
  isplitl [H24]; · iexists d24; iexact H24
  · iexists outBuf m c t d0 d1 d2 d3 d4 d5 d6 d7 d8 d9 d10 d11 d12 d13 d14 d15 d16 d17 d18 d19 d20 d21 d22 d23 d24
    rw [cut_outBuf_indep m c t (zf S4x640) (zf S16x4x640) (zf S16x4x640) (zf S16x4x640) (zf S16x4x640) (zf S16x4x640) (zf S16x4x640) (zf S16x4x640) (zf S16x4x640) (zf S16x4x640) (zf S16x4x640) (zf S16x4x640) (zf S16x4x640) (zf S21x16x640) (zf S21x16x640) (zf S21x16x640) (zf S21x16x640) (zf S21x16x640) (zf S21x16x640) (zf S21x16x640) (zf S21x16x640) (zf S21x16x640) (zf S21x16x640) (zf S21x16x640) (zf S21x16x640) d0 d1 d2 d3 d4 d5 d6 d7 d8 d9 d10 d11 d12 d13 d14 d15 d16 d17 d18 d19 d20 d21 d22 d23 d24, win0_25.fill_cut]
    iexact H25

theorem body_obligation (c : Dev nD) : BodyObligationLoose (dats (F := F) m 0 c) (defs₀ (F := F)) Variants.none () Set.univ := fun t => by
  rw [bigSep_W0, bigSep_W0]
  exact sound_body m c t

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.Kernel.Body
end
-- ==== Proof.BodyRun.lean ====
import proofs.«160245_g86517821215618_cont_9to1_m_1401_10_alg».proof.Proof.Blk
import proofs.«160245_g86517821215618_cont_9to1_m_1401_10_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Cert.Block
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

-- The body reads every input block whole, keeps it, and leaves the output block at the fusion of the input blocks.
set_option maxHeartbeats 1000000 in
theorem sound_kernel (c : Dev nD) (E : Set ℕ) (i : grid0.Coords) (arg2 : Memref sig .tc .vmem S4x640 .f32) (harg2 : arg2.IsWhole) (arg3 : Memref sig .tc .vmem S16x4x640 .f32) (harg3 : arg3.IsWhole) (arg4 : Memref sig .tc .vmem S16x4x640 .f32) (harg4 : arg4.IsWhole) (arg5 : Memref sig .tc .vmem S16x4x640 .f32) (harg5 : arg5.IsWhole) (arg6 : Memref sig .tc .vmem S16x4x640 .f32) (harg6 : arg6.IsWhole) (arg7 : Memref sig .tc .vmem S16x4x640 .f32) (harg7 : arg7.IsWhole) (arg8 : Memref sig .tc .vmem S16x4x640 .f32) (harg8 : arg8.IsWhole) (arg9 : Memref sig .tc .vmem S16x4x640 .f32) (harg9 : arg9.IsWhole) (arg10 : Memref sig .tc .vmem S16x4x640 .f32) (harg10 : arg10.IsWhole) (arg11 : Memref sig .tc .vmem S16x4x640 .f32) (harg11 : arg11.IsWhole) (arg12 : Memref sig .tc .vmem S16x4x640 .f32) (harg12 : arg12.IsWhole) (arg13 : Memref sig .tc .vmem S16x4x640 .f32) (harg13 : arg13.IsWhole) (arg14 : Memref sig .tc .vmem S16x4x640 .f32) (harg14 : arg14.IsWhole) (arg15 : Memref sig .tc .vmem S21x16x640 .f32) (harg15 : arg15.IsWhole) (arg16 : Memref sig .tc .vmem S21x16x640 .f32) (harg16 : arg16.IsWhole) (arg17 : Memref sig .tc .vmem S21x16x640 .f32) (harg17 : arg17.IsWhole) (arg18 : Memref sig .tc .vmem S21x16x640 .f32) (harg18 : arg18.IsWhole) (arg19 : Memref sig .tc .vmem S21x16x640 .f32) (harg19 : arg19.IsWhole) (arg20 : Memref sig .tc .vmem S21x16x640 .f32) (harg20 : arg20.IsWhole) (arg21 : Memref sig .tc .vmem S21x16x640 .f32) (harg21 : arg21.IsWhole) (arg22 : Memref sig .tc .vmem S21x16x640 .f32) (harg22 : arg22.IsWhole) (arg23 : Memref sig .tc .vmem S21x16x640 .f32) (harg23 : arg23.IsWhole) (arg24 : Memref sig .tc .vmem S21x16x640 .f32) (harg24 : arg24.IsWhole) (arg25 : Memref sig .tc .vmem S21x16x640 .f32) (harg25 : arg25.IsWhole) (arg26 : Memref sig .tc .vmem S21x16x640 .f32) (harg26 : arg26.IsWhole) (arg27 : Memref sig .tc .vmem S75x16x640 .f32) (harg27 : arg27.IsWhole)
    (P : Vec F S4x640 .f32) (M1 S1 W1 M2 S2 W2 M3 S3 W3 M4 S4 W4 : Vec F S16x4x640 .f32) (A1 T1 Q1 A2 T2 Q2 A3 T3 Q3 A4 T4 Q4 : Vec F S21x16x640 .f32) (K : PUnit → sProp 𝕄) :
    iprop(owns (c : Thread nD τ) arg2 fullShare P ∗ owns (c : Thread nD τ) arg3 fullShare M1 ∗ owns (c : Thread nD τ) arg4 fullShare S1 ∗ owns (c : Thread nD τ) arg5 fullShare W1 ∗ owns (c : Thread nD τ) arg6 fullShare M2 ∗ owns (c : Thread nD τ) arg7 fullShare S2 ∗ owns (c : Thread nD τ) arg8 fullShare W2 ∗ owns (c : Thread nD τ) arg9 fullShare M3 ∗ owns (c : Thread nD τ) arg10 fullShare S3 ∗ owns (c : Thread nD τ) arg11 fullShare W3 ∗ owns (c : Thread nD τ) arg12 fullShare M4 ∗ owns (c : Thread nD τ) arg13 fullShare S4 ∗ owns (c : Thread nD τ) arg14 fullShare W4 ∗ owns (c : Thread nD τ) arg15 fullShare A1 ∗ owns (c : Thread nD τ) arg16 fullShare T1 ∗ owns (c : Thread nD τ) arg17 fullShare Q1 ∗ owns (c : Thread nD τ) arg18 fullShare A2 ∗ owns (c : Thread nD τ) arg19 fullShare T2 ∗ owns (c : Thread nD τ) arg20 fullShare Q2 ∗ owns (c : Thread nD τ) arg21 fullShare A3 ∗ owns (c : Thread nD τ) arg22 fullShare T3 ∗ owns (c : Thread nD τ) arg23 fullShare Q3 ∗ owns (c : Thread nD τ) arg24 fullShare A4 ∗ owns (c : Thread nD τ) arg25 fullShare T4 ∗ owns (c : Thread nD τ) arg26 fullShare Q4 ∗ (∃ d, owns (c : Thread nD τ) arg27 fullShare d)
        ∗ (iprop(owns (c : Thread nD τ) arg2 fullShare P ∗ owns (c : Thread nD τ) arg3 fullShare M1 ∗ owns (c : Thread nD τ) arg4 fullShare S1 ∗ owns (c : Thread nD τ) arg5 fullShare W1 ∗ owns (c : Thread nD τ) arg6 fullShare M2 ∗ owns (c : Thread nD τ) arg7 fullShare S2 ∗ owns (c : Thread nD τ) arg8 fullShare W2 ∗ owns (c : Thread nD τ) arg9 fullShare M3 ∗ owns (c : Thread nD τ) arg10 fullShare S3 ∗ owns (c : Thread nD τ) arg11 fullShare W3 ∗ owns (c : Thread nD τ) arg12 fullShare M4 ∗ owns (c : Thread nD τ) arg13 fullShare S4 ∗ owns (c : Thread nD τ) arg14 fullShare W4 ∗ owns (c : Thread nD τ) arg15 fullShare A1 ∗ owns (c : Thread nD τ) arg16 fullShare T1 ∗ owns (c : Thread nD τ) arg17 fullShare Q1 ∗ owns (c : Thread nD τ) arg18 fullShare A2 ∗ owns (c : Thread nD τ) arg19 fullShare T2 ∗ owns (c : Thread nD τ) arg20 fullShare Q2 ∗ owns (c : Thread nD τ) arg21 fullShare A3 ∗ owns (c : Thread nD τ) arg22 fullShare T3 ∗ owns (c : Thread nD τ) arg23 fullShare Q3 ∗ owns (c : Thread nD τ) arg24 fullShare A4 ∗ owns (c : Thread nD τ) arg25 fullShare T4 ∗ owns (c : Thread nD τ) arg26 fullShare Q4 ∗ owns (c : Thread nD τ) arg27 fullShare (outBlk P M1 S1 W1 M2 S2 W2 M3 S3 W3 M4 S4 W4 A1 T1 Q1 A2 T2 Q2 A3 T3 Q3 A4 T4 Q4)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0__body_eq_skeleton]; unfold cc0__body_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%d25, %f25, -, H25⟩, Hk⟩
  subst hf0; subst hf1; subst hf2; subst hf3; subst hf4; subst hf5; subst hf6; subst hf7; subst hf8; subst hf9; subst hf10; subst hf11; subst hf12; subst hf13; subst hf14; subst hf15; subst hf16; subst hf17; subst hf18; subst hf19; subst hf20; subst hf21; subst hf22; subst hf23; subst hf24
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  iexists _; isplitr
  swap; · iexact H25
  ipureintro
  exact View.read_writes_eq_canon _ _ _ (outPieces_cover _ _ _ _ _ _ _ _ _ _ _ _ _ _ _ _ _ _ _ _ _ _ _ _ _)

end Cert.KernelIdeal.Body
end
-- ==== Proof.FrameK.lean ====
import proofs.«160245_g86517821215618_cont_9to1_m_1401_10_alg».proof.Proof.BlkFused
import proofs.«160245_g86517821215618_cont_9to1_m_1401_10_alg».proof.Proof.BodyRun
import proofs.«160245_g86517821215618_cont_9to1_m_1401_10_alg».proof.Proof.Gen.KernelIdeal.Frame
import Idealize.ShloMosaic.Lib.Pipeline.FrameSuffix

set_option maxRecDepth 16384

noncomputable section

namespace Cert.KernelIdeal.Body

open Cert.KernelIdeal Cert.KernelIdeal.Gen
open Cert.Block
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

attribute [local irreducible] outBlk

variable (m : (ℓ : Loc nD τ sig) → Buf (Elt F) ℓ) (ρ : Dev nD → PrngReg)

-- The number of a block's lanes that lie inside the arrays at grid point t.

abbrev lanes (t : Fin cfg0.N) : Nat := win0_25.xsize (grid0.coords t) 2

-- Every block is whole on the axes before the last and has `lanes t` lanes inside its array on the last.

theorem xs : ∀ (w : Fin 26) (t : Fin cfg0.N) (a : Fin (win0 w).block.rank),
    (win0 w).xsize (grid0.coords t) a = if a.val + 1 = (win0 w).block.rank then lanes t else (win0 w).block.size a :=
  (by decide +kernel : ∀ (w : Fin 26) (t : Fin grid0.N) (a : Fin (win0 w).block.rank), _)

-- An index whose last coordinate is below `lanes t` lies inside the block's clipped extent.

theorem mv (w : Fin 26) (t : Fin cfg0.N) (j : (win0 w).block.Idx)
    (hj : ∀ a : Fin (win0 w).block.rank, a.val + 1 = (win0 w).block.rank → (j a).val < lanes t) :
    (win0 w).moved (grid0.coords t) j = true := ((win0 w).moved_iff _ _).mpr fun a => by
  rw [xs w t a]; split
  · exact hj a ‹_›
  · exact (j a).isLt

theorem xs25 (t : Fin cfg0.N) : win0_25.xsize (grid0.coords t) 0 = 75 ∧ win0_25.xsize (grid0.coords t) 1 = 16 :=
  ⟨(xs 25 t ⟨0, by decide⟩).trans (if_neg (by decide : ¬ (0 + 1 = 3))), (xs 25 t ⟨1, by decide⟩).trans (if_neg (by decide : ¬ (1 + 1 = 3)))⟩

theorem fetch0_25 : ∀ t : Fin cfg0.N, (cfg0.win 25).fetch t = false :=
  (by decide +kernel : ∀ t : Fin grid0.N, _)

-- An input's block at point t, filled out beyond the array with `d`.

def buf (w : Fin 26) (c : Dev nD) (t : Fin cfg0.N) (d : (win0 w).block.Idx → Elt F (win0 w).elt) : (win0 w).block.Idx → Elt F (win0 w).elt :=
  (win0 w).fill (grid0.coords t) d (iblk m c w t)

abbrev zf (S : Shape) : S.Idx → Elt F .f32 := fun _ => Scalar.ofBits .f32 0#32

def outBuf (c : Dev nD) (t : Fin cfg0.N) (d0 : S4x640.Idx → Elt F .f32) (d1 : S16x4x640.Idx → Elt F .f32) (d2 : S16x4x640.Idx → Elt F .f32) (d3 : S16x4x640.Idx → Elt F .f32) (d4 : S16x4x640.Idx → Elt F .f32) (d5 : S16x4x640.Idx → Elt F .f32) (d6 : S16x4x640.Idx → Elt F .f32) (d7 : S16x4x640.Idx → Elt F .f32) (d8 : S16x4x640.Idx → Elt F .f32) (d9 : S16x4x640.Idx → Elt F .f32) (d10 : S16x4x640.Idx → Elt F .f32) (d11 : S16x4x640.Idx → Elt F .f32) (d12 : S16x4x640.Idx → Elt F .f32) (d13 : S21x16x640.Idx → Elt F .f32) (d14 : S21x16x640.Idx → Elt F .f32) (d15 : S21x16x640.Idx → Elt F .f32) (d16 : S21x16x640.Idx → Elt F .f32) (d17 : S21x16x640.Idx → Elt F .f32) (d18 : S21x16x640.Idx → Elt F .f32) (d19 : S21x16x640.Idx → Elt F .f32) (d20 : S21x16x640.Idx → Elt F .f32) (d21 : S21x16x640.Idx → Elt F .f32) (d22 : S21x16x640.Idx → Elt F .f32) (d23 : S21x16x640.Idx → Elt F .f32) (d24 : S21x16x640.Idx → Elt F .f32) : S75x16x640.Idx → Elt F .f32 :=
  outBlk (buf m 0 c t d0) (buf m 1 c t d1) (buf m 2 c t d2) (buf m 3 c t d3) (buf m 4 c t d4) (buf m 5 c t d5) (buf m 6 c t d6) (buf m 7 c t d7) (buf m 8 c t d8) (buf m 9 c t d9) (buf m 10 c t d10) (buf m 11 c t d11) (buf m 12 c t d12) (buf m 13 c t d13) (buf m 14 c t d14) (buf m 15 c t d15) (buf m 16 c t d16) (buf m 17 c t d17) (buf m 18 c t d18) (buf m 19 c t d19) (buf m 20 c t d20) (buf m 21 c t d21) (buf m 22 c t d22) (buf m 23 c t d23) (buf m 24 c t d24)

def dats (_ : Fin 1) (c : Dev nD) : Dat τ (Elt F) Unit ℕ (UR sig nD τ) ℕ cfg0 c where
  A w := V m c (Pipeline.arrRef spec0 w)
  after w t := match w with
    | ⟨0, _⟩ => buf m 0 c t (zf S4x640)
    | ⟨1, _⟩ => buf m 1 c t (zf S16x4x640)
    | ⟨2, _⟩ => buf m 2 c t (zf S16x4x640)
    | ⟨3, _⟩ => buf m 3 c t (zf S16x4x640)
    | ⟨4, _⟩ => buf m 4 c t (zf S16x4x640)
    | ⟨5, _⟩ => buf m 5 c t (zf S16x4x640)
    | ⟨6, _⟩ => buf m 6 c t (zf S16x4x640)
    | ⟨7, _⟩ => buf m 7 c t (zf S16x4x640)
    | ⟨8, _⟩ => buf m 8 c t (zf S16x4x640)
    | ⟨9, _⟩ => buf m 9 c t (zf S16x4x640)
    | ⟨10, _⟩ => buf m 10 c t (zf S16x4x640)
    | ⟨11, _⟩ => buf m 11 c t (zf S16x4x640)
    | ⟨12, _⟩ => buf m 12 c t (zf S16x4x640)
    | ⟨13, _⟩ => buf m 13 c t (zf S21x16x640)
    | ⟨14, _⟩ => buf m 14 c t (zf S21x16x640)
    | ⟨15, _⟩ => buf m 15 c t (zf S21x16x640)
    | ⟨16, _⟩ => buf m 16 c t (zf S21x16x640)
    | ⟨17, _⟩ => buf m 17 c t (zf S21x16x640)
    | ⟨18, _⟩ => buf m 18 c t (zf S21x16x640)
    | ⟨19, _⟩ => buf m 19 c t (zf S21x16x640)
    | ⟨20, _⟩ => buf m 20 c t (zf S21x16x640)
    | ⟨21, _⟩ => buf m 21 c t (zf S21x16x640)
    | ⟨22, _⟩ => buf m 22 c t (zf S21x16x640)
    | ⟨23, _⟩ => buf m 23 c t (zf S21x16x640)
    | ⟨24, _⟩ => buf m 24 c t (zf S21x16x640)
    | ⟨25, _⟩ => outBuf m c t (zf S4x640) (zf S16x4x640) (zf S16x4x640) (zf S16x4x640) (zf S16x4x640) (zf S16x4x640) (zf S16x4x640) (zf S16x4x640) (zf S16x4x640) (zf S16x4x640) (zf S16x4x640) (zf S16x4x640) (zf S16x4x640) (zf S21x16x640) (zf S21x16x640) (zf S21x16x640) (zf S21x16x640) (zf S21x16x640) (zf S21x16x640) (zf S21x16x640) (zf S21x16x640) (zf S21x16x640) (zf S21x16x640) (zf S21x16x640) (zf S21x16x640)
    | ⟨_ + 26, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = buf m 0 c t (zf S4x640) := by dsimp only [dats]
theorem after_1 (c : Dev nD) (t : Fin cfg0.N) : (dats m 0 c).after 1 t = buf m 1 c t (zf S16x4x640) := by dsimp only [dats]
theorem after_2 (c : Dev nD) (t : Fin cfg0.N) : (dats m 0 c).after 2 t = buf m 2 c t (zf S16x4x640) := by dsimp only [dats]
theorem after_3 (c : Dev nD) (t : Fin cfg0.N) : (dats m 0 c).after 3 t = buf m 3 c t (zf S16x4x640) := by dsimp only [dats]
theorem after_4 (c : Dev nD) (t : Fin cfg0.N) : (dats m 0 c).after 4 t = buf m 4 c t (zf S16x4x640) := by dsimp only [dats]
theorem after_5 (c : Dev nD) (t : Fin cfg0.N) : (dats m 0 c).after 5 t = buf m 5 c t (zf S16x4x640) := by dsimp only [dats]
theorem after_6 (c : Dev nD) (t : Fin cfg0.N) : (dats m 0 c).after 6 t = buf m 6 c t (zf S16x4x640) := by dsimp only [dats]
theorem after_7 (c : Dev nD) (t : Fin cfg0.N) : (dats m 0 c).after 7 t = buf m 7 c t (zf S16x4x640) := by dsimp only [dats]
theorem after_8 (c : Dev nD) (t : Fin cfg0.N) : (dats m 0 c).after 8 t = buf m 8 c t (zf S16x4x640) := by dsimp only [dats]
theorem after_9 (c : Dev nD) (t : Fin cfg0.N) : (dats m 0 c).after 9 t = buf m 9 c t (zf S16x4x640) := by dsimp only [dats]
theorem after_10 (c : Dev nD) (t : Fin cfg0.N) : (dats m 0 c).after 10 t = buf m 10 c t (zf S16x4x640) := by dsimp only [dats]
theorem after_11 (c : Dev nD) (t : Fin cfg0.N) : (dats m 0 c).after 11 t = buf m 11 c t (zf S16x4x640) := by dsimp only [dats]
theorem after_12 (c : Dev nD) (t : Fin cfg0.N) : (dats m 0 c).after 12 t = buf m 12 c t (zf S16x4x640) := by dsimp only [dats]
theorem after_13 (c : Dev nD) (t : Fin cfg0.N) : (dats m 0 c).after 13 t = buf m 13 c t (zf S21x16x640) := by dsimp only [dats]
theorem after_14 (c : Dev nD) (t : Fin cfg0.N) : (dats m 0 c).after 14 t = buf m 14 c t (zf S21x16x640) := by dsimp only [dats]
theorem after_15 (c : Dev nD) (t : Fin cfg0.N) : (dats m 0 c).after 15 t = buf m 15 c t (zf S21x16x640) := by dsimp only [dats]
theorem after_16 (c : Dev nD) (t : Fin cfg0.N) : (dats m 0 c).after 16 t = buf m 16 c t (zf S21x16x640) := by dsimp only [dats]
theorem after_17 (c : Dev nD) (t : Fin cfg0.N) : (dats m 0 c).after 17 t = buf m 17 c t (zf S21x16x640) := by dsimp only [dats]
theorem after_18 (c : Dev nD) (t : Fin cfg0.N) : (dats m 0 c).after 18 t = buf m 18 c t (zf S21x16x640) := by dsimp only [dats]
theorem after_19 (c : Dev nD) (t : Fin cfg0.N) : (dats m 0 c).after 19 t = buf m 19 c t (zf S21x16x640) := by dsimp only [dats]
theorem after_20 (c : Dev nD) (t : Fin cfg0.N) : (dats m 0 c).after 20 t = buf m 20 c t (zf S21x16x640) := by dsimp only [dats]
theorem after_21 (c : Dev nD) (t : Fin cfg0.N) : (dats m 0 c).after 21 t = buf m 21 c t (zf S21x16x640) := by dsimp only [dats]
theorem after_22 (c : Dev nD) (t : Fin cfg0.N) : (dats m 0 c).after 22 t = buf m 22 c t (zf S21x16x640) := by dsimp only [dats]
theorem after_23 (c : Dev nD) (t : Fin cfg0.N) : (dats m 0 c).after 23 t = buf m 23 c t (zf S21x16x640) := by dsimp only [dats]
theorem after_24 (c : Dev nD) (t : Fin cfg0.N) : (dats m 0 c).after 24 t = buf m 24 c t (zf S21x16x640) := by dsimp only [dats]
theorem after_25 (c : Dev nD) (t : Fin cfg0.N) : (dats m 0 c).after 25 t = outBuf m c t (zf S4x640) (zf S16x4x640) (zf S16x4x640) (zf S16x4x640) (zf S16x4x640) (zf S16x4x640) (zf S16x4x640) (zf S16x4x640) (zf S16x4x640) (zf S16x4x640) (zf S16x4x640) (zf S16x4x640) (zf S16x4x640) (zf S21x16x640) (zf S21x16x640) (zf S21x16x640) (zf S21x16x640) (zf S21x16x640) (zf S21x16x640) (zf S21x16x640) (zf S21x16x640) (zf S21x16x640) (zf S21x16x640) (zf S21x16x640) (zf S21x16x640) := by dsimp only [dats]

theorem fetch_in : ∀ (w : Fin 26), w ≠ 25 → ∀ t : Fin cfg0.N, (win0 w).fetch t = true :=
  (by decide +kernel : ∀ (w : Fin 26), w ≠ 25 → ∀ t : Fin grid0.N, _)

theorem before_in (c : Dev nD) (w : Fin 26) (hw : w ≠ 25) (t : Fin cfg0.N) (d) : (dats m 0 c).before w t d = buf m w c t d := by
  unfold Dat.before; rw [if_pos (fetch_in w hw t)]; rfl

theorem before_25 (c : Dev nD) (t : Fin cfg0.N) (d) : (dats m 0 c).before 25 t d = d := by
  unfold Dat.before
  rw [if_neg (by rw [fetch0_25 t]; exact Bool.false_ne_true)]
  by_cases ht : t.val = 0
  · rw [if_pos ht]
  · rw [if_neg ht]; exact if_pos (flush0_25 _)

-- An index whose lane is below `lanes t` lies inside the block's clipped extent (one statement per input).

-- Two fillings of one input's block agree on the lanes inside the array.
theorem buf_agree (w : Fin 26) (c : Dev nD) (t : Fin cfg0.N) (d e : (win0 w).block.Idx → Elt F (win0 w).elt) :
    Agree (lanes t) (buf m w c t d) (buf m w c t e) :=
  fun j hj => fill_congr_of_moved _ _ _ _ _ _ (mv w t j hj)

set_option maxHeartbeats 800000 in
theorem cut_outBuf_indep (c : Dev nD) (t : Fin cfg0.N) (d0 : S4x640.Idx → Elt F .f32) (d1 : S16x4x640.Idx → Elt F .f32) (d2 : S16x4x640.Idx → Elt F .f32) (d3 : S16x4x640.Idx → Elt F .f32) (d4 : S16x4x640.Idx → Elt F .f32) (d5 : S16x4x640.Idx → Elt F .f32) (d6 : S16x4x640.Idx → Elt F .f32) (d7 : S16x4x640.Idx → Elt F .f32) (d8 : S16x4x640.Idx → Elt F .f32) (d9 : S16x4x640.Idx → Elt F .f32) (d10 : S16x4x640.Idx → Elt F .f32) (d11 : S16x4x640.Idx → Elt F .f32) (d12 : S16x4x640.Idx → Elt F .f32) (d13 : S21x16x640.Idx → Elt F .f32) (d14 : S21x16x640.Idx → Elt F .f32) (d15 : S21x16x640.Idx → Elt F .f32) (d16 : S21x16x640.Idx → Elt F .f32) (d17 : S21x16x640.Idx → Elt F .f32) (d18 : S21x16x640.Idx → Elt F .f32) (d19 : S21x16x640.Idx → Elt F .f32) (d20 : S21x16x640.Idx → Elt F .f32) (d21 : S21x16x640.Idx → Elt F .f32) (d22 : S21x16x640.Idx → Elt F .f32) (d23 : S21x16x640.Idx → Elt F .f32) (d24 : S21x16x640.Idx → Elt F .f32) (e0 : S4x640.Idx → Elt F .f32) (e1 : S16x4x640.Idx → Elt F .f32) (e2 : S16x4x640.Idx → Elt F .f32) (e3 : S16x4x640.Idx → Elt F .f32) (e4 : S16x4x640.Idx → Elt F .f32) (e5 : S16x4x640.Idx → Elt F .f32) (e6 : S16x4x640.Idx → Elt F .f32) (e7 : S16x4x640.Idx → Elt F .f32) (e8 : S16x4x640.Idx → Elt F .f32) (e9 : S16x4x640.Idx → Elt F .f32) (e10 : S16x4x640.Idx → Elt F .f32) (e11 : S16x4x640.Idx → Elt F .f32) (e12 : S16x4x640.Idx → Elt F .f32) (e13 : S21x16x640.Idx → Elt F .f32) (e14 : S21x16x640.Idx → Elt F .f32) (e15 : S21x16x640.Idx → Elt F .f32) (e16 : S21x16x640.Idx → Elt F .f32) (e17 : S21x16x640.Idx → Elt F .f32) (e18 : S21x16x640.Idx → Elt F .f32) (e19 : S21x16x640.Idx → Elt F .f32) (e20 : S21x16x640.Idx → Elt F .f32) (e21 : S21x16x640.Idx → Elt F .f32) (e22 : S21x16x640.Idx → Elt F .f32) (e23 : S21x16x640.Idx → Elt F .f32) (e24 : S21x16x640.Idx → Elt F .f32) :
    win0_25.cut (grid0.coords t) (outBuf m c t d0 d1 d2 d3 d4 d5 d6 d7 d8 d9 d10 d11 d12 d13 d14 d15 d16 d17 d18 d19 d20 d21 d22 d23 d24) = win0_25.cut (grid0.coords t) (outBuf m c t e0 e1 e2 e3 e4 e5 e6 e7 e8 e9 e10 e11 e12 e13 e14 e15 e16 e17 e18 e19 e20 e21 e22 e23 e24) := by
  funext j
  have hj0 : (j 0).val < 75 := Nat.lt_of_lt_of_eq (j 0).isLt (xs25 t).1
  have hj1 : (j 1).val < 16 := Nat.lt_of_lt_of_eq (j 1).isLt (xs25 t).2
  have hj2 : (j 2).val < 640 := Nat.lt_of_lt_of_le (j 2).isLt (win0_25.xsize_le (grid0.coords t) 2)
  have hl : (j 2).val < lanes t := (j 2).isLt
  have hix : win0_25.xinj (grid0.coords t) j = ValueIdx.ix3 (⟨(j 0).val, hj0⟩ : Fin 75) (⟨(j 1).val, hj1⟩ : Fin 16) (⟨(j 2).val, hj2⟩ : Fin 640) :=
    funext fun a => by
      match a with
      | ⟨0, _⟩ => rfl
      | ⟨1, _⟩ => rfl
      | ⟨2, _⟩ => rfl
  show outBuf m c t d0 d1 d2 d3 d4 d5 d6 d7 d8 d9 d10 d11 d12 d13 d14 d15 d16 d17 d18 d19 d20 d21 d22 d23 d24 (win0_25.xinj (grid0.coords t) j) = outBuf m c t e0 e1 e2 e3 e4 e5 e6 e7 e8 e9 e10 e11 e12 e13 e14 e15 e16 e17 e18 e19 e20 e21 e22 e23 e24 (win0_25.xinj (grid0.coords t) j)
  rw [hix]
  unfold outBuf
  refine (outAt_eq _ _ _ _).trans (Eq.trans ?_ (outAt_eq _ _ _ _).symm)
  exact outBlk_agree (lanes t) (buf m 0 c t d0) (buf m 0 c t e0) (buf m 1 c t d1) (buf m 2 c t d2) (buf m 3 c t d3) (buf m 4 c t d4) (buf m 5 c t d5) (buf m 6 c t d6) (buf m 7 c t d7) (buf m 8 c t d8) (buf m 9 c t d9) (buf m 10 c t d10) (buf m 11 c t d11) (buf m 12 c t d12) (buf m 1 c t e1) (buf m 2 c t e2) (buf m 3 c t e3) (buf m 4 c t e4) (buf m 5 c t e5) (buf m 6 c t e6) (buf m 7 c t e7) (buf m 8 c t e8) (buf m 9 c t e9) (buf m 10 c t e10) (buf m 11 c t e11) (buf m 12 c t e12) (buf m 13 c t d13) (buf m 14 c t d14) (buf m 15 c t d15) (buf m 16 c t d16) (buf m 17 c t d17) (buf m 18 c t d18) (buf m 19 c t d19) (buf m 20 c t d20) (buf m 21 c t d21) (buf m 22 c t d22) (buf m 23 c t d23) (buf m 24 c t d24) (buf m 13 c t e13) (buf m 14 c t e14) (buf m 15 c t e15) (buf m 16 c t e16) (buf m 17 c t e17) (buf m 18 c t e18) (buf m 19 c t e19) (buf m 20 c t e20) (buf m 21 c t e21) (buf m 22 c t e22) (buf m 23 c t e23) (buf m 24 c t e24) (buf_agree m 0 c t _ _) (buf_agree m 1 c t _ _) (buf_agree m 2 c t _ _) (buf_agree m 3 c t _ _) (buf_agree m 4 c t _ _) (buf_agree m 5 c t _ _) (buf_agree m 6 c t _ _) (buf_agree m 7 c t _ _) (buf_agree m 8 c t _ _) (buf_agree m 9 c t _ _) (buf_agree m 10 c t _ _) (buf_agree m 11 c t _ _) (buf_agree m 12 c t _ _) (buf_agree m 13 c t _ _) (buf_agree m 14 c t _ _) (buf_agree m 15 c t _ _) (buf_agree m 16 c t _ _) (buf_agree m 17 c t _ _) (buf_agree m 18 c t _ _) (buf_agree m 19 c t _ _) (buf_agree m 20 c t _ _) (buf_agree m 21 c t _ _) (buf_agree m 22 c t _ _) (buf_agree m 23 c t _ _) (buf_agree m 24 c t _ _)
    ⟨(j 0).val, hj0⟩ ⟨(j 1).val, hj1⟩ ⟨(j 2).val, hj2⟩ hl

theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ d, owns (c : Thread nD τ) (st0_7 t) fullShare ((dats m 0 c).before 7 t d))
      ∗ (∃ d, owns (c : Thread nD τ) (st0_8 t) fullShare ((dats m 0 c).before 8 t d))
      ∗ (∃ d, owns (c : Thread nD τ) (st0_9 t) fullShare ((dats m 0 c).before 9 t d))
      ∗ (∃ d, owns (c : Thread nD τ) (st0_10 t) fullShare ((dats m 0 c).before 10 t d))
      ∗ (∃ d, owns (c : Thread nD τ) (st0_11 t) fullShare ((dats m 0 c).before 11 t d))
      ∗ (∃ d, owns (c : Thread nD τ) (st0_12 t) fullShare ((dats m 0 c).before 12 t d))
      ∗ (∃ d, owns (c : Thread nD τ) (st0_13 t) fullShare ((dats m 0 c).before 13 t d))
      ∗ (∃ d, owns (c : Thread nD τ) (st0_14 t) fullShare ((dats m 0 c).before 14 t d))
      ∗ (∃ d, owns (c : Thread nD τ) (st0_15 t) fullShare ((dats m 0 c).before 15 t d))
      ∗ (∃ d, owns (c : Thread nD τ) (st0_16 t) fullShare ((dats m 0 c).before 16 t d))
      ∗ (∃ d, owns (c : Thread nD τ) (st0_17 t) fullShare ((dats m 0 c).before 17 t d))
      ∗ (∃ d, owns (c : Thread nD τ) (st0_18 t) fullShare ((dats m 0 c).before 18 t d))
      ∗ (∃ d, owns (c : Thread nD τ) (st0_19 t) fullShare ((dats m 0 c).before 19 t d))
      ∗ (∃ d, owns (c : Thread nD τ) (st0_20 t) fullShare ((dats m 0 c).before 20 t d))
      ∗ (∃ d, owns (c : Thread nD τ) (st0_21 t) fullShare ((dats m 0 c).before 21 t d))
      ∗ (∃ d, owns (c : Thread nD τ) (st0_22 t) fullShare ((dats m 0 c).before 22 t d))
      ∗ (∃ d, owns (c : Thread nD τ) (st0_23 t) fullShare ((dats m 0 c).before 23 t d))
      ∗ (∃ d, owns (c : Thread nD τ) (st0_24 t) fullShare ((dats m 0 c).before 24 t d))
      ∗ (∃ d, owns (c : Thread nD τ) (st0_25 t) fullShare ((dats m 0 c).before 25 t d)))
    ⊢ wp frame (wpE (defs₀ (F := F)) Variants.none c none) Set.univ (bodyAt0 t) (fun _ =>
      iprop((dats m 0 c).Φ t.succ ∗ (dats m 0 c).owesAt () t.succ
        ∗ (∃ d, owns (c : Thread nD τ) (st0_0 t) fullShare (win0_0.fill (grid0.coords t) d (win0_0.cut (grid0.coords t) ((dats m 0 c).after 0 t))))
        ∗ (∃ d, owns (c : Thread nD τ) (st0_1 t) fullShare (win0_1.fill (grid0.coords t) d (win0_1.cut (grid0.coords t) ((dats m 0 c).after 1 t))))
        ∗ (∃ d, owns (c : Thread nD τ) (st0_2 t) fullShare (win0_2.fill (grid0.coords t) d (win0_2.cut (grid0.coords t) ((dats m 0 c).after 2 t))))
        ∗ (∃ d, owns (c : Thread nD τ) (st0_3 t) fullShare (win0_3.fill (grid0.coords t) d (win0_3.cut (grid0.coords t) ((dats m 0 c).after 3 t))))
        ∗ (∃ d, owns (c : Thread nD τ) (st0_4 t) fullShare (win0_4.fill (grid0.coords t) d (win0_4.cut (grid0.coords t) ((dats m 0 c).after 4 t))))
        ∗ (∃ d, owns (c : Thread nD τ) (st0_5 t) fullShare (win0_5.fill (grid0.coords t) d (win0_5.cut (grid0.coords t) ((dats m 0 c).after 5 t))))
        ∗ (∃ d, owns (c : Thread nD τ) (st0_6 t) fullShare (win0_6.fill (grid0.coords t) d (win0_6.cut (grid0.coords t) ((dats m 0 c).after 6 t))))
        ∗ (∃ d, owns (c : Thread nD τ) (st0_7 t) fullShare (win0_7.fill (grid0.coords t) d (win0_7.cut (grid0.coords t) ((dats m 0 c).after 7 t))))
        ∗ (∃ d, owns (c : Thread nD τ) (st0_8 t) fullShare (win0_8.fill (grid0.coords t) d (win0_8.cut (grid0.coords t) ((dats m 0 c).after 8 t))))
        ∗ (∃ d, owns (c : Thread nD τ) (st0_9 t) fullShare (win0_9.fill (grid0.coords t) d (win0_9.cut (grid0.coords t) ((dats m 0 c).after 9 t))))
        ∗ (∃ d, owns (c : Thread nD τ) (st0_10 t) fullShare (win0_10.fill (grid0.coords t) d (win0_10.cut (grid0.coords t) ((dats m 0 c).after 10 t))))
        ∗ (∃ d, owns (c : Thread nD τ) (st0_11 t) fullShare (win0_11.fill (grid0.coords t) d (win0_11.cut (grid0.coords t) ((dats m 0 c).after 11 t))))
        ∗ (∃ d, owns (c : Thread nD τ) (st0_12 t) fullShare (win0_12.fill (grid0.coords t) d (win0_12.cut (grid0.coords t) ((dats m 0 c).after 12 t))))
        ∗ (∃ d, owns (c : Thread nD τ) (st0_13 t) fullShare (win0_13.fill (grid0.coords t) d (win0_13.cut (grid0.coords t) ((dats m 0 c).after 13 t))))
        ∗ (∃ d, owns (c : Thread nD τ) (st0_14 t) fullShare (win0_14.fill (grid0.coords t) d (win0_14.cut (grid0.coords t) ((dats m 0 c).after 14 t))))
        ∗ (∃ d, owns (c : Thread nD τ) (st0_15 t) fullShare (win0_15.fill (grid0.coords t) d (win0_15.cut (grid0.coords t) ((dats m 0 c).after 15 t))))
        ∗ (∃ d, owns (c : Thread nD τ) (st0_16 t) fullShare (win0_16.fill (grid0.coords t) d (win0_16.cut (grid0.coords t) ((dats m 0 c).after 16 t))))
        ∗ (∃ d, owns (c : Thread nD τ) (st0_17 t) fullShare (win0_17.fill (grid0.coords t) d (win0_17.cut (grid0.coords t) ((dats m 0 c).after 17 t))))
        ∗ (∃ d, owns (c : Thread nD τ) (st0_18 t) fullShare (win0_18.fill (grid0.coords t) d (win0_18.cut (grid0.coords t) ((dats m 0 c).after 18 t))))
        ∗ (∃ d, owns (c : Thread nD τ) (st0_19 t) fullShare (win0_19.fill (grid0.coords t) d (win0_19.cut (grid0.coords t) ((dats m 0 c).after 19 t))))
        ∗ (∃ d, owns (c : Thread nD τ) (st0_20 t) fullShare (win0_20.fill (grid0.coords t) d (win0_20.cut (grid0.coords t) ((dats m 0 c).after 20 t))))
        ∗ (∃ d, owns (c : Thread nD τ) (st0_21 t) fullShare (win0_21.fill (grid0.coords t) d (win0_21.cut (grid0.coords t) ((dats m 0 c).after 21 t))))
        ∗ (∃ d, owns (c : Thread nD τ) (st0_22 t) fullShare (win0_22.fill (grid0.coords t) d (win0_22.cut (grid0.coords t) ((dats m 0 c).after 22 t))))
        ∗ (∃ d, owns (c : Thread nD τ) (st0_23 t) fullShare (win0_23.fill (grid0.coords t) d (win0_23.cut (grid0.coords t) ((dats m 0 c).after 23 t))))
        ∗ (∃ d, owns (c : Thread nD τ) (st0_24 t) fullShare (win0_24.fill (grid0.coords t) d (win0_24.cut (grid0.coords t) ((dats m 0 c).after 24 t))))
        ∗ (∃ d, owns (c : Thread nD τ) (st0_25 t) fullShare (win0_25.fill (grid0.coords t) d (win0_25.cut (grid0.coords t) ((dats m 0 c).after 25 t)))))) := by
  unfold bodyAt0
  rw [show (dats m 0 c).Φ t.succ = (dats m 0 c).Φ t.castSucc from rfl,
    show (dats m 0 c).owesAt () t.succ = (dats m 0 c).owesAt () t.castSucc from rfl]
  simp (disch := decide) only [before_in, before_25, after_0, after_1, after_2, after_3, after_4, after_5, after_6, after_7, after_8, after_9, after_10, after_11, after_12, after_13, after_14, after_15, after_16, after_17, after_18, after_19, after_20, after_21, after_22, after_23, after_24, after_25, buf, Pipeline.Window.cut_fill]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ (buf m 0 c t d0) (buf m 1 c t d1) (buf m 2 c t d2) (buf m 3 c t d3) (buf m 4 c t d4) (buf m 5 c t d5) (buf m 6 c t d6) (buf m 7 c t d7) (buf m 8 c t d8) (buf m 9 c t d9) (buf m 10 c t d10) (buf m 11 c t d11) (buf m 12 c t d12) (buf m 13 c t d13) (buf m 14 c t d14) (buf m 15 c t d15) (buf m 16 c t d16) (buf m 17 c t d17) (buf m 18 c t d18) (buf m 19 c t d19) (buf m 20 c t d20) (buf m 21 c t d21) (buf m 22 c t d22) (buf m 23 c t d23) (buf m 24 c t d24) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  iintro ⟨H0, H1, H2, H3, H4, H5, H6, H7, H8, H9, H10, H11, H12, H13, H14, H15, H16, H17, H18, H19, H20, H21, H22, H23, H24, H25⟩
  isplitl [HΦ]; · iexact HΦ
  isplitl [Ho]; · iexact Ho
  isplitl [H0]; · iexists d0; iexact H0
  isplitl [H1]; · iexists d1; iexact H1
  isplitl [H2]; · iexists d2; iexact H2
  isplitl [H3]; · iexists d3; iexact H3
  isplitl [H4]; · iexists d4; iexact H4
  isplitl [H5]; · iexists d5; iexact H5
  isplitl [H6]; · iexists d6; iexact H6
  isplitl [H7]; · iexists d7; iexact H7
  isplitl [H8]; · iexists d8; iexact H8
  isplitl [H9]; · iexists d9; iexact H9
  isplitl [H10]; · iexists d10; iexact H10
  isplitl [H11]; · iexists d11; iexact H11
  isplitl [H12]; · iexists d12; iexact H12
  isplitl [H13]; · iexists d13; iexact H13
  isplitl [H14]; · iexists d14; iexact H14
  isplitl [H15]; · iexists d15; iexact H15
  isplitl [H16]; · iexists d16; iexact H16
  isplitl [H17]; · iexists d17; iexact H17
  isplitl [H18]; · iexists d18; iexact H18
  isplitl [H19]; · iexists d19; iexact H19
  isplitl [H20]; · iexists d20; iexact H20
  isplitl [H21]; · iexists d21; iexact H21
  isplitl [H22]; · iexists d22; iexact H22
  isplitl [H23]; · iexists d23; iexact H23
  isplitl [H24]; · iexists d24; iexact H24
  · iexists outBuf m c t d0 d1 d2 d3 d4 d5 d6 d7 d8 d9 d10 d11 d12 d13 d14 d15 d16 d17 d18 d19 d20 d21 d22 d23 d24
    rw [cut_outBuf_indep m c t (zf S4x640) (zf S16x4x640) (zf S16x4x640) (zf S16x4x640) (zf S16x4x640) (zf S16x4x640) (zf S16x4x640) (zf S16x4x640) (zf S16x4x640) (zf S16x4x640) (zf S16x4x640) (zf S16x4x640) (zf S16x4x640) (zf S21x16x640) (zf S21x16x640) (zf S21x16x640) (zf S21x16x640) (zf S21x16x640) (zf S21x16x640) (zf S21x16x640) (zf S21x16x640) (zf S21x16x640) (zf S21x16x640) (zf S21x16x640) (zf S21x16x640) d0 d1 d2 d3 d4 d5 d6 d7 d8 d9 d10 d11 d12 d13 d14 d15 d16 d17 d18 d19 d20 d21 d22 d23 d24, win0_25.fill_cut]
    iexact H25

theorem body_obligation (c : Dev nD) : BodyObligationLoose (dats (F := F) m 0 c) (defs₀ (F := F)) Variants.none () Set.univ := fun t => by
  rw [bigSep_W0, bigSep_W0]
  exact sound_body m c t

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.KernelIdeal.Body
end
-- ==== Proof.SpecChan.lean ====
import proofs.«160245_g86517821215618_cont_9to1_m_1401_10_alg».proof.Proof.Spec

noncomputable section

namespace Cert.Spec

open Idealize.ShloMosaic

variable {F : FTy → Type} [FloatOps F] {B B' N N' : Type}

def LocIn.comap₂ {α : Type} (L : LocIn α B N) (g : B' → B) (f : N' → N) : LocIn α B' N' :=
  ⟨fun b c p => L.m1 (g b) c (f p), fun b c p => L.s1 (g b) c (f p), fun b c p => L.w1 (g b) c (f p),
   fun b c p => L.m2 (g b) c (f p), fun b c p => L.s2 (g b) c (f p), fun b c p => L.w2 (g b) c (f p),
   fun b c p => L.m3 (g b) c (f p), fun b c p => L.s3 (g b) c (f p), fun b c p => L.w3 (g b) c (f p),
   fun b c p => L.m4 (g b) c (f p), fun b c p => L.s4 (g b) c (f p), fun b c p => L.w4 (g b) c (f p)⟩

def ConfIn.comap₂ {α : Type} (C : ConfIn α B N) (g : B' → B) (f : N' → N) : ConfIn α B' N' :=
  ⟨fun q b p => C.a1 q (g b) (f p), fun q b p => C.t1 q (g b) (f p), fun q b p => C.q1 q (g b) (f p),
   fun q b p => C.a2 q (g b) (f p), fun q b p => C.t2 q (g b) (f p), fun q b p => C.q2 q (g b) (f p),
   fun q b p => C.a3 q (g b) (f p), fun q b p => C.t3 q (g b) (f p), fun q b p => C.q3 q (g b) (f p),
   fun q b p => C.a4 q (g b) (f p), fun q b p => C.t4 q (g b) (f p), fun q b p => C.q4 q (g b) (f p)⟩

theorem Fused.comap₂ {pr : Fin 4 → N → F .f32} {L : LocIn (F .f32) B N} {C : ConfIn (F .f32) B N} {o : Fin 75 → B → N → F .f32}
    (h : Fused pr L C o) (g : B' → B) (f : N' → N) :
    Fused (fun c p => pr c (f p)) (L.comap₂ g f) (C.comap₂ g f) (fun k b p => o k (g b) (f p)) :=
  ⟨fun b p => h.lo0 (g b) (f p), fun b p => h.lo1 (g b) (f p), fun b p => h.hi0 (g b) (f p), fun b p => h.hi1 (g b) (f p),
   fun c b p => h.al c (g b) (f p), fun c b p => h.ep c (g b) (f p), fun q b p => h.nc q (g b) (f p),
   fun q b p => h.ca q (g b) (f p), fun q b p => h.ce q (g b) (f p)⟩

def chan (pr : Fin 4 → N → F .f32) (L : LocIn (F .f32) B N) (C : ConfIn (F .f32) B N) (k : Fin 75) (b : B) (p : N) : F .f32 :=
  if k.val = 0 then boxLo (pr 0 p) (locMean L b 0 p) (pr 2 p) (locMean L b 2 p)
  else if k.val = 1 then boxLo (pr 1 p) (locMean L b 1 p) (pr 3 p) (locMean L b 3 p)
  else if k.val = 2 then boxHi (pr 0 p) (locMean L b 0 p) (pr 2 p) (locMean L b 2 p)
  else if k.val = 3 then boxHi (pr 1 p) (locMean L b 1 p) (pr 3 p) (locMean L b 3 p)
  else if h8 : k.val < 8 then locAl L b ⟨(k.val - 4) % 4, Nat.mod_lt _ (by decide)⟩ p
  else if h12 : k.val < 12 then locEp L b ⟨(k.val - 8) % 4, Nat.mod_lt _ (by decide)⟩ p
  else if h33 : k.val < 33 then confMean C ⟨(k.val - 12) % 21, Nat.mod_lt _ (by decide)⟩ b p
  else if h54 : k.val < 54 then confAl C ⟨(k.val - 33) % 21, Nat.mod_lt _ (by decide)⟩ b p
  else confEp C ⟨(k.val - 54) % 21, Nat.mod_lt _ (by decide)⟩ b p

theorem chan_fused (pr : Fin 4 → N → F .f32) (L : LocIn (F .f32) B N) (C : ConfIn (F .f32) B N) : Fused pr L C (chan pr L C) where
  lo0 b p := by unfold chan; rw [if_pos (show (0 : Fin 75).val = 0 from rfl)]
  lo1 b p := by unfold chan; rw [if_neg (show ¬((1 : Fin 75).val = 0) by decide), if_pos (show (1 : Fin 75).val = 1 from rfl)]
  hi0 b p := by unfold chan; rw [if_neg (show ¬((2 : Fin 75).val = 0) by decide), if_neg (show ¬((2 : Fin 75).val = 1) by decide), if_pos (show (2 : Fin 75).val = 2 from rfl)]
  hi1 b p := by unfold chan; rw [if_neg (show ¬((3 : Fin 75).val = 0) by decide), if_neg (show ¬((3 : Fin 75).val = 1) by decide), if_neg (show ¬((3 : Fin 75).val = 2) by decide), if_pos (show (3 : Fin 75).val = 3 from rfl)]
  al c b p := by
    have hc := c.isLt
    unfold chan
    rw [if_neg (show ¬(4 + c.val = 0) by omega), if_neg (show ¬(4 + c.val = 1) by omega), if_neg (show ¬(4 + c.val = 2) by omega),
      if_neg (show ¬(4 + c.val = 3) by omega), dif_pos (show 4 + c.val < 8 by omega)]
    congr 1; apply Fin.ext; show (4 + c.val - 4) % 4 = c.val; rw [Nat.add_sub_cancel_left, Nat.mod_eq_of_lt hc]
  ep c b p := by
    have hc := c.isLt
    unfold chan
    rw [if_neg (show ¬(8 + c.val = 0) by omega), if_neg (show ¬(8 + c.val = 1) by omega), if_neg (show ¬(8 + c.val = 2) by omega),
      if_neg (show ¬(8 + c.val = 3) by omega), dif_neg (show ¬(8 + c.val < 8) by omega), dif_pos (show 8 + c.val < 12 by omega)]
    congr 1; apply Fin.ext; show (8 + c.val - 8) % 4 = c.val; rw [Nat.add_sub_cancel_left, Nat.mod_eq_of_lt hc]
  nc q b p := by
    have hq := q.isLt
    unfold chan
    rw [if_neg (show ¬(12 + q.val = 0) by omega), if_neg (show ¬(12 + q.val = 1) by omega), if_neg (show ¬(12 + q.val = 2) by omega),
      if_neg (show ¬(12 + q.val = 3) by omega), dif_neg (show ¬(12 + q.val < 8) by omega), dif_neg (show ¬(12 + q.val < 12) by omega),
      dif_pos (show 12 + q.val < 33 by omega)]
    congr 1; apply Fin.ext; show (12 + q.val - 12) % 21 = q.val; rw [Nat.add_sub_cancel_left, Nat.mod_eq_of_lt hq]
  ca q b p := by
    have hq := q.isLt
    unfold chan
    rw [if_neg (show ¬(33 + q.val = 0) by omega), if_neg (show ¬(33 + q.val = 1) by omega), if_neg (show ¬(33 + q.val = 2) by omega),
      if_neg (show ¬(33 + q.val = 3) by omega), dif_neg (show ¬(33 + q.val < 8) by omega), dif_neg (show ¬(33 + q.val < 12) by omega),
      dif_neg (show ¬(33 + q.val < 33) by omega), dif_pos (show 33 + q.val < 54 by omega)]
    congr 1; apply Fin.ext; show (33 + q.val - 33) % 21 = q.val; rw [Nat.add_sub_cancel_left, Nat.mod_eq_of_lt hq]
  ce q b p := by
    have hq := q.isLt
    unfold chan
    rw [if_neg (show ¬(54 + q.val = 0) by omega), if_neg (show ¬(54 + q.val = 1) by omega), if_neg (show ¬(54 + q.val = 2) by omega),
      if_neg (show ¬(54 + q.val = 3) by omega), dif_neg (show ¬(54 + q.val < 8) by omega), dif_neg (show ¬(54 + q.val < 12) by omega),
      dif_neg (show ¬(54 + q.val < 33) by omega), dif_neg (show ¬(54 + q.val < 54) by omega)]
    congr 1; apply Fin.ext; show (54 + q.val - 54) % 21 = q.val; rw [Nat.add_sub_cancel_left, Nat.mod_eq_of_lt hq]

theorem Fused.eq_chan {pr : Fin 4 → N → F .f32} {L : LocIn (F .f32) B N} {C : ConfIn (F .f32) B N} {o : Fin 75 → B → N → F .f32}
    (h : Fused pr L C o) : o = chan pr L C := h.ext (chan_fused pr L C)

end Cert.Spec
end
-- ==== Proof.KValue.lean ====
import proofs.«160245_g86517821215618_cont_9to1_m_1401_10_alg».proof.Proof.FrameK
import proofs.«160245_g86517821215618_cont_9to1_m_1401_10_alg».proof.Proof.SpecChan
import Idealize.ShloMosaic.Lib.Pipeline.Value
import Idealize.ShloMosaic.Lib.StableHlo.Run

set_option maxRecDepth 16384

noncomputable section

namespace Cert.KernelIdeal.Body

open Cert.KernelIdeal Cert.KernelIdeal.Gen
open Cert.Block
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

attribute [local irreducible] outBlk

variable (m : (ℓ : Loc nD τ sig) → Buf (Elt F) ℓ) (ρ : Dev nD → PrngReg)

-- Every input's block offsets are the output's on the image and box axes and zero on the others.
theorem ixP : ∀ t : Fin cfg0.N, win0_0.index t 0 = 0 ∧ win0_0.index t 1 = win0_25.index t 2 :=
  (by decide +kernel : ∀ t : Fin grid0.N, _)

theorem ix1 : ∀ t : Fin cfg0.N, win0_1.index t 0 = win0_25.index t 1 ∧ win0_1.index t 1 = 0 ∧ win0_1.index t 2 = win0_25.index t 2 :=
  (by decide +kernel : ∀ t : Fin grid0.N, _)

theorem ix2 : ∀ t : Fin cfg0.N, win0_2.index t 0 = win0_25.index t 1 ∧ win0_2.index t 1 = 0 ∧ win0_2.index t 2 = win0_25.index t 2 :=
  (by decide +kernel : ∀ t : Fin grid0.N, _)

theorem ix3 : ∀ t : Fin cfg0.N, win0_3.index t 0 = win0_25.index t 1 ∧ win0_3.index t 1 = 0 ∧ win0_3.index t 2 = win0_25.index t 2 :=
  (by decide +kernel : ∀ t : Fin grid0.N, _)

theorem ix4 : ∀ t : Fin cfg0.N, win0_4.index t 0 = win0_25.index t 1 ∧ win0_4.index t 1 = 0 ∧ win0_4.index t 2 = win0_25.index t 2 :=
  (by decide +kernel : ∀ t : Fin grid0.N, _)

theorem ix5 : ∀ t : Fin cfg0.N, win0_5.index t 0 = win0_25.index t 1 ∧ win0_5.index t 1 = 0 ∧ win0_5.index t 2 = win0_25.index t 2 :=
  (by decide +kernel : ∀ t : Fin grid0.N, _)

theorem ix6 : ∀ t : Fin cfg0.N, win0_6.index t 0 = win0_25.index t 1 ∧ win0_6.index t 1 = 0 ∧ win0_6.index t 2 = win0_25.index t 2 :=
  (by decide +kernel : ∀ t : Fin grid0.N, _)

theorem ix7 : ∀ t : Fin cfg0.N, win0_7.index t 0 = win0_25.index t 1 ∧ win0_7.index t 1 = 0 ∧ win0_7.index t 2 = win0_25.index t 2 :=
  (by decide +kernel : ∀ t : Fin grid0.N, _)

theorem ix8 : ∀ t : Fin cfg0.N, win0_8.index t 0 = win0_25.index t 1 ∧ win0_8.index t 1 = 0 ∧ win0_8.index t 2 = win0_25.index t 2 :=
  (by decide +kernel : ∀ t : Fin grid0.N, _)

theorem ix9 : ∀ t : Fin cfg0.N, win0_9.index t 0 = win0_25.index t 1 ∧ win0_9.index t 1 = 0 ∧ win0_9.index t 2 = win0_25.index t 2 :=
  (by decide +kernel : ∀ t : Fin grid0.N, _)

theorem ix10 : ∀ t : Fin cfg0.N, win0_10.index t 0 = win0_25.index t 1 ∧ win0_10.index t 1 = 0 ∧ win0_10.index t 2 = win0_25.index t 2 :=
  (by decide +kernel : ∀ t : Fin grid0.N, _)

theorem ix11 : ∀ t : Fin cfg0.N, win0_11.index t 0 = win0_25.index t 1 ∧ win0_11.index t 1 = 0 ∧ win0_11.index t 2 = win0_25.index t 2 :=
  (by decide +kernel : ∀ t : Fin grid0.N, _)

theorem ix12 : ∀ t : Fin cfg0.N, win0_12.index t 0 = win0_25.index t 1 ∧ win0_12.index t 1 = 0 ∧ win0_12.index t 2 = win0_25.index t 2 :=
  (by decide +kernel : ∀ t : Fin grid0.N, _)

theorem ix13 : ∀ t : Fin cfg0.N, win0_13.index t 0 = 0 ∧ win0_13.index t 1 = win0_25.index t 1 ∧ win0_13.index t 2 = win0_25.index t 2 :=
  (by decide +kernel : ∀ t : Fin grid0.N, _)

theorem ix14 : ∀ t : Fin cfg0.N, win0_14.index t 0 = 0 ∧ win0_14.index t 1 = win0_25.index t 1 ∧ win0_14.index t 2 = win0_25.index t 2 :=
  (by decide +kernel : ∀ t : Fin grid0.N, _)

theorem ix15 : ∀ t : Fin cfg0.N, win0_15.index t 0 = 0 ∧ win0_15.index t 1 = win0_25.index t 1 ∧ win0_15.index t 2 = win0_25.index t 2 :=
  (by decide +kernel : ∀ t : Fin grid0.N, _)

theorem ix16 : ∀ t : Fin cfg0.N, win0_16.index t 0 = 0 ∧ win0_16.index t 1 = win0_25.index t 1 ∧ win0_16.index t 2 = win0_25.index t 2 :=
  (by decide +kernel : ∀ t : Fin grid0.N, _)

theorem ix17 : ∀ t : Fin cfg0.N, win0_17.index t 0 = 0 ∧ win0_17.index t 1 = win0_25.index t 1 ∧ win0_17.index t 2 = win0_25.index t 2 :=
  (by decide +kernel : ∀ t : Fin grid0.N, _)

theorem ix18 : ∀ t : Fin cfg0.N, win0_18.index t 0 = 0 ∧ win0_18.index t 1 = win0_25.index t 1 ∧ win0_18.index t 2 = win0_25.index t 2 :=
  (by decide +kernel : ∀ t : Fin grid0.N, _)

theorem ix19 : ∀ t : Fin cfg0.N, win0_19.index t 0 = 0 ∧ win0_19.index t 1 = win0_25.index t 1 ∧ win0_19.index t 2 = win0_25.index t 2 :=
  (by decide +kernel : ∀ t : Fin grid0.N, _)

theorem ix20 : ∀ t : Fin cfg0.N, win0_20.index t 0 = 0 ∧ win0_20.index t 1 = win0_25.index t 1 ∧ win0_20.index t 2 = win0_25.index t 2 :=
  (by decide +kernel : ∀ t : Fin grid0.N, _)

theorem ix21 : ∀ t : Fin cfg0.N, win0_21.index t 0 = 0 ∧ win0_21.index t 1 = win0_25.index t 1 ∧ win0_21.index t 2 = win0_25.index t 2 :=
  (by decide +kernel : ∀ t : Fin grid0.N, _)

theorem ix22 : ∀ t : Fin cfg0.N, win0_22.index t 0 = 0 ∧ win0_22.index t 1 = win0_25.index t 1 ∧ win0_22.index t 2 = win0_25.index t 2 :=
  (by decide +kernel : ∀ t : Fin grid0.N, _)

theorem ix23 : ∀ t : Fin cfg0.N, win0_23.index t 0 = 0 ∧ win0_23.index t 1 = win0_25.index t 1 ∧ win0_23.index t 2 = win0_25.index t 2 :=
  (by decide +kernel : ∀ t : Fin grid0.N, _)

theorem ix24 : ∀ t : Fin cfg0.N, win0_24.index t 0 = 0 ∧ win0_24.index t 1 = win0_25.index t 1 ∧ win0_24.index t 2 = win0_25.index t 2 :=
  (by decide +kernel : ∀ t : Fin grid0.N, _)

theorem ix25 : ∀ t : Fin cfg0.N, win0_25.index t 0 = 0 ∧ win0_25.index t 1 < 2 ∧ win0_25.index t 2 < 14
    ∧ lanes t ≤ 640 ∧ win0_25.index t 2 * 640 + lanes t ≤ 8732
    ∧ (win0_25.index t 2 * 640 + 640 ≤ 8732 → lanes t = 640) ∧ (8732 ≤ win0_25.index t 2 * 640 + 640 → win0_25.index t 2 * 640 + lanes t = 8732) :=
  (by decide +kernel : ∀ t : Fin grid0.N, _)

theorem onto25 : ∀ (q1 : Fin 2) (q2 : Fin 14), ∃ t : Fin cfg0.N, win0_25.index t 1 = q1.val ∧ win0_25.index t 2 = q2.val :=
  (by decide +kernel : ∀ (q1 : Fin 2) (q2 : Fin 14), ∃ t : Fin grid0.N, win0_25.index t 1 = q1.val ∧ win0_25.index t 2 = q2.val)

def imgOf (t : Fin cfg0.N) (b : Fin 16) : Fin 32 :=
  ⟨win0_25.index t 1 * 16 + b.val, by have := (ix25 t).2.1; have := b.isLt; omega⟩

def boxOf (t : Fin cfg0.N) (p : {p : Fin 640 // p.val < lanes t}) : Fin 8732 :=
  ⟨win0_25.index t 2 * 640 + p.1.val, by have := (ix25 t).2.2.2.2.1; have := p.2; omega⟩

-- Inside the array a block entry is the array's entry at the block's offset.
theorem rd0 (c : Dev nD) (t : Fin cfg0.N) (d : S4x640.Idx → Elt F .f32) (c' : Fin 4) (p : {p : Fin 640 // p.val < lanes t}) :
    buf m 0 c t d (ValueIdx.ix2 c' p.1) = (V m c main_v24 : S4x8732.Idx → Elt F .f32) (ValueIdx.ix2 c' (boxOf t p)) := by
  unfold buf Pipeline.Window.fill
  rw [dif_pos (mv 0 t _ (last2 c' p.1 p.2))]
  show (V m c main_v24 : S4x8732.Idx → Elt F .f32) (((cfg0.win 0).blk t).view.emb _) = _
  refine congrArg _ ?_
  funext a; apply Fin.ext
  match a with
  | ⟨0, _⟩ => show win0_0.index t 0 * 4 + 1 * c'.val = c'.val; rw [(ixP t).1]; omega
  | ⟨1, _⟩ => show win0_0.index t 1 * 640 + 1 * p.1.val = win0_25.index t 2 * 640 + p.1.val; rw [(ixP t).2]; omega

theorem rd1 (c : Dev nD) (t : Fin cfg0.N) (d : S16x4x640.Idx → Elt F .f32) (b : Fin 16) (c' : Fin 4) (p : {p : Fin 640 // p.val < lanes t}) :
    buf m 1 c t d (ValueIdx.ix3 b c' p.1) = (V m c main_v0 : S32x4x8732.Idx → Elt F .f32) (ValueIdx.ix3 (imgOf t b) c' (boxOf t p)) := by
  unfold buf Pipeline.Window.fill
  rw [dif_pos (mv 1 t _ (last3 b c' p.1 p.2))]
  show (V m c main_v0 : S32x4x8732.Idx → Elt F .f32) (((cfg0.win 1).blk t).view.emb _) = _
  refine congrArg _ ?_
  funext a; apply Fin.ext
  match a with
  | ⟨0, _⟩ => show win0_1.index t 0 * 16 + 1 * b.val = win0_25.index t 1 * 16 + b.val; rw [(ix1 t).1]; omega
  | ⟨1, _⟩ => show win0_1.index t 1 * 4 + 1 * c'.val = c'.val; rw [(ix1 t).2.1]; omega
  | ⟨2, _⟩ => show win0_1.index t 2 * 640 + 1 * p.1.val = win0_25.index t 2 * 640 + p.1.val; rw [(ix1 t).2.2]; omega

theorem rd2 (c : Dev nD) (t : Fin cfg0.N) (d : S16x4x640.Idx → Elt F .f32) (b : Fin 16) (c' : Fin 4) (p : {p : Fin 640 // p.val < lanes t}) :
    buf m 2 c t d (ValueIdx.ix3 b c' p.1) = (V m c main_v1 : S32x4x8732.Idx → Elt F .f32) (ValueIdx.ix3 (imgOf t b) c' (boxOf t p)) := by
  unfold buf Pipeline.Window.fill
  rw [dif_pos (mv 2 t _ (last3 b c' p.1 p.2))]
  show (V m c main_v1 : S32x4x8732.Idx → Elt F .f32) (((cfg0.win 2).blk t).view.emb _) = _
  refine congrArg _ ?_
  funext a; apply Fin.ext
  match a with
  | ⟨0, _⟩ => show win0_2.index t 0 * 16 + 1 * b.val = win0_25.index t 1 * 16 + b.val; rw [(ix2 t).1]; omega
  | ⟨1, _⟩ => show win0_2.index t 1 * 4 + 1 * c'.val = c'.val; rw [(ix2 t).2.1]; omega
  | ⟨2, _⟩ => show win0_2.index t 2 * 640 + 1 * p.1.val = win0_25.index t 2 * 640 + p.1.val; rw [(ix2 t).2.2]; omega

theorem rd3 (c : Dev nD) (t : Fin cfg0.N) (d : S16x4x640.Idx → Elt F .f32) (b : Fin 16) (c' : Fin 4) (p : {p : Fin 640 // p.val < lanes t}) :
    buf m 3 c t d (ValueIdx.ix3 b c' p.1) = (V m c main_v2 : S32x4x8732.Idx → Elt F .f32) (ValueIdx.ix3 (imgOf t b) c' (boxOf t p)) := by
  unfold buf Pipeline.Window.fill
  rw [dif_pos (mv 3 t _ (last3 b c' p.1 p.2))]
  show (V m c main_v2 : S32x4x8732.Idx → Elt F .f32) (((cfg0.win 3).blk t).view.emb _) = _
  refine congrArg _ ?_
  funext a; apply Fin.ext
  match a with
  | ⟨0, _⟩ => show win0_3.index t 0 * 16 + 1 * b.val = win0_25.index t 1 * 16 + b.val; rw [(ix3 t).1]; omega
  | ⟨1, _⟩ => show win0_3.index t 1 * 4 + 1 * c'.val = c'.val; rw [(ix3 t).2.1]; omega
  | ⟨2, _⟩ => show win0_3.index t 2 * 640 + 1 * p.1.val = win0_25.index t 2 * 640 + p.1.val; rw [(ix3 t).2.2]; omega

theorem rd4 (c : Dev nD) (t : Fin cfg0.N) (d : S16x4x640.Idx → Elt F .f32) (b : Fin 16) (c' : Fin 4) (p : {p : Fin 640 // p.val < lanes t}) :
    buf m 4 c t d (ValueIdx.ix3 b c' p.1) = (V m c main_v3 : S32x4x8732.Idx → Elt F .f32) (ValueIdx.ix3 (imgOf t b) c' (boxOf t p)) := by
  unfold buf Pipeline.Window.fill
  rw [dif_pos (mv 4 t _ (last3 b c' p.1 p.2))]
  show (V m c main_v3 : S32x4x8732.Idx → Elt F .f32) (((cfg0.win 4).blk t).view.emb _) = _
  refine congrArg _ ?_
  funext a; apply Fin.ext
  match a with
  | ⟨0, _⟩ => show win0_4.index t 0 * 16 + 1 * b.val = win0_25.index t 1 * 16 + b.val; rw [(ix4 t).1]; omega
  | ⟨1, _⟩ => show win0_4.index t 1 * 4 + 1 * c'.val = c'.val; rw [(ix4 t).2.1]; omega
  | ⟨2, _⟩ => show win0_4.index t 2 * 640 + 1 * p.1.val = win0_25.index t 2 * 640 + p.1.val; rw [(ix4 t).2.2]; omega

theorem rd5 (c : Dev nD) (t : Fin cfg0.N) (d : S16x4x640.Idx → Elt F .f32) (b : Fin 16) (c' : Fin 4) (p : {p : Fin 640 // p.val < lanes t}) :
    buf m 5 c t d (ValueIdx.ix3 b c' p.1) = (V m c main_v4 : S32x4x8732.Idx → Elt F .f32) (ValueIdx.ix3 (imgOf t b) c' (boxOf t p)) := by
  unfold buf Pipeline.Window.fill
  rw [dif_pos (mv 5 t _ (last3 b c' p.1 p.2))]
  show (V m c main_v4 : S32x4x8732.Idx → Elt F .f32) (((cfg0.win 5).blk t).view.emb _) = _
  refine congrArg _ ?_
  funext a; apply Fin.ext
  match a with
  | ⟨0, _⟩ => show win0_5.index t 0 * 16 + 1 * b.val = win0_25.index t 1 * 16 + b.val; rw [(ix5 t).1]; omega
  | ⟨1, _⟩ => show win0_5.index t 1 * 4 + 1 * c'.val = c'.val; rw [(ix5 t).2.1]; omega
  | ⟨2, _⟩ => show win0_5.index t 2 * 640 + 1 * p.1.val = win0_25.index t 2 * 640 + p.1.val; rw [(ix5 t).2.2]; omega

theorem rd6 (c : Dev nD) (t : Fin cfg0.N) (d : S16x4x640.Idx → Elt F .f32) (b : Fin 16) (c' : Fin 4) (p : {p : Fin 640 // p.val < lanes t}) :
    buf m 6 c t d (ValueIdx.ix3 b c' p.1) = (V m c main_v5 : S32x4x8732.Idx → Elt F .f32) (ValueIdx.ix3 (imgOf t b) c' (boxOf t p)) := by
  unfold buf Pipeline.Window.fill
  rw [dif_pos (mv 6 t _ (last3 b c' p.1 p.2))]
  show (V m c main_v5 : S32x4x8732.Idx → Elt F .f32) (((cfg0.win 6).blk t).view.emb _) = _
  refine congrArg _ ?_
  funext a; apply Fin.ext
  match a with
  | ⟨0, _⟩ => show win0_6.index t 0 * 16 + 1 * b.val = win0_25.index t 1 * 16 + b.val; rw [(ix6 t).1]; omega
  | ⟨1, _⟩ => show win0_6.index t 1 * 4 + 1 * c'.val = c'.val; rw [(ix6 t).2.1]; omega
  | ⟨2, _⟩ => show win0_6.index t 2 * 640 + 1 * p.1.val = win0_25.index t 2 * 640 + p.1.val; rw [(ix6 t).2.2]; omega

theorem rd7 (c : Dev nD) (t : Fin cfg0.N) (d : S16x4x640.Idx → Elt F .f32) (b : Fin 16) (c' : Fin 4) (p : {p : Fin 640 // p.val < lanes t}) :
    buf m 7 c t d (ValueIdx.ix3 b c' p.1) = (V m c main_v6 : S32x4x8732.Idx → Elt F .f32) (ValueIdx.ix3 (imgOf t b) c' (boxOf t p)) := by
  unfold buf Pipeline.Window.fill
  rw [dif_pos (mv 7 t _ (last3 b c' p.1 p.2))]
  show (V m c main_v6 : S32x4x8732.Idx → Elt F .f32) (((cfg0.win 7).blk t).view.emb _) = _
  refine congrArg _ ?_
  funext a; apply Fin.ext
  match a with
  | ⟨0, _⟩ => show win0_7.index t 0 * 16 + 1 * b.val = win0_25.index t 1 * 16 + b.val; rw [(ix7 t).1]; omega
  | ⟨1, _⟩ => show win0_7.index t 1 * 4 + 1 * c'.val = c'.val; rw [(ix7 t).2.1]; omega
  | ⟨2, _⟩ => show win0_7.index t 2 * 640 + 1 * p.1.val = win0_25.index t 2 * 640 + p.1.val; rw [(ix7 t).2.2]; omega

theorem rd8 (c : Dev nD) (t : Fin cfg0.N) (d : S16x4x640.Idx → Elt F .f32) (b : Fin 16) (c' : Fin 4) (p : {p : Fin 640 // p.val < lanes t}) :
    buf m 8 c t d (ValueIdx.ix3 b c' p.1) = (V m c main_v7 : S32x4x8732.Idx → Elt F .f32) (ValueIdx.ix3 (imgOf t b) c' (boxOf t p)) := by
  unfold buf Pipeline.Window.fill
  rw [dif_pos (mv 8 t _ (last3 b c' p.1 p.2))]
  show (V m c main_v7 : S32x4x8732.Idx → Elt F .f32) (((cfg0.win 8).blk t).view.emb _) = _
  refine congrArg _ ?_
  funext a; apply Fin.ext
  match a with
  | ⟨0, _⟩ => show win0_8.index t 0 * 16 + 1 * b.val = win0_25.index t 1 * 16 + b.val; rw [(ix8 t).1]; omega
  | ⟨1, _⟩ => show win0_8.index t 1 * 4 + 1 * c'.val = c'.val; rw [(ix8 t).2.1]; omega
  | ⟨2, _⟩ => show win0_8.index t 2 * 640 + 1 * p.1.val = win0_25.index t 2 * 640 + p.1.val; rw [(ix8 t).2.2]; omega

theorem rd9 (c : Dev nD) (t : Fin cfg0.N) (d : S16x4x640.Idx → Elt F .f32) (b : Fin 16) (c' : Fin 4) (p : {p : Fin 640 // p.val < lanes t}) :
    buf m 9 c t d (ValueIdx.ix3 b c' p.1) = (V m c main_v8 : S32x4x8732.Idx → Elt F .f32) (ValueIdx.ix3 (imgOf t b) c' (boxOf t p)) := by
  unfold buf Pipeline.Window.fill
  rw [dif_pos (mv 9 t _ (last3 b c' p.1 p.2))]
  show (V m c main_v8 : S32x4x8732.Idx → Elt F .f32) (((cfg0.win 9).blk t).view.emb _) = _
  refine congrArg _ ?_
  funext a; apply Fin.ext
  match a with
  | ⟨0, _⟩ => show win0_9.index t 0 * 16 + 1 * b.val = win0_25.index t 1 * 16 + b.val; rw [(ix9 t).1]; omega
  | ⟨1, _⟩ => show win0_9.index t 1 * 4 + 1 * c'.val = c'.val; rw [(ix9 t).2.1]; omega
  | ⟨2, _⟩ => show win0_9.index t 2 * 640 + 1 * p.1.val = win0_25.index t 2 * 640 + p.1.val; rw [(ix9 t).2.2]; omega

theorem rd10 (c : Dev nD) (t : Fin cfg0.N) (d : S16x4x640.Idx → Elt F .f32) (b : Fin 16) (c' : Fin 4) (p : {p : Fin 640 // p.val < lanes t}) :
    buf m 10 c t d (ValueIdx.ix3 b c' p.1) = (V m c main_v9 : S32x4x8732.Idx → Elt F .f32) (ValueIdx.ix3 (imgOf t b) c' (boxOf t p)) := by
  unfold buf Pipeline.Window.fill
  rw [dif_pos (mv 10 t _ (last3 b c' p.1 p.2))]
  show (V m c main_v9 : S32x4x8732.Idx → Elt F .f32) (((cfg0.win 10).blk t).view.emb _) = _
  refine congrArg _ ?_
  funext a; apply Fin.ext
  match a with
  | ⟨0, _⟩ => show win0_10.index t 0 * 16 + 1 * b.val = win0_25.index t 1 * 16 + b.val; rw [(ix10 t).1]; omega
  | ⟨1, _⟩ => show win0_10.index t 1 * 4 + 1 * c'.val = c'.val; rw [(ix10 t).2.1]; omega
  | ⟨2, _⟩ => show win0_10.index t 2 * 640 + 1 * p.1.val = win0_25.index t 2 * 640 + p.1.val; rw [(ix10 t).2.2]; omega

theorem rd11 (c : Dev nD) (t : Fin cfg0.N) (d : S16x4x640.Idx → Elt F .f32) (b : Fin 16) (c' : Fin 4) (p : {p : Fin 640 // p.val < lanes t}) :
    buf m 11 c t d (ValueIdx.ix3 b c' p.1) = (V m c main_v10 : S32x4x8732.Idx → Elt F .f32) (ValueIdx.ix3 (imgOf t b) c' (boxOf t p)) := by
  unfold buf Pipeline.Window.fill
  rw [dif_pos (mv 11 t _ (last3 b c' p.1 p.2))]
  show (V m c main_v10 : S32x4x8732.Idx → Elt F .f32) (((cfg0.win 11).blk t).view.emb _) = _
  refine congrArg _ ?_
  funext a; apply Fin.ext
  match a with
  | ⟨0, _⟩ => show win0_11.index t 0 * 16 + 1 * b.val = win0_25.index t 1 * 16 + b.val; rw [(ix11 t).1]; omega
  | ⟨1, _⟩ => show win0_11.index t 1 * 4 + 1 * c'.val = c'.val; rw [(ix11 t).2.1]; omega
  | ⟨2, _⟩ => show win0_11.index t 2 * 640 + 1 * p.1.val = win0_25.index t 2 * 640 + p.1.val; rw [(ix11 t).2.2]; omega

theorem rd12 (c : Dev nD) (t : Fin cfg0.N) (d : S16x4x640.Idx → Elt F .f32) (b : Fin 16) (c' : Fin 4) (p : {p : Fin 640 // p.val < lanes t}) :
    buf m 12 c t d (ValueIdx.ix3 b c' p.1) = (V m c main_v11 : S32x4x8732.Idx → Elt F .f32) (ValueIdx.ix3 (imgOf t b) c' (boxOf t p)) := by
  unfold buf Pipeline.Window.fill
  rw [dif_pos (mv 12 t _ (last3 b c' p.1 p.2))]
  show (V m c main_v11 : S32x4x8732.Idx → Elt F .f32) (((cfg0.win 12).blk t).view.emb _) = _
  refine congrArg _ ?_
  funext a; apply Fin.ext
  match a with
  | ⟨0, _⟩ => show win0_12.index t 0 * 16 + 1 * b.val = win0_25.index t 1 * 16 + b.val; rw [(ix12 t).1]; omega
  | ⟨1, _⟩ => show win0_12.index t 1 * 4 + 1 * c'.val = c'.val; rw [(ix12 t).2.1]; omega
  | ⟨2, _⟩ => show win0_12.index t 2 * 640 + 1 * p.1.val = win0_25.index t 2 * 640 + p.1.val; rw [(ix12 t).2.2]; omega

theorem rd13 (c : Dev nD) (t : Fin cfg0.N) (d : S21x16x640.Idx → Elt F .f32) (q : Fin 21) (b : Fin 16) (p : {p : Fin 640 // p.val < lanes t}) :
    buf m 13 c t d (ValueIdx.ix3 q b p.1) = (V m c main_v12 : S21x32x8732.Idx → Elt F .f32) (ValueIdx.ix3 q (imgOf t b) (boxOf t p)) := by
  unfold buf Pipeline.Window.fill
  rw [dif_pos (mv 13 t _ (last3 q b p.1 p.2))]
  show (V m c main_v12 : S21x32x8732.Idx → Elt F .f32) (((cfg0.win 13).blk t).view.emb _) = _
  refine congrArg _ ?_
  funext a; apply Fin.ext
  match a with
  | ⟨0, _⟩ => show win0_13.index t 0 * 21 + 1 * q.val = q.val; rw [(ix13 t).1]; omega
  | ⟨1, _⟩ => show win0_13.index t 1 * 16 + 1 * b.val = win0_25.index t 1 * 16 + b.val; rw [(ix13 t).2.1]; omega
  | ⟨2, _⟩ => show win0_13.index t 2 * 640 + 1 * p.1.val = win0_25.index t 2 * 640 + p.1.val; rw [(ix13 t).2.2]; omega

theorem rd14 (c : Dev nD) (t : Fin cfg0.N) (d : S21x16x640.Idx → Elt F .f32) (q : Fin 21) (b : Fin 16) (p : {p : Fin 640 // p.val < lanes t}) :
    buf m 14 c t d (ValueIdx.ix3 q b p.1) = (V m c main_v13 : S21x32x8732.Idx → Elt F .f32) (ValueIdx.ix3 q (imgOf t b) (boxOf t p)) := by
  unfold buf Pipeline.Window.fill
  rw [dif_pos (mv 14 t _ (last3 q b p.1 p.2))]
  show (V m c main_v13 : S21x32x8732.Idx → Elt F .f32) (((cfg0.win 14).blk t).view.emb _) = _
  refine congrArg _ ?_
  funext a; apply Fin.ext
  match a with
  | ⟨0, _⟩ => show win0_14.index t 0 * 21 + 1 * q.val = q.val; rw [(ix14 t).1]; omega
  | ⟨1, _⟩ => show win0_14.index t 1 * 16 + 1 * b.val = win0_25.index t 1 * 16 + b.val; rw [(ix14 t).2.1]; omega
  | ⟨2, _⟩ => show win0_14.index t 2 * 640 + 1 * p.1.val = win0_25.index t 2 * 640 + p.1.val; rw [(ix14 t).2.2]; omega

theorem rd15 (c : Dev nD) (t : Fin cfg0.N) (d : S21x16x640.Idx → Elt F .f32) (q : Fin 21) (b : Fin 16) (p : {p : Fin 640 // p.val < lanes t}) :
    buf m 15 c t d (ValueIdx.ix3 q b p.1) = (V m c main_v14 : S21x32x8732.Idx → Elt F .f32) (ValueIdx.ix3 q (imgOf t b) (boxOf t p)) := by
  unfold buf Pipeline.Window.fill
  rw [dif_pos (mv 15 t _ (last3 q b p.1 p.2))]
  show (V m c main_v14 : S21x32x8732.Idx → Elt F .f32) (((cfg0.win 15).blk t).view.emb _) = _
  refine congrArg _ ?_
  funext a; apply Fin.ext
  match a with
  | ⟨0, _⟩ => show win0_15.index t 0 * 21 + 1 * q.val = q.val; rw [(ix15 t).1]; omega
  | ⟨1, _⟩ => show win0_15.index t 1 * 16 + 1 * b.val = win0_25.index t 1 * 16 + b.val; rw [(ix15 t).2.1]; omega
  | ⟨2, _⟩ => show win0_15.index t 2 * 640 + 1 * p.1.val = win0_25.index t 2 * 640 + p.1.val; rw [(ix15 t).2.2]; omega

theorem rd16 (c : Dev nD) (t : Fin cfg0.N) (d : S21x16x640.Idx → Elt F .f32) (q : Fin 21) (b : Fin 16) (p : {p : Fin 640 // p.val < lanes t}) :
    buf m 16 c t d (ValueIdx.ix3 q b p.1) = (V m c main_v15 : S21x32x8732.Idx → Elt F .f32) (ValueIdx.ix3 q (imgOf t b) (boxOf t p)) := by
  unfold buf Pipeline.Window.fill
  rw [dif_pos (mv 16 t _ (last3 q b p.1 p.2))]
  show (V m c main_v15 : S21x32x8732.Idx → Elt F .f32) (((cfg0.win 16).blk t).view.emb _) = _
  refine congrArg _ ?_
  funext a; apply Fin.ext
  match a with
  | ⟨0, _⟩ => show win0_16.index t 0 * 21 + 1 * q.val = q.val; rw [(ix16 t).1]; omega
  | ⟨1, _⟩ => show win0_16.index t 1 * 16 + 1 * b.val = win0_25.index t 1 * 16 + b.val; rw [(ix16 t).2.1]; omega
  | ⟨2, _⟩ => show win0_16.index t 2 * 640 + 1 * p.1.val = win0_25.index t 2 * 640 + p.1.val; rw [(ix16 t).2.2]; omega

theorem rd17 (c : Dev nD) (t : Fin cfg0.N) (d : S21x16x640.Idx → Elt F .f32) (q : Fin 21) (b : Fin 16) (p : {p : Fin 640 // p.val < lanes t}) :
    buf m 17 c t d (ValueIdx.ix3 q b p.1) = (V m c main_v16 : S21x32x8732.Idx → Elt F .f32) (ValueIdx.ix3 q (imgOf t b) (boxOf t p)) := by
  unfold buf Pipeline.Window.fill
  rw [dif_pos (mv 17 t _ (last3 q b p.1 p.2))]
  show (V m c main_v16 : S21x32x8732.Idx → Elt F .f32) (((cfg0.win 17).blk t).view.emb _) = _
  refine congrArg _ ?_
  funext a; apply Fin.ext
  match a with
  | ⟨0, _⟩ => show win0_17.index t 0 * 21 + 1 * q.val = q.val; rw [(ix17 t).1]; omega
  | ⟨1, _⟩ => show win0_17.index t 1 * 16 + 1 * b.val = win0_25.index t 1 * 16 + b.val; rw [(ix17 t).2.1]; omega
  | ⟨2, _⟩ => show win0_17.index t 2 * 640 + 1 * p.1.val = win0_25.index t 2 * 640 + p.1.val; rw [(ix17 t).2.2]; omega

theorem rd18 (c : Dev nD) (t : Fin cfg0.N) (d : S21x16x640.Idx → Elt F .f32) (q : Fin 21) (b : Fin 16) (p : {p : Fin 640 // p.val < lanes t}) :
    buf m 18 c t d (ValueIdx.ix3 q b p.1) = (V m c main_v17 : S21x32x8732.Idx → Elt F .f32) (ValueIdx.ix3 q (imgOf t b) (boxOf t p)) := by
  unfold buf Pipeline.Window.fill
  rw [dif_pos (mv 18 t _ (last3 q b p.1 p.2))]
  show (V m c main_v17 : S21x32x8732.Idx → Elt F .f32) (((cfg0.win 18).blk t).view.emb _) = _
  refine congrArg _ ?_
  funext a; apply Fin.ext
  match a with
  | ⟨0, _⟩ => show win0_18.index t 0 * 21 + 1 * q.val = q.val; rw [(ix18 t).1]; omega
  | ⟨1, _⟩ => show win0_18.index t 1 * 16 + 1 * b.val = win0_25.index t 1 * 16 + b.val; rw [(ix18 t).2.1]; omega
  | ⟨2, _⟩ => show win0_18.index t 2 * 640 + 1 * p.1.val = win0_25.index t 2 * 640 + p.1.val; rw [(ix18 t).2.2]; omega

theorem rd19 (c : Dev nD) (t : Fin cfg0.N) (d : S21x16x640.Idx → Elt F .f32) (q : Fin 21) (b : Fin 16) (p : {p : Fin 640 // p.val < lanes t}) :
    buf m 19 c t d (ValueIdx.ix3 q b p.1) = (V m c main_v18 : S21x32x8732.Idx → Elt F .f32) (ValueIdx.ix3 q (imgOf t b) (boxOf t p)) := by
  unfold buf Pipeline.Window.fill
  rw [dif_pos (mv 19 t _ (last3 q b p.1 p.2))]
  show (V m c main_v18 : S21x32x8732.Idx → Elt F .f32) (((cfg0.win 19).blk t).view.emb _) = _
  refine congrArg _ ?_
  funext a; apply Fin.ext
  match a with
  | ⟨0, _⟩ => show win0_19.index t 0 * 21 + 1 * q.val = q.val; rw [(ix19 t).1]; omega
  | ⟨1, _⟩ => show win0_19.index t 1 * 16 + 1 * b.val = win0_25.index t 1 * 16 + b.val; rw [(ix19 t).2.1]; omega
  | ⟨2, _⟩ => show win0_19.index t 2 * 640 + 1 * p.1.val = win0_25.index t 2 * 640 + p.1.val; rw [(ix19 t).2.2]; omega

theorem rd20 (c : Dev nD) (t : Fin cfg0.N) (d : S21x16x640.Idx → Elt F .f32) (q : Fin 21) (b : Fin 16) (p : {p : Fin 640 // p.val < lanes t}) :
    buf m 20 c t d (ValueIdx.ix3 q b p.1) = (V m c main_v19 : S21x32x8732.Idx → Elt F .f32) (ValueIdx.ix3 q (imgOf t b) (boxOf t p)) := by
  unfold buf Pipeline.Window.fill
  rw [dif_pos (mv 20 t _ (last3 q b p.1 p.2))]
  show (V m c main_v19 : S21x32x8732.Idx → Elt F .f32) (((cfg0.win 20).blk t).view.emb _) = _
  refine congrArg _ ?_
  funext a; apply Fin.ext
  match a with
  | ⟨0, _⟩ => show win0_20.index t 0 * 21 + 1 * q.val = q.val; rw [(ix20 t).1]; omega
  | ⟨1, _⟩ => show win0_20.index t 1 * 16 + 1 * b.val = win0_25.index t 1 * 16 + b.val; rw [(ix20 t).2.1]; omega
  | ⟨2, _⟩ => show win0_20.index t 2 * 640 + 1 * p.1.val = win0_25.index t 2 * 640 + p.1.val; rw [(ix20 t).2.2]; omega

theorem rd21 (c : Dev nD) (t : Fin cfg0.N) (d : S21x16x640.Idx → Elt F .f32) (q : Fin 21) (b : Fin 16) (p : {p : Fin 640 // p.val < lanes t}) :
    buf m 21 c t d (ValueIdx.ix3 q b p.1) = (V m c main_v20 : S21x32x8732.Idx → Elt F .f32) (ValueIdx.ix3 q (imgOf t b) (boxOf t p)) := by
  unfold buf Pipeline.Window.fill
  rw [dif_pos (mv 21 t _ (last3 q b p.1 p.2))]
  show (V m c main_v20 : S21x32x8732.Idx → Elt F .f32) (((cfg0.win 21).blk t).view.emb _) = _
  refine congrArg _ ?_
  funext a; apply Fin.ext
  match a with
  | ⟨0, _⟩ => show win0_21.index t 0 * 21 + 1 * q.val = q.val; rw [(ix21 t).1]; omega
  | ⟨1, _⟩ => show win0_21.index t 1 * 16 + 1 * b.val = win0_25.index t 1 * 16 + b.val; rw [(ix21 t).2.1]; omega
  | ⟨2, _⟩ => show win0_21.index t 2 * 640 + 1 * p.1.val = win0_25.index t 2 * 640 + p.1.val; rw [(ix21 t).2.2]; omega

theorem rd22 (c : Dev nD) (t : Fin cfg0.N) (d : S21x16x640.Idx → Elt F .f32) (q : Fin 21) (b : Fin 16) (p : {p : Fin 640 // p.val < lanes t}) :
    buf m 22 c t d (ValueIdx.ix3 q b p.1) = (V m c main_v21 : S21x32x8732.Idx → Elt F .f32) (ValueIdx.ix3 q (imgOf t b) (boxOf t p)) := by
  unfold buf Pipeline.Window.fill
  rw [dif_pos (mv 22 t _ (last3 q b p.1 p.2))]
  show (V m c main_v21 : S21x32x8732.Idx → Elt F .f32) (((cfg0.win 22).blk t).view.emb _) = _
  refine congrArg _ ?_
  funext a; apply Fin.ext
  match a with
  | ⟨0, _⟩ => show win0_22.index t 0 * 21 + 1 * q.val = q.val; rw [(ix22 t).1]; omega
  | ⟨1, _⟩ => show win0_22.index t 1 * 16 + 1 * b.val = win0_25.index t 1 * 16 + b.val; rw [(ix22 t).2.1]; omega
  | ⟨2, _⟩ => show win0_22.index t 2 * 640 + 1 * p.1.val = win0_25.index t 2 * 640 + p.1.val; rw [(ix22 t).2.2]; omega

theorem rd23 (c : Dev nD) (t : Fin cfg0.N) (d : S21x16x640.Idx → Elt F .f32) (q : Fin 21) (b : Fin 16) (p : {p : Fin 640 // p.val < lanes t}) :
    buf m 23 c t d (ValueIdx.ix3 q b p.1) = (V m c main_v22 : S21x32x8732.Idx → Elt F .f32) (ValueIdx.ix3 q (imgOf t b) (boxOf t p)) := by
  unfold buf Pipeline.Window.fill
  rw [dif_pos (mv 23 t _ (last3 q b p.1 p.2))]
  show (V m c main_v22 : S21x32x8732.Idx → Elt F .f32) (((cfg0.win 23).blk t).view.emb _) = _
  refine congrArg _ ?_
  funext a; apply Fin.ext
  match a with
  | ⟨0, _⟩ => show win0_23.index t 0 * 21 + 1 * q.val = q.val; rw [(ix23 t).1]; omega
  | ⟨1, _⟩ => show win0_23.index t 1 * 16 + 1 * b.val = win0_25.index t 1 * 16 + b.val; rw [(ix23 t).2.1]; omega
  | ⟨2, _⟩ => show win0_23.index t 2 * 640 + 1 * p.1.val = win0_25.index t 2 * 640 + p.1.val; rw [(ix23 t).2.2]; omega

theorem rd24 (c : Dev nD) (t : Fin cfg0.N) (d : S21x16x640.Idx → Elt F .f32) (q : Fin 21) (b : Fin 16) (p : {p : Fin 640 // p.val < lanes t}) :
    buf m 24 c t d (ValueIdx.ix3 q b p.1) = (V m c main_v23 : S21x32x8732.Idx → Elt F .f32) (ValueIdx.ix3 q (imgOf t b) (boxOf t p)) := by
  unfold buf Pipeline.Window.fill
  rw [dif_pos (mv 24 t _ (last3 q b p.1 p.2))]
  show (V m c main_v23 : S21x32x8732.Idx → Elt F .f32) (((cfg0.win 24).blk t).view.emb _) = _
  refine congrArg _ ?_
  funext a; apply Fin.ext
  match a with
  | ⟨0, _⟩ => show win0_24.index t 0 * 21 + 1 * q.val = q.val; rw [(ix24 t).1]; omega
  | ⟨1, _⟩ => show win0_24.index t 1 * 16 + 1 * b.val = win0_25.index t 1 * 16 + b.val; rw [(ix24 t).2.1]; omega
  | ⟨2, _⟩ => show win0_24.index t 2 * 640 + 1 * p.1.val = win0_25.index t 2 * 640 + p.1.val; rw [(ix24 t).2.2]; omega

def prT (c : Dev nD) : Fin 4 → Fin 8732 → F .f32 := fun c' p => (V m c main_v24 : S4x8732.Idx → Elt F .f32) (ValueIdx.ix2 c' p)

def locInT (c : Dev nD) : Spec.LocIn (F .f32) (Fin 32) (Fin 8732) :=
  ⟨fun b c' p => (V m c main_v0 : S32x4x8732.Idx → Elt F .f32) (ValueIdx.ix3 b c' p),
   fun b c' p => (V m c main_v1 : S32x4x8732.Idx → Elt F .f32) (ValueIdx.ix3 b c' p),
   fun b c' p => (V m c main_v2 : S32x4x8732.Idx → Elt F .f32) (ValueIdx.ix3 b c' p),
   fun b c' p => (V m c main_v3 : S32x4x8732.Idx → Elt F .f32) (ValueIdx.ix3 b c' p),
   fun b c' p => (V m c main_v4 : S32x4x8732.Idx → Elt F .f32) (ValueIdx.ix3 b c' p),
   fun b c' p => (V m c main_v5 : S32x4x8732.Idx → Elt F .f32) (ValueIdx.ix3 b c' p),
   fun b c' p => (V m c main_v6 : S32x4x8732.Idx → Elt F .f32) (ValueIdx.ix3 b c' p),
   fun b c' p => (V m c main_v7 : S32x4x8732.Idx → Elt F .f32) (ValueIdx.ix3 b c' p),
   fun b c' p => (V m c main_v8 : S32x4x8732.Idx → Elt F .f32) (ValueIdx.ix3 b c' p),
   fun b c' p => (V m c main_v9 : S32x4x8732.Idx → Elt F .f32) (ValueIdx.ix3 b c' p),
   fun b c' p => (V m c main_v10 : S32x4x8732.Idx → Elt F .f32) (ValueIdx.ix3 b c' p),
   fun b c' p => (V m c main_v11 : S32x4x8732.Idx → Elt F .f32) (ValueIdx.ix3 b c' p)⟩

def confInT (c : Dev nD) : Spec.ConfIn (F .f32) (Fin 32) (Fin 8732) :=
  ⟨fun q b p => (V m c main_v12 : S21x32x8732.Idx → Elt F .f32) (ValueIdx.ix3 q b p),
   fun q b p => (V m c main_v13 : S21x32x8732.Idx → Elt F .f32) (ValueIdx.ix3 q b p),
   fun q b p => (V m c main_v14 : S21x32x8732.Idx → Elt F .f32) (ValueIdx.ix3 q b p),
   fun q b p => (V m c main_v15 : S21x32x8732.Idx → Elt F .f32) (ValueIdx.ix3 q b p),
   fun q b p => (V m c main_v16 : S21x32x8732.Idx → Elt F .f32) (ValueIdx.ix3 q b p),
   fun q b p => (V m c main_v17 : S21x32x8732.Idx → Elt F .f32) (ValueIdx.ix3 q b p),
   fun q b p => (V m c main_v18 : S21x32x8732.Idx → Elt F .f32) (ValueIdx.ix3 q b p),
   fun q b p => (V m c main_v19 : S21x32x8732.Idx → Elt F .f32) (ValueIdx.ix3 q b p),
   fun q b p => (V m c main_v20 : S21x32x8732.Idx → Elt F .f32) (ValueIdx.ix3 q b p),
   fun q b p => (V m c main_v21 : S21x32x8732.Idx → Elt F .f32) (ValueIdx.ix3 q b p),
   fun q b p => (V m c main_v22 : S21x32x8732.Idx → Elt F .f32) (ValueIdx.ix3 q b p),
   fun q b p => (V m c main_v23 : S21x32x8732.Idx → Elt F .f32) (ValueIdx.ix3 q b p)⟩

def outT (c : Dev nD) : S75x32x8732.Idx → Elt F .f32 :=
  fun i => Spec.chan (prT m c) (locInT m c) (confInT m c) (i 0) (i 1) (i 2)

theorem fused_eq_of_eq {B N : Type} {pr pr' : Fin 4 → N → F .f32} {L L' : Spec.LocIn (F .f32) B N} {C C' : Spec.ConfIn (F .f32) B N}
    {o o' : Fin 75 → B → N → F .f32} (h : Spec.Fused pr L C o) (h' : Spec.Fused pr' L' C' o') (e0 : pr = pr') (eL : L = L')
    (eC : C = C') (k : Fin 75) (b : B) (p : N) : o k b p = o' k b p := by
  subst e0 eL eC; exact h.eq_at h' k b p

-- What a grid point writes back is the fusion of the arrays at that point's images and boxes.
set_option maxHeartbeats 1000000 in
theorem flushed_eq (c : Dev nD) (t : Fin cfg0.N) :
    (dats m 0 c).flushed 25 t = ((cfg0.win 25).blk t).view.read (Elt F) (outT m c) := by
  show (cfg0.win 25).cut (grid0.coords t) ((dats m 0 c).after 25 t) = _
  rw [after_25]
  funext y
  have hy0 : (y 0).val < 75 := Nat.lt_of_lt_of_eq (y 0).isLt (xs25 t).1
  have hy1 : (y 1).val < 16 := Nat.lt_of_lt_of_eq (y 1).isLt (xs25 t).2
  have hy2 : (y 2).val < 640 := Nat.lt_of_lt_of_le (y 2).isLt (win0_25.xsize_le (grid0.coords t) 2)
  have hl : (y 2).val < lanes t := (y 2).isLt
  have hix : win0_25.xinj (grid0.coords t) y = ValueIdx.ix3 (⟨(y 0).val, hy0⟩ : Fin 75) (⟨(y 1).val, hy1⟩ : Fin 16) (⟨(y 2).val, hy2⟩ : Fin 640) :=
    funext fun a => by
      match a with
      | ⟨0, _⟩ => rfl
      | ⟨1, _⟩ => rfl
      | ⟨2, _⟩ => rfl
  have hemb : ((cfg0.win 25).blk t).view.emb y
      = ValueIdx.ix3 (⟨(y 0).val, hy0⟩ : Fin 75) (imgOf t ⟨(y 1).val, hy1⟩) (boxOf t ⟨⟨(y 2).val, hy2⟩, hl⟩) := by
    funext a; apply Fin.ext
    match a with
    | ⟨0, _⟩ => show win0_25.index t 0 * 75 + 1 * (y 0).val = (y 0).val; rw [(ix25 t).1]; omega
    | ⟨1, _⟩ => show win0_25.index t 1 * 16 + 1 * (y 1).val = win0_25.index t 1 * 16 + (y 1).val; omega
    | ⟨2, _⟩ => show win0_25.index t 2 * 640 + 1 * (y 2).val = win0_25.index t 2 * 640 + (y 2).val; omega
  show outBuf m c t (zf S4x640) (zf S16x4x640) (zf S16x4x640) (zf S16x4x640) (zf S16x4x640) (zf S16x4x640) (zf S16x4x640) (zf S16x4x640) (zf S16x4x640) (zf S16x4x640) (zf S16x4x640) (zf S16x4x640) (zf S16x4x640) (zf S21x16x640) (zf S21x16x640) (zf S21x16x640) (zf S21x16x640) (zf S21x16x640) (zf S21x16x640) (zf S21x16x640) (zf S21x16x640) (zf S21x16x640) (zf S21x16x640) (zf S21x16x640) (zf S21x16x640) (win0_25.xinj (grid0.coords t) y) = outT m c (((cfg0.win 25).blk t).view.emb y)
  rw [hix, hemb]
  unfold outBuf
  refine (outAt_eq _ _ _ _).trans ?_
  show _ = Spec.chan (prT m c) (locInT m c) (confInT m c) (⟨(y 0).val, hy0⟩ : Fin 75) (imgOf t ⟨(y 1).val, hy1⟩) (boxOf t ⟨⟨(y 2).val, hy2⟩, hl⟩)
  have hB := (outBlk_fused (buf m 0 c t (zf S4x640)) (buf m 1 c t (zf S16x4x640)) (buf m 2 c t (zf S16x4x640)) (buf m 3 c t (zf S16x4x640)) (buf m 4 c t (zf S16x4x640)) (buf m 5 c t (zf S16x4x640)) (buf m 6 c t (zf S16x4x640)) (buf m 7 c t (zf S16x4x640)) (buf m 8 c t (zf S16x4x640)) (buf m 9 c t (zf S16x4x640)) (buf m 10 c t (zf S16x4x640)) (buf m 11 c t (zf S16x4x640)) (buf m 12 c t (zf S16x4x640)) (buf m 13 c t (zf S21x16x640)) (buf m 14 c t (zf S21x16x640)) (buf m 15 c t (zf S21x16x640)) (buf m 16 c t (zf S21x16x640)) (buf m 17 c t (zf S21x16x640)) (buf m 18 c t (zf S21x16x640)) (buf m 19 c t (zf S21x16x640)) (buf m 20 c t (zf S21x16x640)) (buf m 21 c t (zf S21x16x640)) (buf m 22 c t (zf S21x16x640)) (buf m 23 c t (zf S21x16x640)) (buf m 24 c t (zf S21x16x640))).comap (fun p : {p : Fin 640 // p.val < lanes t} => p.1)
  have hT := (Spec.chan_fused (prT m c) (locInT m c) (confInT m c)).comap₂ (imgOf t) (boxOf t)
  refine fused_eq_of_eq hB hT ?_ ?_ ?_ (⟨(y 0).val, hy0⟩ : Fin 75) (⟨(y 1).val, hy1⟩ : Fin 16) ⟨⟨(y 2).val, hy2⟩, hl⟩
  · funext c' p; exact rd0 m c t _ c' p
  · unfold locInB locInT Spec.LocIn.comap Spec.LocIn.comap₂
    simp only [rd1, rd2, rd3, rd4, rd5, rd6, rd7, rd8, rd9, rd10, rd11, rd12]
  · unfold confInB confInT Spec.ConfIn.comap Spec.ConfIn.comap₂
    simp only [rd13, rd14, rd15, rd16, rd17, rd18, rd19, rd20, rd21, rd22, rd23, rd24]

-- The 2 × 14 blocks cover all 32 images and 8732 boxes.
theorem cover25 (i : S75x32x8732.Idx) :
    ∃ t : Fin cfg0.N, (cfg0.win 25).flush t = true ∧ i ∈ ((cfg0.win 25).blk t).view.set := by
  have h0 : (i 0).val < 75 := (i 0).isLt
  have h1 : (i 1).val < 32 := (i 1).isLt
  have h2 : (i 2).val < 8732 := (i 2).isLt
  obtain ⟨t, q1, q2⟩ := onto25 ⟨(i 1).val / 16, by omega⟩ ⟨(i 2).val / 640, by omega⟩
  have q1' : win0_25.index t 1 = (i 1).val / 16 := q1
  have q2' : win0_25.index t 2 = (i 2).val / 640 := q2
  refine ⟨t, flush0_25 t, ?_⟩
  show i ∈ ((View.whole main_v25).slice (win0_25.rect t)).set
  rw [View.set_slice_whole, Rect.mem_set_unit]
  obtain ⟨e0, _, _, hle, hsum, hfit, hlast⟩ := ix25 t
  intro a
  match a with
  | ⟨0, _⟩ =>
    show win0_25.index t 0 * 75 ≤ (i 0).val ∧ (i 0).val < win0_25.index t 0 * 75 + win0_25.xsize (grid0.coords t) 0
    have := (xs25 t).1; omega
  | ⟨1, _⟩ =>
    show win0_25.index t 1 * 16 ≤ (i 1).val ∧ (i 1).val < win0_25.index t 1 * 16 + win0_25.xsize (grid0.coords t) 1
    have := (xs25 t).2; omega
  | ⟨2, _⟩ =>
    show win0_25.index t 2 * 640 ≤ (i 2).val ∧ (i 2).val < win0_25.index t 2 * 640 + lanes t
    by_cases hc : win0_25.index t 2 * 640 + 640 ≤ 8732
    · have := hfit hc; omega
    · have := hlast (by omega); omega

theorem final25 (c : Dev nD) : (dats m 0 c).arrAt 25 cfg0.N = outT m c :=
  (dats m 0 c).arrAt_eq_of_cover 25 (outT m c) (fun t _ => flushed_eq m c t) cover25

theorem tail26 (c : Dev nD) :
    Pipeline.afterTail₀ cfgs (dats m) 0 (V0 m) [hostOps1] c main_v26
      = transpose S32x8732x75 [1, 2, 0] (outT m c) transposes_S75x32x8732_S32x8732x75_1_2_0 := by
  unfold Pipeline.afterTail₀
  show StableHlo.after hostOps1 _ (Proc.devRef .tc main_v26) = _
  after_results
  exact congrArg (fun X => transpose S32x8732x75 [1, 2, 0] X transposes_S75x32x8732_S32x8732x75_1_2_0)
    ((Pipeline.withArrays_arr spec0 launch0.win.arr_inj c (V0 m c) (fun w => (dats m 0 c).arrAt w cfg0.N) 25).trans (final25 m c))

-- The program ends with the fusion of its transposed arguments, transposed back.
set_option maxHeartbeats 1600000 in
theorem run_value : θ_run defs (onTc (τ := τ) (main (F := F))) ⟨m, fun _ => 0, ρ⟩ (fun r => ∀ c : Dev nD,
      r.2.mem ((c.tc : Thread nD τ).loc main_v26) = transpose S32x8732x75 [1, 2, 0] (outT m c) transposes_S75x32x8732_S32x8732x75_1_2_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun _ h c => ⟨(((h c).2 main_v26 (Pipeline.mem_restRefs_of main_v26 (by decide) (by decide))).trans (tail26 m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c)),
      (((h c).2 main_arg16 (Pipeline.mem_restRefs_of main_arg16 (by decide) (by decide))).trans (W_main_arg16 m (dats m) c)),
      (((h c).2 main_arg17 (Pipeline.mem_restRefs_of main_arg17 (by decide) (by decide))).trans (W_main_arg17 m (dats m) c)),
      (((h c).2 main_arg18 (Pipeline.mem_restRefs_of main_arg18 (by decide) (by decide))).trans (W_main_arg18 m (dats m) c)),
      (((h c).2 main_arg19 (Pipeline.mem_restRefs_of main_arg19 (by decide) (by decide))).trans (W_main_arg19 m (dats m) c)),
      (((h c).2 main_arg20 (Pipeline.mem_restRefs_of main_arg20 (by decide) (by decide))).trans (W_main_arg20 m (dats m) c)),
      (((h c).2 main_arg21 (Pipeline.mem_restRefs_of main_arg21 (by decide) (by decide))).trans (W_main_arg21 m (dats m) c)),
      (((h c).2 main_arg22 (Pipeline.mem_restRefs_of main_arg22 (by decide) (by decide))).trans (W_main_arg22 m (dats m) c)),
      (((h c).2 main_arg23 (Pipeline.mem_restRefs_of main_arg23 (by decide) (by decide))).trans (W_main_arg23 m (dats m) c)),
      (((h c).2 main_arg24 (Pipeline.mem_restRefs_of main_arg24 (by decide) (by decide))).trans (W_main_arg24 m (dats m) c))⟩) (run_main m ρ)

end Cert.KernelIdeal.Body
end
-- ==== Proof.HostT.lean ====
import proofs.«160245_g86517821215618_cont_9to1_m_1401_10_alg».proof.Proof.Spec
import proofs.«160245_g86517821215618_cont_9to1_m_1401_10_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem tr_prior {α : Type} (x : S8732x4.Idx → α) (h : S8732x4.Transposes [1, 0] S4x8732) (c' : Fin 4) (p : Fin 8732) :
    transpose S4x8732 [1, 0] x h (ValueIdx.ix2 c' p) = x (ValueIdx.ix2 p c') :=
  ValueIdx.transpose_ix2_apply x h c' p

theorem tr_loc {α : Type} (x : S32x8732x4.Idx → α) (h : S32x8732x4.Transposes [0, 2, 1] S32x4x8732) (b : Fin 32) (c' : Fin 4)
    (p : Fin 8732) : transpose S32x4x8732 [0, 2, 1] x h (ValueIdx.ix3 b c' p) = x (ValueIdx.ix3 b p c') :=
  ValueIdx.transpose_ix3_021_apply x h b c' p

theorem tr_conf {α : Type} (x : S32x8732x21.Idx → α) (h : S32x8732x21.Transposes [2, 0, 1] S21x32x8732) (q : Fin 21) (b : Fin 32)
    (p : Fin 8732) : transpose S21x32x8732 [2, 0, 1] x h (ValueIdx.ix3 q b p) = x (ValueIdx.ix3 b p q) :=
  transpose_apply _ x h _ _ fun a => match a with | ⟨0, _⟩ => rfl | ⟨1, _⟩ => rfl | ⟨2, _⟩ => rfl

theorem tr_out {α : Type} (x : S75x32x8732.Idx → α) (h : S75x32x8732.Transposes [1, 2, 0] S32x8732x75) (b : Fin 32) (p : Fin 8732)
    (k : Fin 75) : transpose S32x8732x75 [1, 2, 0] x h (ValueIdx.ix3 b p k) = x (ValueIdx.ix3 k b p) :=
  transpose_apply _ x h _ _ fun a => match a with | ⟨0, _⟩ => rfl | ⟨1, _⟩ => rfl | ⟨2, _⟩ => rfl

variable (m : (ℓ : Loc nD τ sig) → Buf (Elt F) ℓ)

-- Each array the region reads is an argument with the box axis moved last.
theorem V_v0 (c : Dev nD) : (V m c main_v0 : S32x4x8732.Idx → Elt F .f32)
    = transpose S32x4x8732 [0, 2, 1] (m ((c : Thread nD τ).loc main_arg1)) transposes_S32x8732x4_S32x4x8732_0_2_1 := by
  show StableHlo.after hostOps0 (fun b => m (c, b)) (Proc.devRef .tc main_v0) = _
  after_results

theorem V_v1 (c : Dev nD) : (V m c main_v1 : S32x4x8732.Idx → Elt F .f32)
    = transpose S32x4x8732 [0, 2, 1] (m ((c : Thread nD τ).loc main_arg2)) transposes_S32x8732x4_S32x4x8732_0_2_1 := by
  show StableHlo.after hostOps0 (fun b => m (c, b)) (Proc.devRef .tc main_v1) = _
  after_results

theorem V_v2 (c : Dev nD) : (V m c main_v2 : S32x4x8732.Idx → Elt F .f32)
    = transpose S32x4x8732 [0, 2, 1] (m ((c : Thread nD τ).loc main_arg3)) transposes_S32x8732x4_S32x4x8732_0_2_1 := by
  show StableHlo.after hostOps0 (fun b => m (c, b)) (Proc.devRef .tc main_v2) = _
  after_results

theorem V_v3 (c : Dev nD) : (V m c main_v3 : S32x4x8732.Idx → Elt F .f32)
    = transpose S32x4x8732 [0, 2, 1] (m ((c : Thread nD τ).loc main_arg4)) transposes_S32x8732x4_S32x4x8732_0_2_1 := by
  show StableHlo.after hostOps0 (fun b => m (c, b)) (Proc.devRef .tc main_v3) = _
  after_results

theorem V_v4 (c : Dev nD) : (V m c main_v4 : S32x4x8732.Idx → Elt F .f32)
    = transpose S32x4x8732 [0, 2, 1] (m ((c : Thread nD τ).loc main_arg5)) transposes_S32x8732x4_S32x4x8732_0_2_1 := by
  show StableHlo.after hostOps0 (fun b => m (c, b)) (Proc.devRef .tc main_v4) = _
  after_results

theorem V_v5 (c : Dev nD) : (V m c main_v5 : S32x4x8732.Idx → Elt F .f32)
    = transpose S32x4x8732 [0, 2, 1] (m ((c : Thread nD τ).loc main_arg6)) transposes_S32x8732x4_S32x4x8732_0_2_1 := by
  show StableHlo.after hostOps0 (fun b => m (c, b)) (Proc.devRef .tc main_v5) = _
  after_results

theorem V_v6 (c : Dev nD) : (V m c main_v6 : S32x4x8732.Idx → Elt F .f32)
    = transpose S32x4x8732 [0, 2, 1] (m ((c : Thread nD τ).loc main_arg7)) transposes_S32x8732x4_S32x4x8732_0_2_1 := by
  show StableHlo.after hostOps0 (fun b => m (c, b)) (Proc.devRef .tc main_v6) = _
  after_results

theorem V_v7 (c : Dev nD) : (V m c main_v7 : S32x4x8732.Idx → Elt F .f32)
    = transpose S32x4x8732 [0, 2, 1] (m ((c : Thread nD τ).loc main_arg8)) transposes_S32x8732x4_S32x4x8732_0_2_1 := by
  show StableHlo.after hostOps0 (fun b => m (c, b)) (Proc.devRef .tc main_v7) = _
  after_results

theorem V_v8 (c : Dev nD) : (V m c main_v8 : S32x4x8732.Idx → Elt F .f32)
    = transpose S32x4x8732 [0, 2, 1] (m ((c : Thread nD τ).loc main_arg9)) transposes_S32x8732x4_S32x4x8732_0_2_1 := by
  show StableHlo.after hostOps0 (fun b => m (c, b)) (Proc.devRef .tc main_v8) = _
  after_results

theorem V_v9 (c : Dev nD) : (V m c main_v9 : S32x4x8732.Idx → Elt F .f32)
    = transpose S32x4x8732 [0, 2, 1] (m ((c : Thread nD τ).loc main_arg10)) transposes_S32x8732x4_S32x4x8732_0_2_1 := by
  show StableHlo.after hostOps0 (fun b => m (c, b)) (Proc.devRef .tc main_v9) = _
  after_results

theorem V_v10 (c : Dev nD) : (V m c main_v10 : S32x4x8732.Idx → Elt F .f32)
    = transpose S32x4x8732 [0, 2, 1] (m ((c : Thread nD τ).loc main_arg11)) transposes_S32x8732x4_S32x4x8732_0_2_1 := by
  show StableHlo.after hostOps0 (fun b => m (c, b)) (Proc.devRef .tc main_v10) = _
  after_results

theorem V_v11 (c : Dev nD) : (V m c main_v11 : S32x4x8732.Idx → Elt F .f32)
    = transpose S32x4x8732 [0, 2, 1] (m ((c : Thread nD τ).loc main_arg12)) transposes_S32x8732x4_S32x4x8732_0_2_1 := by
  show StableHlo.after hostOps0 (fun b => m (c, b)) (Proc.devRef .tc main_v11) = _
  after_results

theorem V_v12 (c : Dev nD) : (V m c main_v12 : S21x32x8732.Idx → Elt F .f32)
    = transpose S21x32x8732 [2, 0, 1] (m ((c : Thread nD τ).loc main_arg13)) transposes_S32x8732x21_S21x32x8732_2_0_1 := by
  show StableHlo.after hostOps0 (fun b => m (c, b)) (Proc.devRef .tc main_v12) = _
  after_results

theorem V_v13 (c : Dev nD) : (V m c main_v13 : S21x32x8732.Idx → Elt F .f32)
    = transpose S21x32x8732 [2, 0, 1] (m ((c : Thread nD τ).loc main_arg14)) transposes_S32x8732x21_S21x32x8732_2_0_1 := by
  show StableHlo.after hostOps0 (fun b => m (c, b)) (Proc.devRef .tc main_v13) = _
  after_results

theorem V_v14 (c : Dev nD) : (V m c main_v14 : S21x32x8732.Idx → Elt F .f32)
    = transpose S21x32x8732 [2, 0, 1] (m ((c : Thread nD τ).loc main_arg15)) transposes_S32x8732x21_S21x32x8732_2_0_1 := by
  show StableHlo.after hostOps0 (fun b => m (c, b)) (Proc.devRef .tc main_v14) = _
  after_results

theorem V_v15 (c : Dev nD) : (V m c main_v15 : S21x32x8732.Idx → Elt F .f32)
    = transpose S21x32x8732 [2, 0, 1] (m ((c : Thread nD τ).loc main_arg16)) transposes_S32x8732x21_S21x32x8732_2_0_1 := by
  show StableHlo.after hostOps0 (fun b => m (c, b)) (Proc.devRef .tc main_v15) = _
  after_results

theorem V_v16 (c : Dev nD) : (V m c main_v16 : S21x32x8732.Idx → Elt F .f32)
    = transpose S21x32x8732 [2, 0, 1] (m ((c : Thread nD τ).loc main_arg17)) transposes_S32x8732x21_S21x32x8732_2_0_1 := by
  show StableHlo.after hostOps0 (fun b => m (c, b)) (Proc.devRef .tc main_v16) = _
  after_results

theorem V_v17 (c : Dev nD) : (V m c main_v17 : S21x32x8732.Idx → Elt F .f32)
    = transpose S21x32x8732 [2, 0, 1] (m ((c : Thread nD τ).loc main_arg18)) transposes_S32x8732x21_S21x32x8732_2_0_1 := by
  show StableHlo.after hostOps0 (fun b => m (c, b)) (Proc.devRef .tc main_v17) = _
  after_results

theorem V_v18 (c : Dev nD) : (V m c main_v18 : S21x32x8732.Idx → Elt F .f32)
    = transpose S21x32x8732 [2, 0, 1] (m ((c : Thread nD τ).loc main_arg19)) transposes_S32x8732x21_S21x32x8732_2_0_1 := by
  show StableHlo.after hostOps0 (fun b => m (c, b)) (Proc.devRef .tc main_v18) = _
  after_results

theorem V_v19 (c : Dev nD) : (V m c main_v19 : S21x32x8732.Idx → Elt F .f32)
    = transpose S21x32x8732 [2, 0, 1] (m ((c : Thread nD τ).loc main_arg20)) transposes_S32x8732x21_S21x32x8732_2_0_1 := by
  show StableHlo.after hostOps0 (fun b => m (c, b)) (Proc.devRef .tc main_v19) = _
  after_results

theorem V_v20 (c : Dev nD) : (V m c main_v20 : S21x32x8732.Idx → Elt F .f32)
    = transpose S21x32x8732 [2, 0, 1] (m ((c : Thread nD τ).loc main_arg21)) transposes_S32x8732x21_S21x32x8732_2_0_1 := by
  show StableHlo.after hostOps0 (fun b => m (c, b)) (Proc.devRef .tc main_v20) = _
  after_results

theorem V_v21 (c : Dev nD) : (V m c main_v21 : S21x32x8732.Idx → Elt F .f32)
    = transpose S21x32x8732 [2, 0, 1] (m ((c : Thread nD τ).loc main_arg22)) transposes_S32x8732x21_S21x32x8732_2_0_1 := by
  show StableHlo.after hostOps0 (fun b => m (c, b)) (Proc.devRef .tc main_v21) = _
  after_results

theorem V_v22 (c : Dev nD) : (V m c main_v22 : S21x32x8732.Idx → Elt F .f32)
    = transpose S21x32x8732 [2, 0, 1] (m ((c : Thread nD τ).loc main_arg23)) transposes_S32x8732x21_S21x32x8732_2_0_1 := by
  show StableHlo.after hostOps0 (fun b => m (c, b)) (Proc.devRef .tc main_v22) = _
  after_results

theorem V_v23 (c : Dev nD) : (V m c main_v23 : S21x32x8732.Idx → Elt F .f32)
    = transpose S21x32x8732 [2, 0, 1] (m ((c : Thread nD τ).loc main_arg24)) transposes_S32x8732x21_S21x32x8732_2_0_1 := by
  show StableHlo.after hostOps0 (fun b => m (c, b)) (Proc.devRef .tc main_v23) = _
  after_results

theorem V_v24 (c : Dev nD) : (V m c main_v24 : S4x8732.Idx → Elt F .f32)
    = transpose S4x8732 [1, 0] (m ((c : Thread nD τ).loc main_arg0)) transposes_S8732x4_S4x8732_1_0 := by
  show StableHlo.after hostOps0 (fun b => m (c, b)) (Proc.devRef .tc main_v24) = _
  after_results

theorem prT_eq (c : Dev nD) :
    (fun (c' : Fin 4) (p : Fin 8732) => (V m c main_v24 : S4x8732.Idx → Elt F .f32) (ValueIdx.ix2 c' p))
      = Spec.prA (m ((c : Thread nD τ).loc main_arg0)) := by
  funext c' p
  rw [V_v24]
  exact tr_prior _ _ c' p

theorem locIn_of_transposes (v0 v1 v2 v3 v4 v5 v6 v7 v8 v9 v10 v11 : S32x4x8732.Idx → Elt F .f32) (a0 a1 a2 a3 a4 a5 a6 a7 a8 a9 a10 a11 : S32x8732x4.Idx → Elt F .f32)
    (h0 : v0 = transpose S32x4x8732 [0, 2, 1] a0 transposes_S32x8732x4_S32x4x8732_0_2_1)
    (h1 : v1 = transpose S32x4x8732 [0, 2, 1] a1 transposes_S32x8732x4_S32x4x8732_0_2_1)
    (h2 : v2 = transpose S32x4x8732 [0, 2, 1] a2 transposes_S32x8732x4_S32x4x8732_0_2_1)
    (h3 : v3 = transpose S32x4x8732 [0, 2, 1] a3 transposes_S32x8732x4_S32x4x8732_0_2_1)
    (h4 : v4 = transpose S32x4x8732 [0, 2, 1] a4 transposes_S32x8732x4_S32x4x8732_0_2_1)
    (h5 : v5 = transpose S32x4x8732 [0, 2, 1] a5 transposes_S32x8732x4_S32x4x8732_0_2_1)
    (h6 : v6 = transpose S32x4x8732 [0, 2, 1] a6 transposes_S32x8732x4_S32x4x8732_0_2_1)
    (h7 : v7 = transpose S32x4x8732 [0, 2, 1] a7 transposes_S32x8732x4_S32x4x8732_0_2_1)
    (h8 : v8 = transpose S32x4x8732 [0, 2, 1] a8 transposes_S32x8732x4_S32x4x8732_0_2_1)
    (h9 : v9 = transpose S32x4x8732 [0, 2, 1] a9 transposes_S32x8732x4_S32x4x8732_0_2_1)
    (h10 : v10 = transpose S32x4x8732 [0, 2, 1] a10 transposes_S32x8732x4_S32x4x8732_0_2_1)
    (h11 : v11 = transpose S32x4x8732 [0, 2, 1] a11 transposes_S32x8732x4_S32x4x8732_0_2_1) :
    (⟨fun b c' p => v0 (ValueIdx.ix3 b c' p),
      fun b c' p => v1 (ValueIdx.ix3 b c' p),
      fun b c' p => v2 (ValueIdx.ix3 b c' p),
      fun b c' p => v3 (ValueIdx.ix3 b c' p),
      fun b c' p => v4 (ValueIdx.ix3 b c' p),
      fun b c' p => v5 (ValueIdx.ix3 b c' p),
      fun b c' p => v6 (ValueIdx.ix3 b c' p),
      fun b c' p => v7 (ValueIdx.ix3 b c' p),
      fun b c' p => v8 (ValueIdx.ix3 b c' p),
      fun b c' p => v9 (ValueIdx.ix3 b c' p),
      fun b c' p => v10 (ValueIdx.ix3 b c' p),
      fun b c' p => v11 (ValueIdx.ix3 b c' p)⟩ : Spec.LocIn (F .f32) (Fin 32) (Fin 8732))
      = Spec.locInA a0 a1 a2 a3 a4 a5 a6 a7 a8 a9 a10 a11 := by
  subst h0 h1 h2 h3 h4 h5 h6 h7 h8 h9 h10 h11
  unfold Spec.locInA
  congr 1 <;> (funext b c' p; exact tr_loc _ _ b c' p)

theorem locInT_eq (c : Dev nD) :
    (⟨fun b c' p => (V m c main_v0 : S32x4x8732.Idx → Elt F .f32) (ValueIdx.ix3 b c' p),
      fun b c' p => (V m c main_v1 : S32x4x8732.Idx → Elt F .f32) (ValueIdx.ix3 b c' p),
      fun b c' p => (V m c main_v2 : S32x4x8732.Idx → Elt F .f32) (ValueIdx.ix3 b c' p),
      fun b c' p => (V m c main_v3 : S32x4x8732.Idx → Elt F .f32) (ValueIdx.ix3 b c' p),
      fun b c' p => (V m c main_v4 : S32x4x8732.Idx → Elt F .f32) (ValueIdx.ix3 b c' p),
      fun b c' p => (V m c main_v5 : S32x4x8732.Idx → Elt F .f32) (ValueIdx.ix3 b c' p),
      fun b c' p => (V m c main_v6 : S32x4x8732.Idx → Elt F .f32) (ValueIdx.ix3 b c' p),
      fun b c' p => (V m c main_v7 : S32x4x8732.Idx → Elt F .f32) (ValueIdx.ix3 b c' p),
      fun b c' p => (V m c main_v8 : S32x4x8732.Idx → Elt F .f32) (ValueIdx.ix3 b c' p),
      fun b c' p => (V m c main_v9 : S32x4x8732.Idx → Elt F .f32) (ValueIdx.ix3 b c' p),
      fun b c' p => (V m c main_v10 : S32x4x8732.Idx → Elt F .f32) (ValueIdx.ix3 b c' p),
      fun b c' p => (V m c main_v11 : S32x4x8732.Idx → Elt F .f32) (ValueIdx.ix3 b c' p)⟩ : Spec.LocIn (F .f32) (Fin 32) (Fin 8732))
      = Spec.locInA (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  locIn_of_transposes _ _ _ _ _ _ _ _ _ _ _ _ _ _ _ _ _ _ _ _ _ _ _ _ (V_v0 m c) (V_v1 m c) (V_v2 m c) (V_v3 m c) (V_v4 m c) (V_v5 m c) (V_v6 m c) (V_v7 m c) (V_v8 m c) (V_v9 m c) (V_v10 m c) (V_v11 m c)

theorem confIn_of_transposes (v12 v13 v14 v15 v16 v17 v18 v19 v20 v21 v22 v23 : S21x32x8732.Idx → Elt F .f32) (a12 a13 a14 a15 a16 a17 a18 a19 a20 a21 a22 a23 : S32x8732x21.Idx → Elt F .f32)
    (h12 : v12 = transpose S21x32x8732 [2, 0, 1] a12 transposes_S32x8732x21_S21x32x8732_2_0_1)
    (h13 : v13 = transpose S21x32x8732 [2, 0, 1] a13 transposes_S32x8732x21_S21x32x8732_2_0_1)
    (h14 : v14 = transpose S21x32x8732 [2, 0, 1] a14 transposes_S32x8732x21_S21x32x8732_2_0_1)
    (h15 : v15 = transpose S21x32x8732 [2, 0, 1] a15 transposes_S32x8732x21_S21x32x8732_2_0_1)
    (h16 : v16 = transpose S21x32x8732 [2, 0, 1] a16 transposes_S32x8732x21_S21x32x8732_2_0_1)
    (h17 : v17 = transpose S21x32x8732 [2, 0, 1] a17 transposes_S32x8732x21_S21x32x8732_2_0_1)
    (h18 : v18 = transpose S21x32x8732 [2, 0, 1] a18 transposes_S32x8732x21_S21x32x8732_2_0_1)
    (h19 : v19 = transpose S21x32x8732 [2, 0, 1] a19 transposes_S32x8732x21_S21x32x8732_2_0_1)
    (h20 : v20 = transpose S21x32x8732 [2, 0, 1] a20 transposes_S32x8732x21_S21x32x8732_2_0_1)
    (h21 : v21 = transpose S21x32x8732 [2, 0, 1] a21 transposes_S32x8732x21_S21x32x8732_2_0_1)
    (h22 : v22 = transpose S21x32x8732 [2, 0, 1] a22 transposes_S32x8732x21_S21x32x8732_2_0_1)
    (h23 : v23 = transpose S21x32x8732 [2, 0, 1] a23 transposes_S32x8732x21_S21x32x8732_2_0_1) :
    (⟨fun q b p => v12 (ValueIdx.ix3 q b p),
      fun q b p => v13 (ValueIdx.ix3 q b p),
      fun q b p => v14 (ValueIdx.ix3 q b p),
      fun q b p => v15 (ValueIdx.ix3 q b p),
      fun q b p => v16 (ValueIdx.ix3 q b p),
      fun q b p => v17 (ValueIdx.ix3 q b p),
      fun q b p => v18 (ValueIdx.ix3 q b p),
      fun q b p => v19 (ValueIdx.ix3 q b p),
      fun q b p => v20 (ValueIdx.ix3 q b p),
      fun q b p => v21 (ValueIdx.ix3 q b p),
      fun q b p => v22 (ValueIdx.ix3 q b p),
      fun q b p => v23 (ValueIdx.ix3 q b p)⟩ : Spec.ConfIn (F .f32) (Fin 32) (Fin 8732))
      = Spec.confInA a12 a13 a14 a15 a16 a17 a18 a19 a20 a21 a22 a23 := by
  subst h12 h13 h14 h15 h16 h17 h18 h19 h20 h21 h22 h23
  unfold Spec.confInA
  congr 1 <;> (funext q b p; exact tr_conf _ _ q b p)

theorem confInT_eq (c : Dev nD) :
    (⟨fun q b p => (V m c main_v12 : S21x32x8732.Idx → Elt F .f32) (ValueIdx.ix3 q b p),
      fun q b p => (V m c main_v13 : S21x32x8732.Idx → Elt F .f32) (ValueIdx.ix3 q b p),
      fun q b p => (V m c main_v14 : S21x32x8732.Idx → Elt F .f32) (ValueIdx.ix3 q b p),
      fun q b p => (V m c main_v15 : S21x32x8732.Idx → Elt F .f32) (ValueIdx.ix3 q b p),
      fun q b p => (V m c main_v16 : S21x32x8732.Idx → Elt F .f32) (ValueIdx.ix3 q b p),
      fun q b p => (V m c main_v17 : S21x32x8732.Idx → Elt F .f32) (ValueIdx.ix3 q b p),
      fun q b p => (V m c main_v18 : S21x32x8732.Idx → Elt F .f32) (ValueIdx.ix3 q b p),
      fun q b p => (V m c main_v19 : S21x32x8732.Idx → Elt F .f32) (ValueIdx.ix3 q b p),
      fun q b p => (V m c main_v20 : S21x32x8732.Idx → Elt F .f32) (ValueIdx.ix3 q b p),
      fun q b p => (V m c main_v21 : S21x32x8732.Idx → Elt F .f32) (ValueIdx.ix3 q b p),
      fun q b p => (V m c main_v22 : S21x32x8732.Idx → Elt F .f32) (ValueIdx.ix3 q b p),
      fun q b p => (V m c main_v23 : S21x32x8732.Idx → Elt F .f32) (ValueIdx.ix3 q b p)⟩ : Spec.ConfIn (F .f32) (Fin 32) (Fin 8732))
      = Spec.confInA (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) :=
  confIn_of_transposes _ _ _ _ _ _ _ _ _ _ _ _ _ _ _ _ _ _ _ _ _ _ _ _ (V_v12 m c) (V_v13 m c) (V_v14 m c) (V_v15 m c) (V_v16 m c) (V_v17 m c) (V_v18 m c) (V_v19 m c) (V_v20 m c) (V_v21 m c) (V_v22 m c) (V_v23 m c)

end Cert.KernelIdeal.Body
end
-- ==== Proof.KResult.lean ====
import proofs.«160245_g86517821215618_cont_9to1_m_1401_10_alg».proof.Proof.KValue
import proofs.«160245_g86517821215618_cont_9to1_m_1401_10_alg».proof.Proof.HostT

set_option maxRecDepth 16384

noncomputable section

namespace Cert.KernelIdeal.Body

open Cert.KernelIdeal Cert.KernelIdeal.Gen
open Cert.Block
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

-- The program's result is the fusion of its arguments.
theorem result_fused (c : Dev nD) :
    Spec.Fused (Spec.prA (m ((c : Thread nD τ).loc main_arg0)))
      (Spec.locInA (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)))
      (Spec.confInA (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)))
      (Spec.outAtA (transpose S32x8732x75 [1, 2, 0] (outT m c) transposes_S75x32x8732_S32x8732x75_1_2_0)) := by
  have h := Spec.chan_fused (prT m c) (locInT m c) (confInT m c)
  have e0 : prT m c = Spec.prA (m ((c : Thread nD τ).loc main_arg0)) := prT_eq m c
  have eL : locInT m c = Spec.locInA (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := locInT_eq m c
  have eC : confInT m c = Spec.confInA (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := confInT_eq m c
  have eo : Spec.outAtA (transpose S32x8732x75 [1, 2, 0] (outT m c) transposes_S75x32x8732_S32x8732x75_1_2_0)
      = Spec.chan (prT m c) (locInT m c) (confInT m c) := by
    funext k b p
    show transpose S32x8732x75 [1, 2, 0] (outT m c) transposes_S75x32x8732_S32x8732x75_1_2_0 (ValueIdx.ix3 b p k) = _
    rw [tr_out]
    rfl
  rw [eo, ← e0, ← eL, ← eC]
  exact h

end Cert.KernelIdeal.Body
end
-- ==== Proof.RefFused.lean ====
import proofs.«160245_g86517821215618_cont_9to1_m_1401_10_alg».proof.Proof.Spec
import proofs.«160245_g86517821215618_cont_9to1_m_1401_10_alg».proof.Proof.Gen.ReferenceIdeal.Read
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

section Join

variable {α : Type}

theorem cat6_p0 (y0 y1 y2 : S32x8732x4.Idx → α) (y3 y4 y5 : S32x8732x21.Idx → α)
    (h : Shape.Concatenates [S32x8732x4, S32x8732x4, S32x8732x4, S32x8732x21, S32x8732x21, S32x8732x21] S32x8732x75 2)
    (b : Fin 32) (p : Fin 8732) (k : Fin 75) (c : Fin 4) (hk : k.val = 0 + c.val) :
    concatenate S32x8732x75 2 [⟨S32x8732x4, y0⟩, ⟨S32x8732x4, y1⟩, ⟨S32x8732x4, y2⟩, ⟨S32x8732x21, y3⟩, ⟨S32x8732x21, y4⟩, ⟨S32x8732x21, y5⟩] h (ix3 b p k) = y0 (ix3 b p c) := by
  refine concatenate_apply_piece 2 [⟨S32x8732x4, y0⟩, ⟨S32x8732x4, y1⟩, ⟨S32x8732x4, y2⟩, ⟨S32x8732x21, y3⟩, ⟨S32x8732x21, y4⟩, ⟨S32x8732x21, y5⟩] h _ 0 (show 0 < 6 by decide) S32x8732x4 y0 rfl rfl 0 rfl (ix3 b p c) ?_ ?_
  · intro d hd
    match d with
    | ⟨0, _⟩ => rfl
    | ⟨1, _⟩ => rfl
    | ⟨2, _⟩ => exact absurd rfl hd
  · show 0 + c.val = k.val
    omega

theorem cat6_p1 (y0 y1 y2 : S32x8732x4.Idx → α) (y3 y4 y5 : S32x8732x21.Idx → α)
    (h : Shape.Concatenates [S32x8732x4, S32x8732x4, S32x8732x4, S32x8732x21, S32x8732x21, S32x8732x21] S32x8732x75 2)
    (b : Fin 32) (p : Fin 8732) (k : Fin 75) (c : Fin 4) (hk : k.val = 4 + c.val) :
    concatenate S32x8732x75 2 [⟨S32x8732x4, y0⟩, ⟨S32x8732x4, y1⟩, ⟨S32x8732x4, y2⟩, ⟨S32x8732x21, y3⟩, ⟨S32x8732x21, y4⟩, ⟨S32x8732x21, y5⟩] h (ix3 b p k) = y1 (ix3 b p c) := by
  refine concatenate_apply_piece 2 [⟨S32x8732x4, y0⟩, ⟨S32x8732x4, y1⟩, ⟨S32x8732x4, y2⟩, ⟨S32x8732x21, y3⟩, ⟨S32x8732x21, y4⟩, ⟨S32x8732x21, y5⟩] h _ 1 (show 1 < 6 by decide) S32x8732x4 y1 rfl rfl 4 rfl (ix3 b p c) ?_ ?_
  · intro d hd
    match d with
    | ⟨0, _⟩ => rfl
    | ⟨1, _⟩ => rfl
    | ⟨2, _⟩ => exact absurd rfl hd
  · show 4 + c.val = k.val
    omega

theorem cat6_p2 (y0 y1 y2 : S32x8732x4.Idx → α) (y3 y4 y5 : S32x8732x21.Idx → α)
    (h : Shape.Concatenates [S32x8732x4, S32x8732x4, S32x8732x4, S32x8732x21, S32x8732x21, S32x8732x21] S32x8732x75 2)
    (b : Fin 32) (p : Fin 8732) (k : Fin 75) (c : Fin 4) (hk : k.val = 8 + c.val) :
    concatenate S32x8732x75 2 [⟨S32x8732x4, y0⟩, ⟨S32x8732x4, y1⟩, ⟨S32x8732x4, y2⟩, ⟨S32x8732x21, y3⟩, ⟨S32x8732x21, y4⟩, ⟨S32x8732x21, y5⟩] h (ix3 b p k) = y2 (ix3 b p c) := by
  refine concatenate_apply_piece 2 [⟨S32x8732x4, y0⟩, ⟨S32x8732x4, y1⟩, ⟨S32x8732x4, y2⟩, ⟨S32x8732x21, y3⟩, ⟨S32x8732x21, y4⟩, ⟨S32x8732x21, y5⟩] h _ 2 (show 2 < 6 by decide) S32x8732x4 y2 rfl rfl 8 rfl (ix3 b p c) ?_ ?_
  · intro d hd
    match d with
    | ⟨0, _⟩ => rfl
    | ⟨1, _⟩ => rfl
    | ⟨2, _⟩ => exact absurd rfl hd
  · show 8 + c.val = k.val
    omega

theorem cat6_p3 (y0 y1 y2 : S32x8732x4.Idx → α) (y3 y4 y5 : S32x8732x21.Idx → α)
    (h : Shape.Concatenates [S32x8732x4, S32x8732x4, S32x8732x4, S32x8732x21, S32x8732x21, S32x8732x21] S32x8732x75 2)
    (b : Fin 32) (p : Fin 8732) (k : Fin 75) (c : Fin 21) (hk : k.val = 12 + c.val) :
    concatenate S32x8732x75 2 [⟨S32x8732x4, y0⟩, ⟨S32x8732x4, y1⟩, ⟨S32x8732x4, y2⟩, ⟨S32x8732x21, y3⟩, ⟨S32x8732x21, y4⟩, ⟨S32x8732x21, y5⟩] h (ix3 b p k) = y3 (ix3 b p c) := by
  refine concatenate_apply_piece 2 [⟨S32x8732x4, y0⟩, ⟨S32x8732x4, y1⟩, ⟨S32x8732x4, y2⟩, ⟨S32x8732x21, y3⟩, ⟨S32x8732x21, y4⟩, ⟨S32x8732x21, y5⟩] h _ 3 (show 3 < 6 by decide) S32x8732x21 y3 rfl rfl 12 rfl (ix3 b p c) ?_ ?_
  · intro d hd
    match d with
    | ⟨0, _⟩ => rfl
    | ⟨1, _⟩ => rfl
    | ⟨2, _⟩ => exact absurd rfl hd
  · show 12 + c.val = k.val
    omega

theorem cat6_p4 (y0 y1 y2 : S32x8732x4.Idx → α) (y3 y4 y5 : S32x8732x21.Idx → α)
    (h : Shape.Concatenates [S32x8732x4, S32x8732x4, S32x8732x4, S32x8732x21, S32x8732x21, S32x8732x21] S32x8732x75 2)
    (b : Fin 32) (p : Fin 8732) (k : Fin 75) (c : Fin 21) (hk : k.val = 33 + c.val) :
    concatenate S32x8732x75 2 [⟨S32x8732x4, y0⟩, ⟨S32x8732x4, y1⟩, ⟨S32x8732x4, y2⟩, ⟨S32x8732x21, y3⟩, ⟨S32x8732x21, y4⟩, ⟨S32x8732x21, y5⟩] h (ix3 b p k) = y4 (ix3 b p c) := by
  refine concatenate_apply_piece 2 [⟨S32x8732x4, y0⟩, ⟨S32x8732x4, y1⟩, ⟨S32x8732x4, y2⟩, ⟨S32x8732x21, y3⟩, ⟨S32x8732x21, y4⟩, ⟨S32x8732x21, y5⟩] h _ 4 (show 4 < 6 by decide) S32x8732x21 y4 rfl rfl 33 rfl (ix3 b p c) ?_ ?_
  · intro d hd
    match d with
    | ⟨0, _⟩ => rfl
    | ⟨1, _⟩ => rfl
    | ⟨2, _⟩ => exact absurd rfl hd
  · show 33 + c.val = k.val
    omega

theorem cat6_p5 (y0 y1 y2 : S32x8732x4.Idx → α) (y3 y4 y5 : S32x8732x21.Idx → α)
    (h : Shape.Concatenates [S32x8732x4, S32x8732x4, S32x8732x4, S32x8732x21, S32x8732x21, S32x8732x21] S32x8732x75 2)
    (b : Fin 32) (p : Fin 8732) (k : Fin 75) (c : Fin 21) (hk : k.val = 54 + c.val) :
    concatenate S32x8732x75 2 [⟨S32x8732x4, y0⟩, ⟨S32x8732x4, y1⟩, ⟨S32x8732x4, y2⟩, ⟨S32x8732x21, y3⟩, ⟨S32x8732x21, y4⟩, ⟨S32x8732x21, y5⟩] h (ix3 b p k) = y5 (ix3 b p c) := by
  refine concatenate_apply_piece 2 [⟨S32x8732x4, y0⟩, ⟨S32x8732x4, y1⟩, ⟨S32x8732x4, y2⟩, ⟨S32x8732x21, y3⟩, ⟨S32x8732x21, y4⟩, ⟨S32x8732x21, y5⟩] h _ 5 (show 5 < 6 by decide) S32x8732x21 y5 rfl rfl 54 rfl (ix3 b p c) ?_ ?_
  · intro d hd
    match d with
    | ⟨0, _⟩ => rfl
    | ⟨1, _⟩ => rfl
    | ⟨2, _⟩ => exact absurd rfl hd
  · show 54 + c.val = k.val
    omega

theorem cat2_lo (y0 y1 : S32x8732x2.Idx → α) (h : Shape.Concatenates [S32x8732x2, S32x8732x2] S32x8732x4 2)
    (b : Fin 32) (p : Fin 8732) (k : Fin 4) (c : Fin 2) (hk : k.val = 0 + c.val) :
    concatenate S32x8732x4 2 [⟨S32x8732x2, y0⟩, ⟨S32x8732x2, y1⟩] h (ix3 b p k) = y0 (ix3 b p c) := by
  refine concatenate_apply_piece 2 [⟨S32x8732x2, y0⟩, ⟨S32x8732x2, y1⟩] h _ 0 (show 0 < 2 by decide) S32x8732x2 y0 rfl rfl 0 rfl
    (ix3 b p c) ?_ ?_
  · intro d hd
    match d with
    | ⟨0, _⟩ => rfl
    | ⟨1, _⟩ => rfl
    | ⟨2, _⟩ => exact absurd rfl hd
  · show 0 + c.val = k.val
    omega

theorem cat2_hi (y0 y1 : S32x8732x2.Idx → α) (h : Shape.Concatenates [S32x8732x2, S32x8732x2] S32x8732x4 2)
    (b : Fin 32) (p : Fin 8732) (k : Fin 4) (c : Fin 2) (hk : k.val = 2 + c.val) :
    concatenate S32x8732x4 2 [⟨S32x8732x2, y0⟩, ⟨S32x8732x2, y1⟩] h (ix3 b p k) = y1 (ix3 b p c) := by
  refine concatenate_apply_piece 2 [⟨S32x8732x2, y0⟩, ⟨S32x8732x2, y1⟩] h _ 1 (show 1 < 2 by decide) S32x8732x2 y1 rfl rfl 2 rfl
    (ix3 b p c) ?_ ?_
  · intro d hd
    match d with
    | ⟨0, _⟩ => rfl
    | ⟨1, _⟩ => rfl
    | ⟨2, _⟩ => exact absurd rfl hd
  · show 2 + c.val = k.val
    omega

end Join

theorem ofBits_two : Ideal.ofBits .f32 0x40000000#32 = ((2 : ℝ) : EReal) := by
  simp [Ideal.ofBits, Ideal.ieee, -EReal.coe_mul]
  norm_num

theorem ofBits_half : Ideal.ofBits .f32 0x3F000000#32 = ((1 / 2 : ℝ) : EReal) := by
  simp [Ideal.ofBits, Ideal.ieee, -EReal.coe_mul]
  norm_num

-- x / 2 = ½ · x on the extended reals, infinite x included: the one law that joins the two box formulas.
theorem half_law (x : Ideal .f32) :
    FloatOps.hostDivf x (FloatOps.ofBits (F := Ideal) .f32 0x40000000#32)
      = FloatOps.mulf (FloatOps.ofBits (F := Ideal) .f32 0x3F000000#32) x := by
  rw [Ideal.hostDivf_def, Ideal.mulf_def, Ideal.ofBits_def, Ideal.ofBits_def, ofBits_two, ofBits_half,
    Ideal.div_coe (by norm_num : (2 : ℝ) ≠ 0), mul_comm]

section Box

variable (x0 : (⟨S8732x4, .f32⟩ : BufTy).Contents (Elt Ideal)) (x1 x3 x4 x6 x7 x9 x10 x12 : (⟨S32x8732x4, .f32⟩ : BufTy).Contents (Elt Ideal))
variable (b : Fin 32) (p : Fin 8732) (c : Fin 2)

theorem idx_centre :
    idx_main_v58 (idx_main_v66 (idx_main_v67 (ix3 b p c))) = ix2 p ⟨c.val, by have := c.isLt; omega⟩ :=
  funext fun a => match a with | ⟨0, _⟩ => rfl | ⟨1, _⟩ => rfl

theorem idx_side :
    idx_main_v62 (idx_main_v63 (idx_main_v64 (ix3 b p c))) = ix2 p ⟨2 + c.val, by have := c.isLt; omega⟩ :=
  funext fun a => match a with | ⟨0, _⟩ => rfl | ⟨1, _⟩ => rfl

theorem idx_side' :
    idx_main_v69 (idx_main_v74 (idx_main_v75 (ix3 b p c))) = ix2 p ⟨2 + c.val, by have := c.isLt; omega⟩ :=
  funext fun a => match a with | ⟨0, _⟩ => rfl | ⟨1, _⟩ => rfl

theorem idx_mean_centre : idx_main_v59 (ix3 b p c) = ix3 b p ⟨c.val, by have := c.isLt; omega⟩ :=
  funext fun a => match a with | ⟨0, _⟩ => rfl | ⟨1, _⟩ => rfl | ⟨2, _⟩ => rfl

theorem idx_mean_side : idx_main_v70 (ix3 b p c) = ix3 b p ⟨2 + c.val, by have := c.isLt; omega⟩ :=
  funext fun a => match a with | ⟨0, _⟩ => rfl | ⟨1, _⟩ => rfl | ⟨2, _⟩ => rfl

theorem centre_at :
    val_main_v68 (F := Ideal) x0 x1 x3 x4 x6 x7 x9 x10 x12 (ix3 b p c)
      = FloatOps.addf (F := Ideal) (φ := .f32) (x0 (ix2 p ⟨c.val, by have := c.isLt; omega⟩))
          (FloatOps.mulf (F := Ideal) (φ := .f32)
            (FloatOps.mulf (F := Ideal) (φ := .f32) (val_main_v6 (F := Ideal) x1 x3 x4 x6 x7 x9 x10 x12 (ix3 b p ⟨c.val, by have := c.isLt; omega⟩))
              (FloatOps.ofBits (F := Ideal) .f32 0x3DCCCCCD#32))
            (x0 (ix2 p ⟨2 + c.val, by have := c.isLt; omega⟩))) := by
  rw [val_main_v68_apply, val_main_v67_apply, val_main_v66_apply, val_main_v58_apply, val_main_v65_apply,
    val_main_v61_apply, val_main_v59_apply, val_main_v60_apply, val_main_cst_apply, val_main_v64_apply,
    val_main_v63_apply, val_main_v62_apply, idx_centre, idx_side, idx_mean_centre]

theorem side_at :
    val_main_v76 (F := Ideal) x0 x1 x3 x4 x6 x7 x9 x10 x12 (ix3 b p c)
      = Spec.boxWH (F := Ideal) (x0 (ix2 p ⟨2 + c.val, by have := c.isLt; omega⟩))
          (val_main_v6 (F := Ideal) x1 x3 x4 x6 x7 x9 x10 x12 (ix3 b p ⟨2 + c.val, by have := c.isLt; omega⟩)) := by
  rw [val_main_v76_apply, val_main_v75_apply, val_main_v74_apply, val_main_v69_apply, val_main_v73_apply,
    val_main_v72_apply, val_main_v70_apply, val_main_v71_apply, val_main_cst_0_apply, idx_side', idx_mean_side]
  rfl

theorem lo_at :
    val_main_v79 (F := Ideal) x0 x1 x3 x4 x6 x7 x9 x10 x12 (ix3 b p c)
      = Spec.boxLo (F := Ideal) (x0 (ix2 p ⟨c.val, by have := c.isLt; omega⟩))
          (val_main_v6 (F := Ideal) x1 x3 x4 x6 x7 x9 x10 x12 (ix3 b p ⟨c.val, by have := c.isLt; omega⟩))
          (x0 (ix2 p ⟨2 + c.val, by have := c.isLt; omega⟩))
          (val_main_v6 (F := Ideal) x1 x3 x4 x6 x7 x9 x10 x12 (ix3 b p ⟨2 + c.val, by have := c.isLt; omega⟩)) := by
  rw [val_main_v79_apply, val_main_v78_apply, val_main_v77_apply, val_main_cst_1_apply, centre_at, side_at, half_law]
  rfl

theorem hi_at :
    val_main_v80 (F := Ideal) x0 x1 x3 x4 x6 x7 x9 x10 x12 (ix3 b p c)
      = Spec.boxHi (F := Ideal) (x0 (ix2 p ⟨c.val, by have := c.isLt; omega⟩))
          (val_main_v6 (F := Ideal) x1 x3 x4 x6 x7 x9 x10 x12 (ix3 b p ⟨c.val, by have := c.isLt; omega⟩))
          (x0 (ix2 p ⟨2 + c.val, by have := c.isLt; omega⟩))
          (val_main_v6 (F := Ideal) x1 x3 x4 x6 x7 x9 x10 x12 (ix3 b p ⟨2 + c.val, by have := c.isLt; omega⟩)) := by
  rw [val_main_v80_apply, lo_at, side_at]
  rfl

end Box

section Channels

variable (x0 : (⟨S8732x4, .f32⟩ : BufTy).Contents (Elt Ideal)) (x1 x2 x3 x4 x5 x6 x7 x8 x9 x10 x11 x12 : (⟨S32x8732x4, .f32⟩ : BufTy).Contents (Elt Ideal)) (x13 x14 x15 x16 x17 x18 x19 x20 x21 x22 x23 x24 : (⟨S32x8732x21, .f32⟩ : BufTy).Contents (Elt Ideal))

theorem mean_eq (b : Fin 32) (c : Fin 4) (p : Fin 8732) :
    val_main_v6 (F := Ideal) x1 x3 x4 x6 x7 x9 x10 x12 (ix3 b p c) = Spec.locMean (F := Ideal) (Spec.locInA x1 x2 x3 x4 x5 x6 x7 x8 x9 x10 x11 x12) b c p := rfl

theorem lo_chan (b : Fin 32) (p : Fin 8732) (k : Fin 75) (c : Fin 2) (hk : k.val = c.val) :
    (val_main_v82 (F := Ideal) x0 x1 x2 x3 x4 x5 x6 x7 x8 x9 x10 x11 x12 x13 x14 x15 x16 x17 x18 x19 x20 x21 x22 x23 x24) (ix3 b p k)
      = Spec.boxLo (F := Ideal) (Spec.prA x0 ⟨c.val, by have := c.isLt; omega⟩ p)
          (Spec.locMean (F := Ideal) (Spec.locInA x1 x2 x3 x4 x5 x6 x7 x8 x9 x10 x11 x12) b ⟨c.val, by have := c.isLt; omega⟩ p)
          (Spec.prA x0 ⟨2 + c.val, by have := c.isLt; omega⟩ p)
          (Spec.locMean (F := Ideal) (Spec.locInA x1 x2 x3 x4 x5 x6 x7 x8 x9 x10 x11 x12) b ⟨2 + c.val, by have := c.isLt; omega⟩ p) := by
  unfold val_main_v82
  rw [cat6_p0 _ _ _ _ _ _ _ b p k ⟨c.val, by have := c.isLt; omega⟩ (by show k.val = 0 + c.val; omega)]
  unfold val_main_v81
  rw [cat2_lo _ _ _ b p ⟨c.val, by have := c.isLt; omega⟩ c (by show c.val = 0 + c.val; omega), lo_at]
  rfl

theorem hi_chan (b : Fin 32) (p : Fin 8732) (k : Fin 75) (c : Fin 2) (hk : k.val = 2 + c.val) :
    (val_main_v82 (F := Ideal) x0 x1 x2 x3 x4 x5 x6 x7 x8 x9 x10 x11 x12 x13 x14 x15 x16 x17 x18 x19 x20 x21 x22 x23 x24) (ix3 b p k)
      = Spec.boxHi (F := Ideal) (Spec.prA x0 ⟨c.val, by have := c.isLt; omega⟩ p)
          (Spec.locMean (F := Ideal) (Spec.locInA x1 x2 x3 x4 x5 x6 x7 x8 x9 x10 x11 x12) b ⟨c.val, by have := c.isLt; omega⟩ p)
          (Spec.prA x0 ⟨2 + c.val, by have := c.isLt; omega⟩ p)
          (Spec.locMean (F := Ideal) (Spec.locInA x1 x2 x3 x4 x5 x6 x7 x8 x9 x10 x11 x12) b ⟨2 + c.val, by have := c.isLt; omega⟩ p) := by
  unfold val_main_v82
  rw [cat6_p0 _ _ _ _ _ _ _ b p k ⟨2 + c.val, by have := c.isLt; omega⟩ (by show k.val = 0 + (2 + c.val); omega)]
  unfold val_main_v81
  rw [cat2_hi _ _ _ b p ⟨2 + c.val, by have := c.isLt; omega⟩ c rfl, hi_at]
  rfl

theorem al_chan (c : Fin 4) (b : Fin 32) (p : Fin 8732) :
    (val_main_v82 (F := Ideal) x0 x1 x2 x3 x4 x5 x6 x7 x8 x9 x10 x11 x12 x13 x14 x15 x16 x17 x18 x19 x20 x21 x22 x23 x24) (ix3 b p ⟨4 + c.val, by have := c.isLt; omega⟩) = Spec.locAl (F := Ideal) (Spec.locInA x1 x2 x3 x4 x5 x6 x7 x8 x9 x10 x11 x12) b c p := by
  unfold val_main_v82
  rw [cat6_p1 _ _ _ _ _ _ _ b p _ c rfl]
  rfl

theorem ep_chan (c : Fin 4) (b : Fin 32) (p : Fin 8732) :
    (val_main_v82 (F := Ideal) x0 x1 x2 x3 x4 x5 x6 x7 x8 x9 x10 x11 x12 x13 x14 x15 x16 x17 x18 x19 x20 x21 x22 x23 x24) (ix3 b p ⟨8 + c.val, by have := c.isLt; omega⟩) = Spec.locEp (F := Ideal) (Spec.locInA x1 x2 x3 x4 x5 x6 x7 x8 x9 x10 x11 x12) b c p := by
  unfold val_main_v82
  rw [cat6_p2 _ _ _ _ _ _ _ b p _ c rfl]
  rfl

theorem nc_chan (q : Fin 21) (b : Fin 32) (p : Fin 8732) :
    (val_main_v82 (F := Ideal) x0 x1 x2 x3 x4 x5 x6 x7 x8 x9 x10 x11 x12 x13 x14 x15 x16 x17 x18 x19 x20 x21 x22 x23 x24) (ix3 b p ⟨12 + q.val, by have := q.isLt; omega⟩) = Spec.confMean (F := Ideal) (Spec.confInA x13 x14 x15 x16 x17 x18 x19 x20 x21 x22 x23 x24) q b p := by
  unfold val_main_v82
  rw [cat6_p3 _ _ _ _ _ _ _ b p _ q rfl]
  rfl

theorem ca_chan (q : Fin 21) (b : Fin 32) (p : Fin 8732) :
    (val_main_v82 (F := Ideal) x0 x1 x2 x3 x4 x5 x6 x7 x8 x9 x10 x11 x12 x13 x14 x15 x16 x17 x18 x19 x20 x21 x22 x23 x24) (ix3 b p ⟨33 + q.val, by have := q.isLt; omega⟩) = Spec.confAl (F := Ideal) (Spec.confInA x13 x14 x15 x16 x17 x18 x19 x20 x21 x22 x23 x24) q b p := by
  unfold val_main_v82
  rw [cat6_p4 _ _ _ _ _ _ _ b p _ q rfl]
  rfl

theorem ce_chan (q : Fin 21) (b : Fin 32) (p : Fin 8732) :
    (val_main_v82 (F := Ideal) x0 x1 x2 x3 x4 x5 x6 x7 x8 x9 x10 x11 x12 x13 x14 x15 x16 x17 x18 x19 x20 x21 x22 x23 x24) (ix3 b p ⟨54 + q.val, by have := q.isLt; omega⟩) = Spec.confEp (F := Ideal) (Spec.confInA x13 x14 x15 x16 x17 x18 x19 x20 x21 x22 x23 x24) q b p := by
  unfold val_main_v82
  rw [cat6_p5 _ _ _ _ _ _ _ b p _ q rfl]
  rfl

end Channels

-- The reference's result, read channel by channel, is the fusion of its arguments.
theorem ref_fused (x0 : (⟨S8732x4, .f32⟩ : BufTy).Contents (Elt Ideal)) (x1 x2 x3 x4 x5 x6 x7 x8 x9 x10 x11 x12 : (⟨S32x8732x4, .f32⟩ : BufTy).Contents (Elt Ideal)) (x13 x14 x15 x16 x17 x18 x19 x20 x21 x22 x23 x24 : (⟨S32x8732x21, .f32⟩ : BufTy).Contents (Elt Ideal)) :
    Spec.Fused (F := Ideal) (Spec.prA x0) (Spec.locInA x1 x2 x3 x4 x5 x6 x7 x8 x9 x10 x11 x12) (Spec.confInA x13 x14 x15 x16 x17 x18 x19 x20 x21 x22 x23 x24)
      (Spec.outAtA (val_main_v82 (F := Ideal) x0 x1 x2 x3 x4 x5 x6 x7 x8 x9 x10 x11 x12 x13 x14 x15 x16 x17 x18 x19 x20 x21 x22 x23 x24)) :=
  ⟨fun b p => lo_chan x0 x1 x2 x3 x4 x5 x6 x7 x8 x9 x10 x11 x12 x13 x14 x15 x16 x17 x18 x19 x20 x21 x22 x23 x24 b p 0 0 rfl,
   fun b p => lo_chan x0 x1 x2 x3 x4 x5 x6 x7 x8 x9 x10 x11 x12 x13 x14 x15 x16 x17 x18 x19 x20 x21 x22 x23 x24 b p 1 1 rfl,
   fun b p => hi_chan x0 x1 x2 x3 x4 x5 x6 x7 x8 x9 x10 x11 x12 x13 x14 x15 x16 x17 x18 x19 x20 x21 x22 x23 x24 b p 2 0 rfl,
   fun b p => hi_chan x0 x1 x2 x3 x4 x5 x6 x7 x8 x9 x10 x11 x12 x13 x14 x15 x16 x17 x18 x19 x20 x21 x22 x23 x24 b p 3 1 rfl,
   al_chan x0 x1 x2 x3 x4 x5 x6 x7 x8 x9 x10 x11 x12 x13 x14 x15 x16 x17 x18 x19 x20 x21 x22 x23 x24, ep_chan x0 x1 x2 x3 x4 x5 x6 x7 x8 x9 x10 x11 x12 x13 x14 x15 x16 x17 x18 x19 x20 x21 x22 x23 x24, nc_chan x0 x1 x2 x3 x4 x5 x6 x7 x8 x9 x10 x11 x12 x13 x14 x15 x16 x17 x18 x19 x20 x21 x22 x23 x24, ca_chan x0 x1 x2 x3 x4 x5 x6 x7 x8 x9 x10 x11 x12 x13 x14 x15 x16 x17 x18 x19 x20 x21 x22 x23 x24, ce_chan x0 x1 x2 x3 x4 x5 x6 x7 x8 x9 x10 x11 x12 x13 x14 x15 x16 x17 x18 x19 x20 x21 x22 x23 x24⟩

end Cert.ReferenceIdeal.RefValue
end
-- ==== Proof.lean ====
import proofs.«160245_g86517821215618_cont_9to1_m_1401_10_alg».proof.Defs
import proofs.«160245_g86517821215618_cont_9to1_m_1401_10_alg».proof.Proof.Gen.Kernel
import proofs.«160245_g86517821215618_cont_9to1_m_1401_10_alg».proof.Proof.Gen.KernelIdeal
import proofs.«160245_g86517821215618_cont_9to1_m_1401_10_alg».proof.Proof.Gen.ReferenceIdeal
import proofs.«160245_g86517821215618_cont_9to1_m_1401_10_alg».proof.Proof.Gen.Pre_finite_inputs
import proofs.«160245_g86517821215618_cont_9to1_m_1401_10_alg».proof.Proof.Gen.ReferenceIdeal.Run
import proofs.«160245_g86517821215618_cont_9to1_m_1401_10_alg».proof.Proof.Gen.ReferenceIdeal.Read
import proofs.«160245_g86517821215618_cont_9to1_m_1401_10_alg».proof.Proof.WordFrameK
import proofs.«160245_g86517821215618_cont_9to1_m_1401_10_alg».proof.Proof.KResult
import proofs.«160245_g86517821215618_cont_9to1_m_1401_10_alg».proof.Proof.RefFused
import Idealize.ShloMosaic.Adequacy
import Idealize.ShloMosaic.Init

noncomputable section

namespace Cert.Proof

open Idealize.ShloMosaic Idealize.ShloMosaic.TcCoe Idealize.SL.Sem

-- Each kernel frame is the program's run read at the argument arrays, at its own instance.
theorem frame_p : Cert.frame_Kernel := fun m ρ _ =>
  Cert.Kernel.Gen.frame_of m ρ (Cert.Kernel.Body.dats m) (Cert.Kernel.Body.A_eq m) (Cert.Kernel.Body.run_main (F := Bits) m ρ)

theorem frame_pi : Cert.frame_KernelIdeal := fun m ρ _ =>
  Cert.KernelIdeal.Gen.frame_of m ρ (Cert.KernelIdeal.Body.dats m) (Cert.KernelIdeal.Body.A_eq m) (Cert.KernelIdeal.Body.run_main (F := Ideal) m ρ)

-- The reference's frame is its run with the result dropped.
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

-- Both results are fusions of the same arguments, and a fusion is determined by its inputs.
set_option maxHeartbeats 1000000 in
theorem algebraic : Cert.algebraic_KernelIdeal_ReferenceIdeal := by
  intro m ρ m' ρ' _ hagree
  refine ⟨fun c => transpose Cert.KernelIdeal.S32x8732x75 [1, 2, 0] (Cert.KernelIdeal.Body.outT (F := Ideal) m c)
      Cert.KernelIdeal.Facts₀.transposes_S75x32x8732_S32x8732x75_1_2_0, Cert.KernelIdeal.Body.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v82_eq]
  obtain ⟨a0, a1, a2, a3, a4, a5, a6, a7, a8, a9, a10, a11, a12, a13, a14, a15, a16, a17, a18, a19, a20, a21, a22, a23, a24⟩ := hagree c
  rw [a0, a1, a2, a3, a4, a5, a6, a7, a8, a9, a10, a11, a12, a13, a14, a15, a16, a17, a18, a19, a20, a21, a22, a23, a24]
  have hR := Cert.ReferenceIdeal.RefValue.ref_fused (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))
  have hK := Cert.KernelIdeal.Body.result_fused (F := Ideal) m c
  exact Cert.Spec.outAtA_inj (hR.ext hK)

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof
end
